-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x8192x1 : Shape := ⟨3, ![4, 8192, 1]⟩
abbrev S4x8192x4 : Shape := ⟨3, ![4, 8192, 4]⟩
abbrev S4x512 : Shape := ⟨2, ![4, 512]⟩
abbrev S1024 : Shape := ⟨1, ![1024]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x8192x1 : S_.BroadcastsInDim S4x8192x1 (![] : Fin 0 → Fin S4x8192x1.rank)
  reducesTo_S4x8192x1_S_d0_1_2 : S4x8192x1.ReducesTo [0, 1, 2] S_
  bcast_S_S4x8192x4 : S_.BroadcastsInDim S4x8192x4 (![] : Fin 0 → Fin S4x8192x4.rank)
  reducesTo_S4x8192x4_S_d0_1_2 : S4x8192x4.ReducesTo [0, 1, 2] S_
  bcast_S_S4x512 : S_.BroadcastsInDim S4x512 (![] : Fin 0 → Fin S4x512.rank)
  reducesTo_S4x512_S_d0_1 : S4x512.ReducesTo [0, 1] S_

variable [Facts]

def fn_part2 {F : FTy → Type} [FloatOps F] (main_arg7 : FVec F S4x512 .f32) (main_v33 : IVec S_ 1) : IVec S_ 1 :=
  let main_v34 : FVec F S4x512 .f32 := Host.absf main_arg7
  let main_cst_12 : FVec F S_ .f32 := constant S_ .f32 0x7F800000#32
  let main_v35 : FVec F S4x512 .f32 := broadcastInDim S4x512 ![] bcast_S_S4x512 main_cst_12
  let main_v36 : IVec S4x512 1 := cmpf .olt main_v34 main_v35
  let main_c_13 : IVec S_ 1 := constantI S_ 1 1#1
  let main_v37 : IVec S_ 1 := (fun x v => Host.reduce IntOp.andi x v reducesTo_S4x512_S_d0_1 h_S_) main_v36 main_c_13
  let main_v38 : IVec S_ 1 := andi main_v33 main_v37
  main_v38

def fn_part1 {F : FTy → Type} [FloatOps F] (main_arg4 : FVec F S4x8192x1 .f32) (main_arg5 : FVec F S4x8192x4 .f32) (main_arg6 : FVec F S4x512 .f32) (main_arg7 : FVec F S4x512 .f32) (main_v13 : IVec S_ 1) (main_v16 : IVec S4x8192x3 1) : IVec S_ 1 :=
  let main_c_5 : IVec S_ 1 := constantI S_ 1 1#1
  let main_v17 : IVec S_ 1 := (fun x v => Host.reduce IntOp.andi x v reducesTo_S4x8192x3_S_d0_1_2 h_S_) main_v16 main_c_5
  let main_v18 : IVec S_ 1 := andi main_v13 main_v17
  let main_v19 : FVec F S4x8192x1 .f32 := Host.absf main_arg4
  let main_cst_6 : FVec F S_ .f32 := constant S_ .f32 0x7F800000#32
  let main_v20 : FVec F S4x8192x1 .f32 := broadcastInDim S4x8192x1 ![] bcast_S_S4x8192x1 main_cst_6
  let main_v21 : IVec S4x8192x1 1 := cmpf .olt main_v19 main_v20
  let main_c_7 : IVec S_ 1 := constantI S_ 1 1#1
  let main_v22 : IVec S_ 1 := (fun x v => Host.reduce IntOp.andi x v reducesTo_S4x8192x1_S_d0_1_2 h_S_) main_v21 main_c_7
  let main_v23 : IVec S_ 1 := andi main_v18 main_v22
  let main_v24 : FVec F S4x8192x4 .f32 := Host.absf main_arg5
  let main_cst_8 : FVec F S_ .f32 := constant S_ .f32 0x7F800000#32
  let main_v25 : FVec F S4x8192x4 .f32 := broadcastInDim S4x8192x4 ![] bcast_S_S4x8192x4 main_cst_8
  let main_v26 : IVec S4x8192x4 1 := cmpf .olt main_v24 main_v25
  let main_c_9 : IVec S_ 1 := constantI S_ 1 1#1
  let main_v27 : IVec S_ 1 := (fun x v => Host.reduce IntOp.andi x v reducesTo_S4x8192x4_S_d0_1_2 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg7 main_v33

def fn {F : FTy → Type} [FloatOps F] (main_arg0 : FVec F S4x8192x3 .f32) (main_arg1 : FVec F S4x8192x1 .f32) (main_arg2 : FVec F S4x8192x4 .f32) (main_arg3 : FVec F S4x8192x3 .f32) (main_arg4 : FVec F S4x8192x1 .f32) (main_arg5 : FVec F S4x8192x4 .f32) (main_arg6 : FVec F S4x512 .f32) (main_arg7 : FVec F S4x512 .f32) (main_arg8 : IVec S1024 32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x1 .f32 := Host.absf main_arg1
  let main_cst_0 : FVec F S_ .f32 := constant S_ .f32 0x7F800000#32
  let main_v5 : FVec F S4x8192x1 .f32 := broadcastInDim S4x8192x1 ![] bcast_S_S4x8192x1 main_cst_0
  let main_v6 : IVec S4x8192x1 1 := cmpf .olt main_v4 main_v5
  let main_c_1 : IVec S_ 1 := constantI S_ 1 1#1
  let main_v7 : IVec S_ 1 := (fun x v => Host.reduce IntOp.andi x v reducesTo_S4x8192x1_S_d0_1_2 h_S_) main_v6 main_c_1
  let main_v8 : IVec S_ 1 := andi main_v3 main_v7
  let main_v9 : FVec F S4x8192x4 .f32 := Host.absf main_arg2
  let main_cst_2 : FVec F S_ .f32 := constant S_ .f32 0x7F800000#32
  let main_v10 : FVec F S4x8192x4 .f32 := broadcastInDim S4x8192x4 ![] bcast_S_S4x8192x4 main_cst_2
  let main_v11 : IVec S4x8192x4 1 := cmpf .olt main_v9 main_v10
  let main_c_3 : IVec S_ 1 := constantI S_ 1 1#1
  let main_v12 : IVec S_ 1 := (fun x v => Host.reduce IntOp.andi x v reducesTo_S4x8192x4_S_d0_1_2 h_S_) main_v11 main_c_3
  let main_v13 : IVec S_ 1 := andi main_v8 main_v12
  let main_v14 : FVec F S4x8192x3 .f32 := Host.absf main_arg3
  let main_cst_4 : FVec F S_ .f32 := constant S_ .f32 0x7F800000#32
  let main_v15 : FVec F S4x8192x3 .f32 := broadcastInDim S4x8192x3 ![] bcast_S_S4x8192x3 main_cst_4
  let main_v16 : IVec S4x8192x3 1 := cmpf .olt main_v14 main_v15
  fn_part1 (F := F) main_arg4 main_arg5 main_arg6 main_arg7 main_v13 main_v16
-- ==== Kernel.lean ====
abbrev S4x8192x3 : Shape := ⟨3, ![4, 8192, 3]⟩
abbrev S4x8192x1 : Shape := ⟨3, ![4, 8192, 1]⟩
abbrev S4x8192x4 : Shape := ⟨3, ![4, 8192, 4]⟩
abbrev S4x512 : Shape := ⟨2, ![4, 512]⟩
abbrev S1024 : Shape := ⟨1, ![1024]⟩
abbrev S4x3x8192 : Shape := ⟨3, ![4, 3, 8192]⟩
abbrev S4x8192 : Shape := ⟨2, ![4, 8192]⟩
abbrev S2x4x8192 : Shape := ⟨3, ![2, 4, 8192]⟩
abbrev S4x3x512 : Shape := ⟨3, ![4, 3, 512]⟩
abbrev S4x3x1024 : Shape := ⟨3, ![4, 3, 1024]⟩
abbrev S1x4x8192 : Shape := ⟨3, ![1, 4, 8192]⟩
abbrev S4x1x512 : Shape := ⟨3, ![4, 1, 512]⟩
abbrev S4x1x8192 : Shape := ⟨3, ![4, 1, 8192]⟩
abbrev S1x3x512 : Shape := ⟨3, ![1, 3, 512]⟩
abbrev S3x512 : Shape := ⟨2, ![3, 512]⟩
abbrev S1x3x1024 : Shape := ⟨3, ![1, 3, 1024]⟩
abbrev S3x1024 : Shape := ⟨2, ![3, 1024]⟩
abbrev S512x1024 : Shape := ⟨2, ![512, 1024]⟩
abbrev S1x512 : Shape := ⟨2, ![1, 512]⟩
abbrev S512 : Shape := ⟨1, ![512]⟩
abbrev S1x1024 : Shape := ⟨2, ![1, 1024]⟩
abbrev S512x1 : Shape := ⟨2, ![512, 1]⟩
abbrev S1x1x512 : Shape := ⟨3, ![1, 1, 512]⟩
abbrev S1x1x1024 : Shape := ⟨3, ![1, 1, 1024]⟩
abbrev S_ : Shape := ⟨0, ![]⟩
abbrev S4 : Shape := ⟨1, ![4]⟩
abbrev S1024x1 : Shape := ⟨2, ![1024, 1]⟩
abbrev S4x1024x3 : Shape := ⟨3, ![4, 1024, 3]⟩
abbrev S4x1024 : Shape := ⟨2, ![4, 1024]⟩
abbrev S512x512 : Shape := ⟨2, ![512, 512]⟩
abbrev S4x1 : Shape := ⟨2, ![4, 1]⟩

abbrev nBuf : Space → Nat
  | .hbm => 109
  | .vmem => 17
  | .smem => 0
  | _ => 0

abbrev bufTy : (tb : Table) → Fin (tcTables nBuf tb) → BufTy
  | .hbm, ⟨0, _⟩ => ⟨S4x8192x3, .f32⟩
  | .hbm, ⟨1, _⟩ => ⟨S4x8192x1, .f32⟩
  | .hbm, ⟨2, _⟩ => ⟨S4x8192x4, .f32⟩
  | .hbm, ⟨3, _⟩ => ⟨S4x8192x3, .f32⟩
  | .hbm, ⟨4, _⟩ => ⟨S4x8192x1, .f32⟩
  | .hbm, ⟨5, _⟩ => ⟨S4x8192x4, .f32⟩
  | .hbm, ⟨6, _⟩ => ⟨S4x512, .f32⟩
  | .hbm, ⟨7, _⟩ => ⟨S4x512, .f32⟩
  | .hbm, ⟨8, _⟩ => ⟨S1024, .i32⟩
  | .hbm, ⟨9, _⟩ => ⟨S4x3x8192, .f32⟩
  | .hbm, ⟨10, _⟩ => ⟨S4x3x8192, .f32⟩
  | .hbm, ⟨11, _⟩ => ⟨S4x8192, .f32⟩
  | .hbm, ⟨12, _⟩ => ⟨S2x4x8192, .f32⟩
  | .hbm, ⟨13, _⟩ => ⟨S1x4x8192, .f32⟩
  | .hbm, ⟨14, _⟩ => ⟨S4x8192, .f32⟩
  | .hbm, ⟨15, _⟩ => ⟨S1x4x8192, .f32⟩
  | .hbm, ⟨16, _⟩ => ⟨S4x8192, .f32⟩
  | .hbm, ⟨17, _⟩ => ⟨S4x8192, .f32⟩
  | .hbm, ⟨18, _⟩ => ⟨S_, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x512, .f32⟩
  | .hbm, ⟨35, _⟩ => ⟨S4x512, .f32⟩
  | .hbm, ⟨36, _⟩ => ⟨S4x512, .f32⟩
  | .hbm, ⟨37, _⟩ => ⟨S4x512, .f32⟩
  | .hbm, ⟨38, _⟩ => ⟨S4x512, .f32⟩
  | .hbm, ⟨39, _⟩ => ⟨S4x512, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S4x1024x3, .f32⟩
  | .hbm, ⟨55, _⟩ => ⟨S4x3x1024, .f32⟩
  | .hbm, ⟨56, _⟩ => ⟨S4x1024, .f32⟩
  | .hbm, ⟨57, _⟩ => ⟨S_, .i32⟩
  | .hbm, ⟨58, _⟩ => ⟨S_, .f32⟩
  | .hbm, ⟨59, _⟩ => ⟨S4, .f32⟩
  | .hbm, ⟨60, _⟩ => ⟨S4x1, .f32⟩
  | .hbm, ⟨61, _⟩ => ⟨S_, .f32⟩
  | .hbm, ⟨62, _⟩ => ⟨S4x1, .f32⟩
  | .hbm, ⟨63, _⟩ => ⟨S4x1, .f32⟩
  | .hbm, ⟨64, _⟩ => ⟨S4x1024, .f32⟩
  | .hbm, ⟨65, _⟩ => ⟨S4x1024, .f32⟩
  | .hbm, ⟨66, _⟩ => ⟨S4x1024, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S_, .f32⟩
  | .hbm, ⟨75, _⟩ => ⟨S_, .i1⟩
  | .hbm, ⟨76, _⟩ => ⟨S_, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S4x8192x1, .f32⟩
  | .hbm, ⟨86, _⟩ => ⟨S4x8192x1, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S4x8192x4, .f32⟩
  | .hbm, ⟨92, _⟩ => ⟨S4x8192x4, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .local _ .vmem, ⟨0, _⟩ => ⟨S4x3x512, .f32⟩
  | .local _ .vmem, ⟨1, _⟩ => ⟨S4x3x512, .f32⟩
  | .local _ .vmem, ⟨2, _⟩ => ⟨S4x3x1024, .f32⟩
  | .local _ .vmem, ⟨3, _⟩ => ⟨S4x3x1024, .f32⟩
  | .local _ .vmem, ⟨4, _⟩ => ⟨S4x512, .f32⟩
  | .local _ .vmem, ⟨5, _⟩ => ⟨S4x512, .f32⟩
  | .local _ .vmem, ⟨6, _⟩ => ⟨S1x4x8192, .f32⟩
  | .local _ .vmem, ⟨7, _⟩ => ⟨S1x4x8192, .f32⟩
  | .local _ .vmem, ⟨8, _⟩ => ⟨S4x1x512, .f32⟩
  | .local _ .vmem, ⟨9, _⟩ => ⟨S4x1x8192, .f32⟩
  | .local _ .vmem, ⟨10, _⟩ => ⟨S4x3x512, .f32⟩
  | .local _ .vmem, ⟨11, _⟩ => ⟨S4x3x512, .f32⟩
  | .local _ .vmem, ⟨12, _⟩ => ⟨S4x3x512, .f32⟩
  | .local _ .vmem, ⟨13, _⟩ => ⟨S4x3x512, .f32⟩
  | .local _ .vmem, ⟨14, _⟩ => ⟨S4x512, .f32⟩
  | .local _ .vmem, ⟨15, _⟩ => ⟨S4x512, .f32⟩
  | .local _ .vmem, ⟨16, _⟩ => ⟨S4x1x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_call0_call0_cst : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_cst_0 : Ref sig .tc := ⟨.hbm, 61, rfl⟩
abbrev main_call0_call0_v2 : Ref sig .tc := ⟨.hbm, 62, rfl⟩
abbrev main_call0_call0_v3 : Ref sig .tc := ⟨.hbm, 63, rfl⟩
abbrev main_call0_call0_v4 : Ref sig .tc := ⟨.hbm, 64, rfl⟩
abbrev main_call0_call0_v5 : Ref sig .tc := ⟨.hbm, 65, rfl⟩
abbrev main_call0_call0_v6 : Ref sig .tc := ⟨.hbm, 66, rfl⟩
abbrev main_call0_call0_v7 : Ref sig .tc := ⟨.hbm, 67, rfl⟩
abbrev main_call0_call0_cst_1 : Ref sig .tc := ⟨.hbm, 68, rfl⟩
abbrev main_call0_call0_v8 : Ref sig .tc := ⟨.hbm, 69, rfl⟩
abbrev main_call0_call0_cst_2 : Ref sig .tc := ⟨.hbm, 70, rfl⟩
abbrev main_call0_call0_v9 : Ref sig .tc := ⟨.hbm, 71, rfl⟩
abbrev main_call0_call0_v10 : Ref sig .tc := ⟨.hbm, 72, rfl⟩
abbrev main_call0_call0_v11 : Ref sig .tc := ⟨.hbm, 73, rfl⟩
abbrev main_call0_call0_cst_3 : Ref sig .tc := ⟨.hbm, 74, rfl⟩
abbrev main_call0_call0_v12 : Ref sig .tc := ⟨.hbm, 75, rfl⟩
abbrev main_call0_call0_cst_4 : Ref sig .tc := ⟨.hbm, 76, rfl⟩
abbrev main_call0_call0_call0_v0 : Ref sig .tc := ⟨.hbm, 77, rfl⟩
abbrev main_call0_call0_call0_v1 : Ref sig .tc := ⟨.hbm, 78, rfl⟩
abbrev main_call0_v0 : Ref sig .tc := ⟨.hbm, 79, rfl⟩
abbrev main_v35 : Ref sig .tc := ⟨.hbm, 80, rfl⟩
abbrev main_cst_11 : Ref sig .tc := ⟨.hbm, 81, rfl⟩
abbrev main_v36 : Ref sig .tc := ⟨.hbm, 82, rfl⟩
abbrev main_cst_12 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_13 : Ref sig .tc := ⟨.hbm, 87, rfl⟩
abbrev main_v40 : Ref sig .tc := ⟨.hbm, 88, rfl⟩
abbrev main_cst_14 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_15 : Ref sig .tc := ⟨.hbm, 93, rfl⟩
abbrev main_v44 : Ref sig .tc := ⟨.hbm, 94, rfl⟩
abbrev main_cst_16 : Ref sig .tc := ⟨.hbm, 95, rfl⟩
abbrev main_v45 : Ref sig .tc := ⟨.hbm, 96, rfl⟩
abbrev main_cst_17 : Ref sig .tc := ⟨.hbm, 97, rfl⟩
abbrev main_v46 : Ref sig .tc := ⟨.hbm, 98, rfl⟩
abbrev main_v47 : Ref sig .tc := ⟨.hbm, 99, rfl⟩
abbrev main_cst_18 : Ref sig .tc := ⟨.hbm, 100, rfl⟩
abbrev main_v48 : Ref sig .tc := ⟨.hbm, 101, rfl⟩
abbrev main_v49 : Ref sig .tc := ⟨.hbm, 102, rfl⟩
abbrev main_cst_19 : Ref sig .tc := ⟨.hbm, 103, rfl⟩
abbrev main_v50 : Ref sig .tc := ⟨.hbm, 104, rfl⟩
abbrev main_v51 : Ref sig .tc := ⟨.hbm, 105, rfl⟩
abbrev main_cst_20 : Ref sig .tc := ⟨.hbm, 106, rfl⟩
abbrev main_v52 : Ref sig .tc := ⟨.hbm, 107, rfl⟩
abbrev main_v53 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c1024_i32 : BitVec 32 := 1024#32
  let v8 : BitVec 32 := Scalar.muli arg2 c1024_i32
  v8
def k0_off1 (i : grid0.Coords) : Fin 3 → Nat :=
  let c0_i32_4 : BitVec 32 := 0#32
  let v60 : Index := Scalar.indexCast c0_i32_4
  let c0_14 : Index := 0#32
  let arg2 : BitVec 32 := BitVec.ofNat 32 (i 2).val
  let c1024_i32 : BitVec 32 := 1024#32
  let v8 : BitVec 32 := Scalar.muli arg2 c1024_i32
  let v9 : BitVec 32 := v8
  let v61 : Index := Scalar.indexCast v9
  ![0, 0, v61.toNat]
def k0_off2 (i : grid0.Coords) : Fin 3 → Nat :=
  let c1_i32 : BitVec 32 := 1#32
  let v120 : Index := Scalar.indexCast c1_i32
  let c0_27 : Index := 0#32
  let arg2 : BitVec 32 := BitVec.ofNat 32 (i 2).val
  let c1024_i32 : BitVec 32 := 1024#32
  let v8 : BitVec 32 := Scalar.muli arg2 c1024_i32
  let v9 : BitVec 32 := v8
  let v121 : Index := Scalar.indexCast v9
  ![1, 0, v121.toNat]
def k0_off3 (i : grid0.Coords) : Fin 3 → Nat :=
  let c2_i32 : BitVec 32 := 2#32
  let v180 : Index := Scalar.indexCast c2_i32
  let c0_40 : Index := 0#32
  let arg2 : BitVec 32 := BitVec.ofNat 32 (i 2).val
  let c1024_i32 : BitVec 32 := 1024#32
  let v8 : BitVec 32 := Scalar.muli arg2 c1024_i32
  let v9 : BitVec 32 := v8
  let v181 : Index := Scalar.indexCast v9
  ![2, 0, v181.toNat]
def k0_off4 (i : grid0.Coords) : Fin 3 → Nat :=
  let c3_i32 : BitVec 32 := 3#32
  let v240 : Index := Scalar.indexCast c3_i32
  let c0_53 : Index := 0#32
  let arg2 : BitVec 32 := BitVec.ofNat 32 (i 2).val
  let c1024_i32 : BitVec 32 := 1024#32
  let v8 : BitVec 32 := Scalar.muli arg2 c1024_i32
  let v9 : BitVec 32 := v8
  let v241 : Index := Scalar.indexCast v9
  ![3, 0, v241.toNat]
def k0_cond3 (i : grid0.Coords) : BitVec 1 :=
  let arg2 : BitVec 32 := BitVec.ofNat 32 (i 2).val
  let c7_i32 : BitVec 32 := 7#32
  let v250 : BitVec 1 := Scalar.cmpi .eq arg2 c7_i32
  let v251 : BitVec 32 := Scalar.extui v250
  let c0_i32_55 : BitVec 32 := 0#32
  let v252 : BitVec 1 := Scalar.cmpi .ne v251 c0_i32_55
  v252

def k0_cond4 (i : grid0.Coords) : BitVec 1 :=
  let arg1 : BitVec 32 := BitVec.ofNat 32 (i 1).val
  let c7_i32_56 : BitVec 32 := 7#32
  let v253 : BitVec 1 := Scalar.cmpi .eq arg1 c7_i32_56
  let arg2 : BitVec 32 := BitVec.ofNat 32 (i 2).val
  let c7_i32_57 : BitVec 32 := 7#32
  let v254 : BitVec 1 := Scalar.cmpi .eq arg2 c7_i32_57
  let v255 : BitVec 1 := Scalar.andi v253 v254
  let v256 : BitVec 32 := Scalar.extui v255
  let c0_i32_58 : BitVec 32 := 0#32
  let v257 : BitVec 1 := Scalar.cmpi .ne v256 c0_i32_58
  v257

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev grid1 : Pipeline.Grid := ⟨2, ![2, 2], ![false, false]⟩

def k1_cond2 (i : grid1.Coords) : BitVec 1 :=
  let arg1 : BitVec 32 := BitVec.ofNat 32 (i 1).val
  let c1_i32_45 : BitVec 32 := 1#32
  let v220 : BitVec 1 := Scalar.cmpi .eq arg1 c1_i32_45
  let v221 : BitVec 32 := Scalar.extui v220
  let c0_i32_46 : BitVec 32 := 0#32
  let v222 : BitVec 1 := Scalar.cmpi .ne v221 c0_i32_46
  v222

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x3x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x3x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S4x8192x3_S4x3x8192_0_2_1 : S4x8192x3.Transposes [0, 2, 1] S4x3x8192
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  inb_S4x1x8192_S4x1x8192_0_0_0 : ∀ a, (![0, 0, 0] : Fin 3 → Nat) a + S4x1x8192.size a ≤ S4x1x8192.size a
  h_S4x1x8192 : 0 < S4x1x8192.numel
  shapeCasts_S4x1x8192_S4x1x8192 : S4x1x8192.ShapeCasts S4x1x8192
  inb_S4x3x512_S1x3x512_0_0_0 : ∀ a, (![0, 0, 0] : Fin 3 → Nat) a + S1x3x512.size a ≤ S4x3x512.size a
  h_S1x3x512 : 0 < S1x3x512.numel
  shapeCasts_S1x3x512_S3x512 : S1x3x512.ShapeCasts S3x512
  inb_S4x3x1024_S1x3x1024_0_0_0 : ∀ a, (![0, 0, 0] : Fin 3 → Nat) a + S1x3x1024.size a ≤ S4x3x1024.size a
  h_S1x3x1024 : 0 < S1x3x1024.numel
  shapeCasts_S1x3x1024_S3x1024 : S1x3x1024.ShapeCasts S3x1024
  slices_S3x512_o0_0_S1x512 : S3x512.Slices ![0, 0] S1x512
  shapeCasts_S1x512_S512 : S1x512.ShapeCasts S512
  slices_S3x1024_o0_0_S1x1024 : S3x1024.Slices ![0, 0] S1x1024
  shapeCasts_S1x1024_S1024 : S1x1024.ShapeCasts S1024
  shapeCasts_S512_S512x1 : S512.ShapeCasts S512x1
  shapeCasts_S1024_S1x1024 : S1024.ShapeCasts S1x1024
  broadcasts_S512x1_S512x1024 : S512x1.Broadcasts S512x1024
  broadcasts_S1x1024_S512x1024 : S1x1024.Broadcasts S512x1024
  slices_S3x512_o1_0_S1x512 : S3x512.Slices ![1, 0] S1x512
  slices_S3x1024_o1_0_S1x1024 : S3x1024.Slices ![1, 0] S1x1024
  slices_S3x512_o2_0_S1x512 : S3x512.Slices ![2, 0] S1x512
  slices_S3x1024_o2_0_S1x1024 : S3x1024.Slices ![2, 0] S1x1024
  reduces_S512x1024_S512 : S512x1024.Reduces [1] S512
  inb_S4x1x512_S1x1x512_0_0_0 : ∀ a, (![0, 0, 0] : Fin 3 → Nat) a + S1x1x512.size a ≤ S4x1x512.size a
  h_S1x1x512 : 0 < S1x1x512.numel
  shapeCasts_S1x1x512_S512 : S1x1x512.ShapeCasts S512
  shapeCasts_S512_S1x1x512 : S512.ShapeCasts S1x1x512
  reduces_S512x1024_S1024 : S512x1024.Reduces [0] S1024
  h_S1x1x1024 : 0 < S1x1x1024.numel
  shapeCasts_S1x1x1024_S1024 : S1x1x1024.ShapeCasts S1024
  shapeCasts_S1024_S1x1x1024 : S1024.ShapeCasts S1x1x1024
  inb_S4x3x512_S1x3x512_1_0_0 : ∀ a, (![1, 0, 0] : Fin 3 → Nat) a + S1x3x512.size a ≤ S4x3x512.size a
  inb_S4x3x1024_S1x3x1024_1_0_0 : ∀ a, (![1, 0, 0] : Fin 3 → Nat) a + S1x3x1024.size a ≤ S4x3x1024.size a
  inb_S4x1x512_S1x1x512_1_0_0 : ∀ a, (![1, 0, 0] : Fin 3 → Nat) a + S1x1x512.size a ≤ S4x1x512.size a
  inb_S4x3x512_S1x3x512_2_0_0 : ∀ a, (![2, 0, 0] : Fin 3 → Nat) a + S1x3x512.size a ≤ S4x3x512.size a
  inb_S4x3x1024_S1x3x1024_2_0_0 : ∀ a, (![2, 0, 0] : Fin 3 → Nat) a + S1x3x1024.size a ≤ S4x3x1024.size a
  inb_S4x1x512_S1x1x512_2_0_0 : ∀ a, (![2, 0, 0] : Fin 3 → Nat) a + S1x1x512.size a ≤ S4x1x512.size a
  inb_S4x3x512_S1x3x512_3_0_0 : ∀ a, (![3, 0, 0] : Fin 3 → Nat) a + S1x3x512.size a ≤ S4x3x512.size a
  inb_S4x3x1024_S1x3x1024_3_0_0 : ∀ a, (![3, 0, 0] : Fin 3 → Nat) a + S1x3x1024.size a ≤ S4x3x1024.size a
  inb_S4x1x512_S1x1x512_3_0_0 : ∀ a, (![3, 0, 0] : Fin 3 → Nat) a + S1x1x512.size a ≤ S4x1x512.size a
  shapeCasts_S4x1x512_S4x512 : S4x1x512.ShapeCasts S4x512
  inb_S4x512_S4x512_0_0 : ∀ a, (![0, 0] : Fin 2 → Nat) a + S4x512.size a ≤ S4x512.size a
  h_S4x512 : 0 < S4x512.numel
  shapeCasts_S4x1x8192_S4x8192 : S4x1x8192.ShapeCasts S4x8192
  inb_S1x4x8192_S1x4x8192_0_0_0 : ∀ a, (![0, 0, 0] : Fin 3 → Nat) a + S1x4x8192.size a ≤ S1x4x8192.size a
  h_S1x4x8192 : 0 < S1x4x8192.numel
  shapeCasts_S1x4x8192_S4x8192 : S1x4x8192.ShapeCasts S4x8192
  shapeCasts_S4x8192_S1x4x8192 : S4x8192.ShapeCasts S1x4x8192
  slices_S2x4x8192_S1x4x8192_0_0_0 : S2x4x8192.Slices ![0, 0, 0] S1x4x8192
  slices_S2x4x8192_S1x4x8192_1_0_0 : S2x4x8192.Slices ![1, 0, 0] S1x4x8192
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  bcast_S_S4x512 : S_.BroadcastsInDim S4x512 (![] : Fin 0 → Fin S4x512.rank)
  reducesTo_S4x512_S_d0_1 : S4x512.ReducesTo [0, 1] S_
  bcast_S_S1024 : S_.BroadcastsInDim S1024 (![] : Fin 0 → Fin S1024.rank)
  bcast_S1024_S1024x1_0 : S1024.BroadcastsInDim S1024x1 (![0] : Fin 1 → Fin S1024x1.rank)
  transposes_S4x1024x3_S4x3x1024_0_2_1 : S4x1024x3.Transposes [0, 2, 1] S4x3x1024
  iota_S512x512_d0_w32 : S512x512.Iotas .tc 32 [0]
  iota_S512x512_d1_w32 : S512x512.Iotas .tc 32 [1]
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [1] S512
  reducesTo_S4x1024_S4_d1 : S4x1024.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x1024_0_1 : S4x1.BroadcastsInDim S4x1024 (![0, 1] : Fin 2 → Fin S4x1024.rank)
  reducesTo_S4x8192x1_S_d0_1_2 : S4x8192x1.ReducesTo [0, 1, 2] S_
  reducesTo_S4x8192x4_S_d0_1_2 : S4x8192x4.ReducesTo [0, 1, 2] S_
  gather_S4x8192x3_S1024x1_S4x1024x3_02_1_n_n_1_1_413_wf : GatherDims.WF S4x8192x3 S1024x1 S4x1024x3 [0, 2] [1] [] [1] [] 1 ![4, 1, 3]
  hrank0 : 0 < grid0.rank
  k0_mult1_dvd : ∀ i : grid0.Coords, 1024 ∣ (k0_mult1 i).toNat
  k0_off1_inb : ∀ i : grid0.Coords, ∀ a, (k0_off1 i) a + S1x1x1024.size a ≤ S4x1x8192.size a
  k0_off2_inb : ∀ i : grid0.Coords, ∀ a, (k0_off2 i) a + S1x1x1024.size a ≤ S4x1x8192.size a
  k0_off3_inb : ∀ i : grid0.Coords, ∀ a, (k0_off3 i) a + S1x1x1024.size a ≤ S4x1x8192.size a
  k0_off4_inb : ∀ i : grid0.Coords, ∀ a, (k0_off4 i) a + S1x1x1024.size a ≤ S4x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x512.size a ≤ S4x3x8192.size a
  hwx0_0 : ∀ i : grid0.Coords, EltTy.bits .f32 = 32 ∨ (Rect.block (s := S4x3x8192) S4x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x1024.size a ≤ S4x3x8192.size a
  hwx0_1 : ∀ i : grid0.Coords, EltTy.bits .f32 = 32 ∨ (Rect.block (s := S4x3x8192) S4x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x8192.size a ≤ S2x4x8192.size a
  hwx0_3 : ∀ i : grid0.Coords, EltTy.bits .f32 = 32 ∨ (Rect.block (s := S2x4x8192) S1x4x8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x3x512.size a ≤ S4x3x1024.size a
  hwx1_0 : ∀ i : grid1.Coords, EltTy.bits .f32 = 32 ∨ (Rect.block (s := S4x3x1024) S4x3x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x3x512.size a ≤ S4x3x1024.size a
  hwx1_1 : ∀ i : grid1.Coords, EltTy.bits .f32 = 32 ∨ (Rect.block (s := S4x3x1024) S4x3x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x1024.size a
  hwx1_2 : ∀ i : grid1.Coords, EltTy.bits .f32 = 32 ∨ (Rect.block (s := S4x1024) S4x512.size (cc1_transform_2 i) (hinb1_2 i)).WholeWords (EltTy.packing .f32)

variable [Facts₀]

def gather_S4x8192x3_S1024x1_S4x1024x3_02_1_n_n_1_1_413 : GatherDims S4x8192x3 S1024x1 S4x1024x3 where
  offsetDims := [0, 2]
  collapsedSliceDims := [1]
  operandBatchingDims := []
  startIndicesBatchingDims := []
  startIndexMap := [1]
  indexVectorDim := 1
  sliceSizes := ![4, 1, 3]
  wf := gather_S4x8192x3_S1024x1_S4x1024x3_02_1_n_n_1_1_413_wf

abbrev win0_0 : Pipeline.Window sig grid0 :=
  Pipeline.Window.ofSpec (Memref.whole main_v0) S4x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x4x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

abbrev win1_0 : Pipeline.Window sig grid1 :=
  Pipeline.Window.ofSpec (Memref.whole main_v33) S4x3x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4x3x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4x8192x1 : Shape := ⟨3, ![4, 8192, 1]⟩
abbrev S4x8192x4 : Shape := ⟨3, ![4, 8192, 4]⟩
abbrev S4x512 : Shape := ⟨2, ![4, 512]⟩
abbrev S1024 : Shape := ⟨1, ![1024]⟩
abbrev S_ : Shape := ⟨0, ![]⟩
abbrev S4x8192 : Shape := ⟨2, ![4, 8192]⟩
abbrev S4x8192x8192 : Shape := ⟨3, ![4, 8192, 8192]⟩
abbrev S4x1x8192 : Shape := ⟨3, ![4, 1, 8192]⟩
abbrev S4 : Shape := ⟨1, ![4]⟩
abbrev S1024x1 : Shape := ⟨2, ![1024, 1]⟩
abbrev S4x1024x3 : Shape := ⟨3, ![4, 1024, 3]⟩
abbrev S4x1024 : Shape := ⟨2, ![4, 1024]⟩
abbrev S4x1024x1024 : Shape := ⟨3, ![4, 1024, 1024]⟩
abbrev S4x1024x1 : Shape := ⟨3, ![4, 1024, 1]⟩
abbrev S4x1x1024 : Shape := ⟨3, ![4, 1, 1024]⟩
abbrev S1024x1024 : Shape := ⟨2, ![1024, 1024]⟩
abbrev S1x1024x1024 : Shape := ⟨3, ![1, 1024, 1024]⟩
abbrev S4x1 : Shape := ⟨2, ![4, 1]⟩

abbrev nBuf : Space → Nat
  | .hbm => 149
  | .vmem => 0
  | .smem => 0
  | _ => 0

abbrev hbmTy0_0 (i : Nat) : BufTy := match i % 128 with
  | 0 => ⟨S4x8192x3, .f32⟩
  | 1 => ⟨S4x8192x1, .f32⟩
  | 2 => ⟨S4x8192x4, .f32⟩
  | 3 => ⟨S4x8192x3, .f32⟩
  | 4 => ⟨S4x8192x1, .f32⟩
  | 5 => ⟨S4x8192x4, .f32⟩
  | 6 => ⟨S4x512, .f32⟩
  | 7 => ⟨S4x512, .f32⟩
  | 8 => ⟨S1024, .i32⟩
  | 9 => ⟨S4x8192x3, .f32⟩
  | 10 => ⟨S_, .f32⟩
  | 11 => ⟨S4x8192, .f32⟩
  | 12 => ⟨S4x8192x3, .f32⟩
  | 13 => ⟨S_, .f32⟩
  | 14 => ⟨S4x8192, .f32⟩
  | 15 => ⟨S4x8192x8192, .f32⟩
  | 16 => ⟨S4x8192x1, .f32⟩
  | 17 => ⟨S4x1x8192, .f32⟩
  | 18 => ⟨S4x8192x8192, .f32⟩
  | 19 => ⟨S4x8192x8192, .f32⟩
  | 20 => ⟨S4x8192x8192, .f32⟩
  | 21 => ⟨S_, .f32⟩
  | 22 => ⟨S4x8192x8192, .f32⟩
  | 23 => ⟨S4x8192x8192, .f32⟩
  | 24 => ⟨S4x8192x8192, .f32⟩
  | 25 => ⟨S_, .f32⟩
  | 26 => ⟨S4x8192, .f32⟩
  | 27 => ⟨S_, .f32⟩
  | 28 => ⟨S4, .f32⟩
  | 29 => ⟨S_, .f32⟩
  | 30 => ⟨S4, .f32⟩
  | 31 => ⟨S4, .f32⟩
  | 32 => ⟨S_, .f32⟩
  | 33 => ⟨S4x8192, .f32⟩
  | 34 => ⟨S_, .f32⟩
  | 35 => ⟨S4, .f32⟩
  | 36 => ⟨S_, .f32⟩
  | 37 => ⟨S4, .f32⟩
  | 38 => ⟨S4, .f32⟩
  | 39 => ⟨S4, .f32⟩
  | 40 => ⟨S_, .f32⟩
  | 41 => ⟨S_, .f32⟩
  | 42 => ⟨S_, .f32⟩
  | 43 => ⟨S_, .f32⟩
  | 44 => ⟨S_, .f32⟩
  | 45 => ⟨S4x512, .f32⟩
  | 46 => ⟨S4x512, .f32⟩
  | 47 => ⟨S4x512, .f32⟩
  | 48 => ⟨S4x512, .f32⟩
  | 49 => ⟨S4x512, .f32⟩
  | 50 => ⟨S4x512, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .i32⟩
  | 58 => ⟨S1024, .i32⟩
  | 59 => ⟨S1024, .i1⟩
  | 60 => ⟨S_, .i32⟩
  | 61 => ⟨S1024, .i32⟩
  | 62 => ⟨S1024, .i32⟩
  | 63 => ⟨S1024, .i32⟩
  | 64 => ⟨S1024x1, .i32⟩
  | 65 => ⟨S4x1024x3, .f32⟩
  | 66 => ⟨S4x1024x3, .f32⟩
  | 67 => ⟨S_, .f32⟩
  | 68 => ⟨S4x1024, .f32⟩
  | 69 => ⟨S4x1024x3, .f32⟩
  | 70 => ⟨S_, .f32⟩
  | 71 => ⟨S4x1024, .f32⟩
  | 72 => ⟨S4x1024x1024, .f32⟩
  | 73 => ⟨S4x1024x1, .f32⟩
  | 74 => ⟨S4x1x1024, .f32⟩
  | 75 => ⟨S4x1024x1024, .f32⟩
  | 76 => ⟨S4x1024x1024, .f32⟩
  | 77 => ⟨S4x1024x1024, .f32⟩
  | 78 => ⟨S_, .f32⟩
  | 79 => ⟨S4x1024x1024, .f32⟩
  | 80 => ⟨S4x1024x1024, .f32⟩
  | 81 => ⟨S4x1024x1024, .f32⟩
  | 82 => ⟨S1024x1024, .i32⟩
  | 83 => ⟨S1024x1024, .i32⟩
  | 84 => ⟨S_, .i32⟩
  | 85 => ⟨S1024x1024, .i32⟩
  | 86 => ⟨S1024x1024, .i32⟩
  | 87 => ⟨S1024x1024, .i1⟩
  | 88 => ⟨S1024x1024, .f32⟩
  | 89 => ⟨S1x1024x1024, .f32⟩
  | 90 => ⟨S_, .f32⟩
  | 91 => ⟨S1x1024x1024, .f32⟩
  | 92 => ⟨S1x1024x1024, .f32⟩
  | 93 => ⟨S4x1024x1024, .f32⟩
  | 94 => ⟨S4x1024x1024, .f32⟩
  | 95 => ⟨S_, .f32⟩
  | 96 => ⟨S4x1024, .f32⟩
  | 97 => ⟨S_, .i32⟩
  | 98 => ⟨S_, .f32⟩
  | 99 => ⟨S4, .f32⟩
  | 100 => ⟨S4x1, .f32⟩
  | 101 => ⟨S_, .f32⟩
  | 102 => ⟨S4x1, .f32⟩
  | 103 => ⟨S4x1, .f32⟩
  | 104 => ⟨S4x1024, .f32⟩
  | 105 => ⟨S4x1024, .f32⟩
  | 106 => ⟨S4x1024, .f32⟩
  | 107 => ⟨S_, .f32⟩
  | 108 => ⟨S_, .f32⟩
  | 109 => ⟨S_, .f32⟩
  | 110 => ⟨S_, .f32⟩
  | 111 => ⟨S4, .f32⟩
  | 112 => ⟨S4, .f32⟩
  | 113 => ⟨S4, .f32⟩
  | 114 => ⟨S_, .f32⟩
  | 115 => ⟨S_, .i1⟩
  | 116 => ⟨S_, .f32⟩
  | 117 => ⟨S_, .f32⟩
  | 118 => ⟨S4, .f32⟩
  | 119 => ⟨S4, .f32⟩
  | 120 => ⟨S4, .f32⟩
  | 121 => ⟨S_, .f32⟩
  | 122 => ⟨S_, .f32⟩
  | 123 => ⟨S_, .f32⟩
  | 124 => ⟨S_, .f32⟩
  | 125 => ⟨S4x8192x1, .f32⟩
  | 126 => ⟨S4x8192x1, .f32⟩
  | 127 => ⟨S_, .f32⟩
  | _ => ⟨S4x8192x3, .f32⟩

abbrev hbmTy0_1 (i : Nat) : BufTy := match i % 128 with
  | 0 => ⟨S_, .f32⟩
  | 1 => ⟨S_, .f32⟩
  | 2 => ⟨S_, .f32⟩
  | 3 => ⟨S4x8192x4, .f32⟩
  | 4 => ⟨S4x8192x4, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_cst_7 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_cst_9 : Ref sig .tc := ⟨.hbm, 42, rfl⟩
abbrev main_v23 : Ref sig .tc := ⟨.hbm, 43, rfl⟩
abbrev main_cst_10 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_11 : Ref sig .tc := ⟨.hbm, 51, rfl⟩
abbrev main_v30 : Ref sig .tc := ⟨.hbm, 52, rfl⟩
abbrev main_cst_12 : Ref sig .tc := ⟨.hbm, 53, rfl⟩
abbrev main_v31 : Ref sig .tc := ⟨.hbm, 54, rfl⟩
abbrev main_cst_13 : Ref sig .tc := ⟨.hbm, 55, rfl⟩
abbrev main_v32 : Ref sig .tc := ⟨.hbm, 56, rfl⟩
abbrev main_c : Ref sig .tc := ⟨.hbm, 57, rfl⟩
abbrev main_v33 : Ref sig .tc := ⟨.hbm, 58, rfl⟩
abbrev main_v34 : Ref sig .tc := ⟨.hbm, 59, rfl⟩
abbrev main_c_14 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_15 : Ref sig .tc := ⟨.hbm, 67, rfl⟩
abbrev main_v41 : Ref sig .tc := ⟨.hbm, 68, rfl⟩
abbrev main_v42 : Ref sig .tc := ⟨.hbm, 69, rfl⟩
abbrev main_cst_16 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_17 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_18 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_19 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_20 : Ref sig .tc := ⟨.hbm, 95, rfl⟩
abbrev main_v64 : Ref sig .tc := ⟨.hbm, 96, rfl⟩
abbrev main_c_21 : Ref sig .tc := ⟨.hbm, 97, rfl⟩
abbrev main_call0_call0_cst : Ref sig .tc := ⟨.hbm, 98, rfl⟩
abbrev main_call0_call0_v0 : Ref sig .tc := ⟨.hbm, 99, rfl⟩
abbrev main_call0_call0_v1 : Ref sig .tc := ⟨.hbm, 100, rfl⟩
abbrev main_call0_call0_cst_0 : Ref sig .tc := ⟨.hbm, 101, rfl⟩
abbrev main_call0_call0_v2 : Ref sig .tc := ⟨.hbm, 102, rfl⟩
abbrev main_call0_call0_v3 : Ref sig .tc := ⟨.hbm, 103, rfl⟩
abbrev main_call0_call0_v4 : Ref sig .tc := ⟨.hbm, 104, rfl⟩
abbrev main_call0_call0_v5 : Ref sig .tc := ⟨.hbm, 105, rfl⟩
abbrev main_call0_call0_v6 : Ref sig .tc := ⟨.hbm, 106, rfl⟩
abbrev main_call0_call0_v7 : Ref sig .tc := ⟨.hbm, 107, rfl⟩
abbrev main_call0_call0_cst_1 : Ref sig .tc := ⟨.hbm, 108, rfl⟩
abbrev main_call0_call0_v8 : Ref sig .tc := ⟨.hbm, 109, rfl⟩
abbrev main_call0_call0_cst_2 : Ref sig .tc := ⟨.hbm, 110, rfl⟩
abbrev main_call0_call0_v9 : Ref sig .tc := ⟨.hbm, 111, rfl⟩
abbrev main_call0_call0_v10 : Ref sig .tc := ⟨.hbm, 112, rfl⟩
abbrev main_call0_call0_v11 : Ref sig .tc := ⟨.hbm, 113, rfl⟩
abbrev main_call0_call0_cst_3 : Ref sig .tc := ⟨.hbm, 114, rfl⟩
abbrev main_call0_call0_v12 : Ref sig .tc := ⟨.hbm, 115, rfl⟩
abbrev main_call0_call0_cst_4 : Ref sig .tc := ⟨.hbm, 116, rfl⟩
abbrev main_call0_call0_call0_v0 : Ref sig .tc := ⟨.hbm, 117, rfl⟩
abbrev main_call0_call0_call0_v1 : Ref sig .tc := ⟨.hbm, 118, rfl⟩
abbrev main_call0_v0 : Ref sig .tc := ⟨.hbm, 119, rfl⟩
abbrev main_v65 : Ref sig .tc := ⟨.hbm, 120, rfl⟩
abbrev main_cst_22 : Ref sig .tc := ⟨.hbm, 121, rfl⟩
abbrev main_v66 : Ref sig .tc := ⟨.hbm, 122, rfl⟩
abbrev main_cst_23 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_24 : Ref sig .tc := ⟨.hbm, 127, rfl⟩
abbrev main_v70 : Ref sig .tc := ⟨.hbm, 128, rfl⟩
abbrev main_cst_25 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_cst_26 : Ref sig .tc := ⟨.hbm, 133, rfl⟩
abbrev main_v74 : Ref sig .tc := ⟨.hbm, 134, rfl⟩
abbrev main_cst_27 : Ref sig .tc := ⟨.hbm, 135, rfl⟩
abbrev main_v75 : Ref sig .tc := ⟨.hbm, 136, rfl⟩
abbrev main_cst_28 : Ref sig .tc := ⟨.hbm, 137, rfl⟩
abbrev main_v76 : Ref sig .tc := ⟨.hbm, 138, rfl⟩
abbrev main_v77 : Ref sig .tc := ⟨.hbm, 139, rfl⟩
abbrev main_cst_29 : Ref sig .tc := ⟨.hbm, 140, rfl⟩
abbrev main_v78 : Ref sig .tc := ⟨.hbm, 141, rfl⟩
abbrev main_v79 : Ref sig .tc := ⟨.hbm, 142, rfl⟩
abbrev main_cst_30 : Ref sig .tc := ⟨.hbm, 143, rfl⟩
abbrev main_v80 : Ref sig .tc := ⟨.hbm, 144, rfl⟩
abbrev main_v81 : Ref sig .tc := ⟨.hbm, 145, rfl⟩
abbrev main_cst_31 : Ref sig .tc := ⟨.hbm, 146, rfl⟩
abbrev main_v82 : Ref sig .tc := ⟨.hbm, 147, rfl⟩
abbrev main_v83 : Ref sig .tc := ⟨.hbm, 148, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  reducesTo_S4_S_d0 : S4.ReducesTo [0] S_
  bcast_S_S4x512 : S_.BroadcastsInDim S4x512 (![] : Fin 0 → Fin S4x512.rank)
  reducesTo_S4x512_S_d0_1 : S4x512.ReducesTo [0, 1] S_
  bcast_S_S1024 : S_.BroadcastsInDim S1024 (![] : Fin 0 → Fin S1024.rank)
  bcast_S1024_S1024x1_0 : S1024.BroadcastsInDim S1024x1 (![0] : Fin 1 → Fin S1024x1.rank)
  reducesTo_S4x1024x3_S4x1024_d2 : S4x1024x3.ReducesTo [2] S4x1024
  bcast_S4x1024_S4x1024x1_0_1 : S4x1024.BroadcastsInDim S4x1024x1 (![0, 1] : Fin 2 → Fin S4x1024x1.rank)
  bcast_S4x1024_S4x1x1024_0_2 : S4x1024.BroadcastsInDim S4x1x1024 (![0, 2] : Fin 2 → Fin S4x1x1024.rank)
  bcast_S4x1024x1_S4x1024x1024_0_1_2 : S4x1024x1.BroadcastsInDim S4x1024x1024 (![0, 1, 2] : Fin 3 → Fin S4x1024x1024.rank)
  bcast_S4x1x1024_S4x1024x1024_0_1_2 : S4x1x1024.BroadcastsInDim S4x1024x1024 (![0, 1, 2] : Fin 3 → Fin S4x1024x1024.rank)
  bcast_S_S4x1024x1024 : S_.BroadcastsInDim S4x1024x1024 (![] : Fin 0 → Fin S4x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S_S1x1024x1024 : S_.BroadcastsInDim S1x1024x1024 (![] : Fin 0 → Fin S1x1024x1024.rank)
  bcast_S1x1024x1024_S4x1024x1024_0_1_2 : S1x1024x1024.BroadcastsInDim S4x1024x1024 (![0, 1, 2] : Fin 3 → Fin S4x1024x1024.rank)
  reducesTo_S4x1024x1024_S4x1024_d2 : S4x1024x1024.ReducesTo [2] S4x1024
  reducesTo_S4x1024_S4_d1 : S4x1024.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x1024_0_1 : S4x1.BroadcastsInDim S4x1024 (![0, 1] : Fin 2 → Fin S4x1024.rank)
  reducesTo_S4x8192x1_S_d0_1_2 : S4x8192x1.ReducesTo [0, 1, 2] S_
  reducesTo_S4x8192x4_S_d0_1_2 : S4x8192x4.ReducesTo [0, 1, 2] S_
  dot_S4x8192x3_S4x8192x3_S4x8192x8192_2_2_1_1_0_0_wf : DotDims.WF S4x8192x3 S4x8192x3 S4x8192x8192 [2] [2] [1] [1] [0] [0]
  gather_S4x8192x3_S1024x1_S4x1024x3_02_1_n_n_1_1_413_wf : GatherDims.WF S4x8192x3 S1024x1 S4x1024x3 [0, 2] [1] [] [1] [] 1 ![4, 1, 3]
  dot_S4x1024x3_S4x1024x3_S4x1024x1024_2_2_1_1_0_0_wf : DotDims.WF S4x1024x3 S4x1024x3 S4x1024x1024 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf
def gather_S4x8192x3_S1024x1_S4x1024x3_02_1_n_n_1_1_413 : GatherDims S4x8192x3 S1024x1 S4x1024x3 where
  offsetDims := [0, 2]
  collapsedSliceDims := [1]
  operandBatchingDims := []
  startIndicesBatchingDims := []
  startIndexMap := [1]
  indexVectorDim := 1
  sliceSizes := ![4, 1, 3]
  wf := gather_S4x8192x3_S1024x1_S4x1024x3_02_1_n_n_1_1_413_wf
def dot_S4x1024x3_S4x1024x3_S4x1024x1024_2_2_1_1_0_0 : DotDims S4x1024x3 S4x1024x3 S4x1024x1024 where
  lhsContracting := [2]
  rhsContracting := [2]
  lhsNonContracting := [1]
  rhsNonContracting := [1]
  lhsBatch := [0]
  rhsBatch := [0]
  wf := dot_S4x1024x3_S4x1024x3_S4x1024x1024_2_2_1_1_0_0_wf

class Facts : Prop extends Facts₀ where

variable [Facts]
-- ==== Proof.Kernel.R0Defs.lean ====
import proofs.«427145_j9268539424872_3_alg».proof.Proof.Gen.Kernel.Launch
import proofs.«427145_j9268539424872_3_alg».proof.Proof.Gen.Kernel.Skeleton
import proofs.«427145_j9268539424872_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 := by decide +kernel

abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 64 = 0 := by decide +kernel

abbrev cond0_2 (i : grid0.Coords) : Prop := k0_cond3 i = 1#1
theorem hcond0_2 : ∀ t : Fin cfg0.N, cond0_2 (grid0.coords t) ↔ t.val % 8 = 7 := by decide +kernel

abbrev cond0_3 (i : grid0.Coords) : Prop := k0_cond4 i = 1#1
theorem hcond0_3 : ∀ t : Fin cfg0.N, cond0_3 (grid0.coords t) ↔ t.val % 64 = 63 := by decide +kernel

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
theorem liveAt0_2 : ∀ t : Fin cfg0.N, cond0_2 (grid0.coords t) → cfg0.idle 2 (grid0.coords t) = false := by decide +kernel

theorem idleAt0_3 : ∀ t : Fin cfg0.N, ¬cond0_3 (grid0.coords t) → cfg0.idle 3 (grid0.coords t) = true := by decide +kernel
theorem noFlush0_3 : ∀ t : Fin cfg0.N, ¬cond0_3 (grid0.coords t) → (cfg0.win 3).flush t = false := by decide +kernel
theorem liveAt0_3 : ∀ t : Fin cfg0.N, cond0_3 (grid0.coords t) → cfg0.idle 3 (grid0.coords t) = false := by decide +kernel

abbrev VO0_2 : View sig .tc .vmem S4x512 .f32 := (Memref.whole cc0_stg2_0 : Memref sig .tc .vmem S4x512 .f32).view
abbrev VO0_3 : View sig .tc .vmem S1x4x8192 .f32 := (Memref.whole cc0_stg3_0 : Memref sig .tc .vmem S1x4x8192 .f32).view
abbrev ms0_0 (t : Fin cfg0.N) : Memref sig .tc .vmem S4x3x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x8192 .f32 := win0_3.stage (cfg0.slots t 3)
abbrev hs0_3 (t : Fin cfg0.N) : (ms0_3 t).IsWhole := hstage0_3 ((cfg0.slots t 3).cast nbuf0_3)

abbrev scM0_0 : Memref sig .tc .vmem S4x1x512 .f32 := Memref.whole cc0_scratch0
abbrev scM0_1 : Memref sig .tc .vmem S4x1x8192 .f32 := Memref.whole cc0_scratch1
abbrev VS0_0 : View sig .tc .vmem S4x1x512 .f32 := scM0_0.view
abbrev VS0_1 : View sig .tc .vmem S4x1x8192 .f32 := scM0_1.view

abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA; rw [scopedRest0_eq]; simp only [scM0_0, scM0_1, owns_whole]; try rfl

end Cert.Kernel.Hand

end
-- ==== Proof.Kernel.R0RunA.lean ====
-- (the text of proof/Proof/KernelIdeal/R0RunA.lean with the namespace Cert.KernelIdeal replaced by Cert.Kernel)
/-
  Region 0, case A: both accumulators are reset to +∞ first (i = 0 ∧ j = 0), then updated; no output block is stored. The body loads the two input blocks batch by batch, forms the 512 × 1024 tile of
  squared distances, and folds its row minima into the row accumulator's row b and its column minima into the column
  accumulator's slice [b, 0, 1024·j .. 1024·j + 1024), for b = 0 … 3. What the stores leave is found by running the body.
-/
import proofs.«427145_j9268539424872_3_alg».proof.Proof.Kernel.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x1x512 .f32) (harg7 : arg7.IsWhole) (arg8 : Memref sig .tc .vmem S4x1x8192 .f32) (harg8 : arg8.IsWhole) (hc0 : cond0_0 i) (hc1 : cond0_1 i) (hc2 : ¬cond0_2 i) (hc3 : ¬cond0_3 i)
    (x0 : Vec F S4x3x512 .f32) (x1 : Vec F S4x3x1024 .f32) :
    Σ' (L2 : List (View.Piece (Elt F) S4x512 .f32)) (L3 : List (View.Piece (Elt F) S1x4x8192 .f32)) (LS0 : List (View.Piece (Elt F) S4x1x512 .f32)), { LS1 : List (View.Piece (Elt F) S4x1x8192 .f32) //
      ∀ (xi2 : Vec F S4x512 .f32) (xi3 : Vec F S1x4x8192 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__chamfer_kernel i arg3 harg3 arg4 harg4 arg5 harg5 arg6 harg6 arg7 harg7 arg8 harg8) K } := by
  refine ⟨[], [], ?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact H5

end Cert.Kernel.Hand

end
-- ==== Proof.Kernel.R0RunB.lean ====
-- (the text of proof/Proof/KernelIdeal/R0RunB.lean with the namespace Cert.KernelIdeal replaced by Cert.Kernel)
/-
  Region 0, case B: the row accumulator is reset to +∞ first (j = 0, i ≠ 0), the column accumulator is carried; both are then updated; no output block is stored. The body loads the two input blocks batch by batch, forms the 512 × 1024 tile of
  squared distances, and folds its row minima into the row accumulator's row b and its column minima into the column
  accumulator's slice [b, 0, 1024·j .. 1024·j + 1024), for b = 0 … 3. What the stores leave is found by running the body.
-/
import proofs.«427145_j9268539424872_3_alg».proof.Proof.Kernel.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x1x512 .f32) (harg7 : arg7.IsWhole) (arg8 : Memref sig .tc .vmem S4x1x8192 .f32) (harg8 : arg8.IsWhole) (hc0 : cond0_0 i) (hc1 : ¬cond0_1 i) (hc2 : ¬cond0_2 i) (hc3 : ¬cond0_3 i)
    (x0 : Vec F S4x3x512 .f32) (x1 : Vec F S4x3x1024 .f32) (xs1 : Vec F S4x1x8192 .f32) :
    Σ' (L2 : List (View.Piece (Elt F) S4x512 .f32)) (L3 : List (View.Piece (Elt F) S1x4x8192 .f32)) (LS0 : List (View.Piece (Elt F) S4x1x512 .f32)), { LS1 : List (View.Piece (Elt F) S4x1x8192 .f32) //
      ∀ (xi2 : Vec F S4x512 .f32) (xi3 : Vec F S1x4x8192 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ owns (c : Thread nD τ) arg8 fullShare xs1
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0) ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0__chamfer_kernel i arg3 harg3 arg4 harg4 arg5 harg5 arg6 harg6 arg7 harg7 arg8 harg8) K } := by
  refine ⟨[], [], ?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg3.eq_unread hf0; obtain rfl := harg4.eq_unread hf1; obtain rfl := harg5.eq_unread hf2; obtain rfl := harg6.eq_unread hf3; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexact H5

end Cert.Kernel.Hand

end
-- ==== Proof.Kernel.R0RunC.lean ====
-- (the text of proof/Proof/KernelIdeal/R0RunC.lean with the namespace Cert.KernelIdeal replaced by Cert.Kernel)
/-
  Region 0, case C: no branch is taken (0 < j < 7): both accumulators are carried and updated; no output block is stored. The body loads the two input blocks batch by batch, forms the 512 × 1024 tile of
  squared distances, and folds its row minima into the row accumulator's row b and its column minima into the column
  accumulator's slice [b, 0, 1024·j .. 1024·j + 1024), for b = 0 … 3. What the stores leave is found by running the body.
-/
import proofs.«427145_j9268539424872_3_alg».proof.Proof.Kernel.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x1x512 .f32) (harg7 : arg7.IsWhole) (arg8 : Memref sig .tc .vmem S4x1x8192 .f32) (harg8 : arg8.IsWhole) (hc0 : ¬cond0_0 i) (hc1 : ¬cond0_1 i) (hc2 : ¬cond0_2 i) (hc3 : ¬cond0_3 i)
    (x0 : Vec F S4x3x512 .f32) (x1 : Vec F S4x3x1024 .f32) (xs0 : Vec F S4x1x512 .f32) (xs1 : Vec F S4x1x8192 .f32) :
    Σ' (L2 : List (View.Piece (Elt F) S4x512 .f32)) (L3 : List (View.Piece (Elt F) S1x4x8192 .f32)) (LS0 : List (View.Piece (Elt F) S4x1x512 .f32)), { LS1 : List (View.Piece (Elt F) S4x1x8192 .f32) //
      ∀ (xi2 : Vec F S4x512 .f32) (xi3 : Vec F S1x4x8192 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (arg7.view.loc (c : Thread nD τ) ↦[arg7.view.set]{fullShare} arg7.view.writes (Elt F) (harg7.unread xs0) LS0) ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0__chamfer_kernel i arg3 harg3 arg4 harg4 arg5 harg5 arg6 harg6 arg7 harg7 arg8 harg8) K } := by
  refine ⟨[], [], ?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexact H4
    iexact H5

end Cert.Kernel.Hand

end
-- ==== Proof.Kernel.R0RunD.lean ====
-- (the text of proof/Proof/KernelIdeal/R0RunD.lean with the namespace Cert.KernelIdeal replaced by Cert.Kernel)
/-
  Region 0, case D: j = 7 (and not i = 7): both accumulators are carried and updated, and the row accumulator is copied to the row output's block. The body loads the two input blocks batch by batch, forms the 512 × 1024 tile of
  squared distances, and folds its row minima into the row accumulator's row b and its column minima into the column
  accumulator's slice [b, 0, 1024·j .. 1024·j + 1024), for b = 0 … 3. What the stores leave is found by running the body.
-/
import proofs.«427145_j9268539424872_3_alg».proof.Proof.Kernel.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_D (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x1x512 .f32) (harg7 : arg7.IsWhole) (arg8 : Memref sig .tc .vmem S4x1x8192 .f32) (harg8 : arg8.IsWhole) (hc0 : ¬cond0_0 i) (hc1 : ¬cond0_1 i) (hc2 : cond0_2 i) (hc3 : ¬cond0_3 i)
    (x0 : Vec F S4x3x512 .f32) (x1 : Vec F S4x3x1024 .f32) (xs0 : Vec F S4x1x512 .f32) (xs1 : Vec F S4x1x8192 .f32) :
    Σ' (L2 : List (View.Piece (Elt F) S4x512 .f32)) (L3 : List (View.Piece (Elt F) S1x4x8192 .f32)) (LS0 : List (View.Piece (Elt F) S4x1x512 .f32)), { LS1 : List (View.Piece (Elt F) S4x1x8192 .f32) //
      ∀ (xi3 : Vec F S1x4x8192 .f32) (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xi3 ∗ (arg7.view.loc (c : Thread nD τ) ↦[arg7.view.set]{fullShare} arg7.view.writes (Elt F) (harg7.unread xs0) LS0) ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0__chamfer_kernel i arg3 harg3 arg4 harg4 arg5 harg5 arg6 harg6 arg7 harg7 arg8 harg8) K } := by
  refine ⟨?_, [], ?_, ?_, fun xi3 E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
    obtain rfl := harg3.eq_unread hf0; obtain rfl := harg4.eq_unread hf1; obtain rfl := harg6.eq_unread hf3; obtain rfl := harg7.eq_unread hf4; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexists _; isplitr; · ipureintro; exact harg6.read_unread _
      iexact H3
    isplitl [H4]
    · iexact H4
    iexact H5

end Cert.Kernel.Hand

end
-- ==== Proof.Kernel.R0RunE.lean ====
-- (the text of proof/Proof/KernelIdeal/R0RunE.lean with the namespace Cert.KernelIdeal replaced by Cert.Kernel)
/-
  Region 0, case E: i = 7 ∧ j = 7: both accumulators are carried and updated, the row accumulator is copied to the row output's block and the column accumulator to the column output's block. The body loads the two input blocks batch by batch, forms the 512 × 1024 tile of
  squared distances, and folds its row minima into the row accumulator's row b and its column minima into the column
  accumulator's slice [b, 0, 1024·j .. 1024·j + 1024), for b = 0 … 3. What the stores leave is found by running the body.
-/
import proofs.«427145_j9268539424872_3_alg».proof.Proof.Kernel.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_E (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x1x512 .f32) (harg7 : arg7.IsWhole) (arg8 : Memref sig .tc .vmem S4x1x8192 .f32) (harg8 : arg8.IsWhole) (hc0 : ¬cond0_0 i) (hc1 : ¬cond0_1 i) (hc2 : cond0_2 i) (hc3 : cond0_3 i)
    (x0 : Vec F S4x3x512 .f32) (x1 : Vec F S4x3x1024 .f32) (xs0 : Vec F S4x1x512 .f32) (xs1 : Vec F S4x1x8192 .f32) :
    Σ' (L2 : List (View.Piece (Elt F) S4x512 .f32)) (L3 : List (View.Piece (Elt F) S1x4x8192 .f32)) (LS0 : List (View.Piece (Elt F) S4x1x512 .f32)), { LS1 : List (View.Piece (Elt F) S4x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (arg7.view.loc (c : Thread nD τ) ↦[arg7.view.set]{fullShare} arg7.view.writes (Elt F) (harg7.unread xs0) LS0) ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0__chamfer_kernel i arg3 harg3 arg4 harg4 arg5 harg5 arg6 harg6 arg7 harg7 arg8 harg8) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
    obtain rfl := harg3.eq_unread hf0; obtain rfl := harg4.eq_unread hf1; obtain rfl := harg7.eq_unread hf4; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexists _; iexact H3
    isplitl [H4]
    · iexact H4
    iexact H5

end Cert.Kernel.Hand

end
-- ==== Proof.Kernel.R0Frame.lean ====
import proofs.«427145_j9268539424872_3_alg».proof.Proof.Kernel.R0RunA
import proofs.«427145_j9268539424872_3_alg».proof.Proof.Kernel.R0RunB
import proofs.«427145_j9268539424872_3_alg».proof.Proof.Kernel.R0RunC
import proofs.«427145_j9268539424872_3_alg».proof.Proof.Kernel.R0RunD
import proofs.«427145_j9268539424872_3_alg».proof.Proof.Kernel.R0RunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev T0 (F : FTy → Type) [FloatOps F] : Type := Vec F S4x512 .f32 × Vec F S1x4x8192 .f32 × Vec F S4x1x512 .f32 × Vec F S4x1x8192 .f32
def rb2 (L : List (View.Piece (Elt F) S4x512 .f32)) : Vec F S4x512 .f32 := VO0_2.read (Elt F) (VO0_2.writes (Elt F) VO0_2.junk L)
def rb3 (L : List (View.Piece (Elt F) S1x4x8192 .f32)) : Vec F S1x4x8192 .f32 := VO0_3.read (Elt F) (VO0_3.writes (Elt F) VO0_3.junk L)
def rbS0 (L : List (View.Piece (Elt F) S4x1x512 .f32)) : Vec F S4x1x512 .f32 := VS0_0.read (Elt F) (VS0_0.writes (Elt F) VS0_0.junk L)
def rbS1 (L : List (View.Piece (Elt F) S4x1x8192 .f32)) : Vec F S4x1x8192 .f32 := VS0_1.read (Elt F) (VS0_1.writes (Elt F) VS0_1.junk L)
def cbS0 (p : Vec F S4x1x512 .f32) (L : List (View.Piece (Elt F) S4x1x512 .f32)) : Vec F S4x1x512 .f32 :=
  VS0_0.read (Elt F) (VS0_0.writes (Elt F) ((Memref.isWhole_whole cc0_scratch0 : scM0_0.IsWhole).unread p) L)
def cbS1 (p : Vec F S4x1x8192 .f32) (L : List (View.Piece (Elt F) S4x1x8192 .f32)) : Vec F S4x1x8192 .f32 :=
  VS0_1.read (Elt F) (VS0_1.writes (Elt F) ((Memref.isWhole_whole cc0_scratch1 : scM0_1.IsWhole).unread p) L)
def junk0 : T0 F := (rb2 [], rb3 [], rbS0 [], rbS1 [])

theorem hypsA (t : Fin cfg0.N) (h1 : t.val % 64 = 0) : let i := grid0.coords t; cond0_0 i ∧ cond0_1 i ∧ ¬cond0_2 i ∧ ¬cond0_3 i := by
  dsimp only; rw [hcond0_0, hcond0_1, hcond0_2, hcond0_3]; omega
theorem hypsB (t : Fin cfg0.N) (h1 : ¬t.val % 64 = 0) (h0 : t.val % 8 = 0) : let i := grid0.coords t; cond0_0 i ∧ ¬cond0_1 i ∧ ¬cond0_2 i ∧ ¬cond0_3 i := by
  dsimp only; rw [hcond0_0, hcond0_1, hcond0_2, hcond0_3]; omega
theorem hypsC (t : Fin cfg0.N) (h0 : ¬t.val % 8 = 0) (h2 : ¬t.val % 8 = 7) : let i := grid0.coords t; ¬cond0_0 i ∧ ¬cond0_1 i ∧ ¬cond0_2 i ∧ ¬cond0_3 i := by
  dsimp only; rw [hcond0_0, hcond0_1, hcond0_2, hcond0_3]; omega
theorem hypsD (t : Fin cfg0.N) (h2 : t.val % 8 = 7) (h3 : ¬t.val % 64 = 63) : let i := grid0.coords t; ¬cond0_0 i ∧ ¬cond0_1 i ∧ cond0_2 i ∧ ¬cond0_3 i := by
  dsimp only; rw [hcond0_0, hcond0_1, hcond0_2, hcond0_3]; omega
theorem hypsE (t : Fin cfg0.N) (h3 : t.val % 64 = 63) : let i := grid0.coords t; ¬cond0_0 i ∧ ¬cond0_1 i ∧ cond0_2 i ∧ cond0_3 i := by
  dsimp only; rw [hcond0_0, hcond0_1, hcond0_2, hcond0_3]; omega

abbrev run0_A (c : Dev nD) (t : Fin cfg0.N) (h1 : t.val % 64 = 0)  :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (hypsA t h1).1 (hypsA t h1).2.1 (hypsA t h1).2.2.1 (hypsA t h1).2.2.2 (iblk0 V c 0 t) (iblk0 V c 1 t)

abbrev run0_B (c : Dev nD) (t : Fin cfg0.N) (h1 : ¬t.val % 64 = 0) (h0 : t.val % 8 = 0) (p1 : Vec F S4x1x8192 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (hypsB t h1 h0).1 (hypsB t h1 h0).2.1 (hypsB t h1 h0).2.2.1 (hypsB t h1 h0).2.2.2 (iblk0 V c 0 t) (iblk0 V c 1 t) p1

abbrev run0_C (c : Dev nD) (t : Fin cfg0.N) (h0 : ¬t.val % 8 = 0) (h2 : ¬t.val % 8 = 7) (p0 : Vec F S4x1x512 .f32) (p1 : Vec F S4x1x8192 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (hypsC t h0 h2).1 (hypsC t h0 h2).2.1 (hypsC t h0 h2).2.2.1 (hypsC t h0 h2).2.2.2 (iblk0 V c 0 t) (iblk0 V c 1 t) p0 p1

abbrev run0_D (c : Dev nD) (t : Fin cfg0.N) (h2 : t.val % 8 = 7) (h3 : ¬t.val % 64 = 63) (p0 : Vec F S4x1x512 .f32) (p1 : Vec F S4x1x8192 .f32) :=
  kernelRun0_D (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (hypsD t h2 h3).1 (hypsD t h2 h3).2.1 (hypsD t h2 h3).2.2.1 (hypsD t h2 h3).2.2.2 (iblk0 V c 0 t) (iblk0 V c 1 t) p0 p1

abbrev run0_E (c : Dev nD) (t : Fin cfg0.N) (h3 : t.val % 64 = 63) (p0 : Vec F S4x1x512 .f32) (p1 : Vec F S4x1x8192 .f32) :=
  kernelRun0_E (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (hypsE t h3).1 (hypsE t h3).2.1 (hypsE t h3).2.2.1 (hypsE t h3).2.2.2 (iblk0 V c 0 t) (iblk0 V c 1 t) p0 p1

def tupA (c : Dev nD) (t : Fin cfg0.N) (h1 : t.val % 64 = 0)  : T0 F :=
  (rb2 (run0_A V c t h1 ).1, rb3 (run0_A V c t h1 ).2.1, rbS0 (run0_A V c t h1 ).2.2.1, rbS1 (run0_A V c t h1 ).2.2.2.1)

def tupB (c : Dev nD) (t : Fin cfg0.N) (h1 : ¬t.val % 64 = 0) (h0 : t.val % 8 = 0) (p1 : Vec F S4x1x8192 .f32) : T0 F :=
  (rb2 (run0_B V c t h1 h0 p1).1, rb3 (run0_B V c t h1 h0 p1).2.1, rbS0 (run0_B V c t h1 h0 p1).2.2.1, cbS1 p1 (run0_B V c t h1 h0 p1).2.2.2.1)

def tupC (c : Dev nD) (t : Fin cfg0.N) (h0 : ¬t.val % 8 = 0) (h2 : ¬t.val % 8 = 7) (p0 : Vec F S4x1x512 .f32) (p1 : Vec F S4x1x8192 .f32) : T0 F :=
  (rb2 (run0_C V c t h0 h2 p0 p1).1, rb3 (run0_C V c t h0 h2 p0 p1).2.1, cbS0 p0 (run0_C V c t h0 h2 p0 p1).2.2.1, cbS1 p1 (run0_C V c t h0 h2 p0 p1).2.2.2.1)

def tupD (c : Dev nD) (t : Fin cfg0.N) (h2 : t.val % 8 = 7) (h3 : ¬t.val % 64 = 63) (p0 : Vec F S4x1x512 .f32) (p1 : Vec F S4x1x8192 .f32) : T0 F :=
  (rb2 (run0_D V c t h2 h3 p0 p1).1, rb3 (run0_D V c t h2 h3 p0 p1).2.1, cbS0 p0 (run0_D V c t h2 h3 p0 p1).2.2.1, cbS1 p1 (run0_D V c t h2 h3 p0 p1).2.2.2.1)

def tupE (c : Dev nD) (t : Fin cfg0.N) (h3 : t.val % 64 = 63) (p0 : Vec F S4x1x512 .f32) (p1 : Vec F S4x1x8192 .f32) : T0 F :=
  (rb2 (run0_E V c t h3 p0 p1).1, rb3 (run0_E V c t h3 p0 p1).2.1, cbS0 p0 (run0_E V c t h3 p0 p1).2.2.1, cbS1 p1 (run0_E V c t h3 p0 p1).2.2.2.1)

def step0 (c : Dev nD) (t : Fin cfg0.N) (p : T0 F) : T0 F :=
  if h1 : t.val % 64 = 0 then tupA V c t h1
  else if h0 : t.val % 8 = 0 then tupB V c t h1 h0 p.2.2.2
  else if h3 : t.val % 64 = 63 then tupE V c t h3 p.2.2.1 p.2.2.2
  else if h2 : t.val % 8 = 7 then tupD V c t h2 h3 p.2.2.1 p.2.2.2
  else tupC V c t h0 h2 p.2.2.1 p.2.2.2

def outsAt0 (c : Dev nD) : (n : ℕ) → n < cfg0.N → T0 F
  | 0, hn => step0 V c ⟨0, hn⟩ junk0
  | n + 1, hn => step0 V c ⟨n + 1, hn⟩ (outsAt0 c n (Nat.lt_of_succ_lt hn))

-- Past the first point the accumulation is one step over what the point before left.
theorem outsAt0_pos (c : Dev nD) (t : Fin cfg0.N) (hz : t.val ≠ 0) :
    outsAt0 V c t.val t.isLt = step0 V c t (outsAt0 V c (t.val - 1) (Nat.lt_of_le_of_lt (Nat.sub_le _ _) t.isLt)) := by
  obtain ⟨_ | n, hn⟩ := t
  · exact absurd rfl hz
  · rfl

theorem outsAt0_A (c : Dev nD) (t : Fin cfg0.N) (h1 : t.val % 64 = 0) : outsAt0 V c t.val t.isLt = tupA V c t h1 := by
  obtain ⟨_ | n, hn⟩ := t
  · exact (show outsAt0 V c 0 hn = step0 V c ⟨0, hn⟩ junk0 from rfl).trans (dif_pos h1)
  · exact (show outsAt0 V c (n + 1) hn = step0 V c ⟨n + 1, hn⟩ (outsAt0 V c n (Nat.lt_of_succ_lt hn)) from rfl).trans (dif_pos h1)

theorem outsAt0_B (c : Dev nD) (t : Fin cfg0.N) (h1 : ¬t.val % 64 = 0) (h0 : t.val % 8 = 0) :
    outsAt0 V c t.val t.isLt = tupB V c t h1 h0 (outsAt0 V c (t.val - 1) (Nat.lt_of_le_of_lt (Nat.sub_le _ _) t.isLt)).2.2.2 :=
  (outsAt0_pos V c t (by omega)).trans ((dif_neg h1).trans (dif_pos h0))

theorem outsAt0_C (c : Dev nD) (t : Fin cfg0.N) (h0 : ¬t.val % 8 = 0) (h2 : ¬t.val % 8 = 7) :
    outsAt0 V c t.val t.isLt = tupC V c t h0 h2 (outsAt0 V c (t.val - 1) (Nat.lt_of_le_of_lt (Nat.sub_le _ _) t.isLt)).2.2.1 (outsAt0 V c (t.val - 1) (Nat.lt_of_le_of_lt (Nat.sub_le _ _) t.isLt)).2.2.2 :=
  (outsAt0_pos V c t (by omega)).trans ((dif_neg (by omega)).trans ((dif_neg h0).trans ((dif_neg (by omega)).trans (dif_neg h2))))

theorem outsAt0_D (c : Dev nD) (t : Fin cfg0.N) (h2 : t.val % 8 = 7) (h3 : ¬t.val % 64 = 63) :
    outsAt0 V c t.val t.isLt = tupD V c t h2 h3 (outsAt0 V c (t.val - 1) (Nat.lt_of_le_of_lt (Nat.sub_le _ _) t.isLt)).2.2.1 (outsAt0 V c (t.val - 1) (Nat.lt_of_le_of_lt (Nat.sub_le _ _) t.isLt)).2.2.2 :=
  (outsAt0_pos V c t (by omega)).trans ((dif_neg (by omega)).trans ((dif_neg (by omega)).trans ((dif_neg h3).trans (dif_pos h2))))

theorem outsAt0_E (c : Dev nD) (t : Fin cfg0.N) (h3 : t.val % 64 = 63) :
    outsAt0 V c t.val t.isLt = tupE V c t h3 (outsAt0 V c (t.val - 1) (Nat.lt_of_le_of_lt (Nat.sub_le _ _) t.isLt)).2.2.1 (outsAt0 V c (t.val - 1) (Nat.lt_of_le_of_lt (Nat.sub_le _ _) t.isLt)).2.2.2 :=
  (outsAt0_pos V c t (by omega)).trans ((dif_neg (by omega)).trans ((dif_neg (by omega)).trans (dif_pos h3)))

def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.2.1 ∗ owns (c : Thread nD τ) scM0_1 fullShare (outsAt0 V c n hn).2.2.2 ∗ others0 c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
-- An input window's staging buffer holds its block at every point, fetched there or not.
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

-- Past the first point the invariant names the two accumulators at what the point before left.
theorem Phi_pos0 (c : Dev nD) (t : Fin cfg0.N) (hz : t.val ≠ 0) :
    (dat0 V c).Φ t.castSucc = PhiS0 V c (t.val - 1 + 1) (by have := t.isLt; omega) := by
  obtain ⟨_ | n, hn⟩ := t
  exacts [absurd rfl hz, rfl]

-- At any position the invariant gives the class invariant back: the accumulators' named contents are forgotten.
theorem Phi_weak0 (c : Dev nD) (t : Fin (cfg0.N + 1)) : (dat0 V c).Φ t ⊢ Pipeline.ΦA spec0 c := by
  obtain ⟨n, hn⟩ := t
  show PhiS0 V c n _ ⊢ _
  cases n with
  | zero => exact .refl
  | succ n =>
    rw [PhiS0, PhiA0_eq]
    iintro ⟨⟨HS0, HS1, Hoth⟩, Hg⟩
    iframe Hoth Hg
    isplitl [HS0] <;> iexists _
    · iexact HS0
    · iexact HS1

-- The body at any point: the point's case selects the run; each buffer goes in as it is held and comes back owned at what the run's stores leave (read back over the carried contents, or over any contents where the stores cover it); an output the case does not store is idle and passes through.
set_option maxHeartbeats 8000000 in
theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl,
    show (dat0 V c).Φ t.succ = PhiS0 V c (t.val + 1) t.isLt from rfl, PhiS0]
  by_cases h3 : t.val % 64 = 63
  rw [liveAt0_2 t (hypsE t h3).2.2.1, liveAt0_3 t (hypsE t h3).2.2.2]
  simp only [before0_0, before0_1]
  rw [after0_2, after0_3, outsAt0_E V c t h3, Phi_pos0 V c t (by omega), PhiS0]
  unfold tupE; dsimp only
  iintro ⟨⟨⟨HS0, HS1, Hoth⟩, Hg⟩, Ho, ⟨%d0, H0⟩, ⟨%d1, H1⟩, ⟨%d2, H2⟩, ⟨%d3, H3⟩⟩
  iapply ((run0_E V c t h3 _ _).2.2.2.2 Set.univ _)
  case' neg => have hc3 := mt (hcond0_3 t).1 h3
  rw [idleAt0_3 t hc3, noFlush0_3 t hc3]
  by_cases h2 : t.val % 8 = 7
  rw [liveAt0_2 t (hypsD t h2 h3).2.2.1]
  simp only [before0_0, before0_1]
  rw [after0_2, outsAt0_D V c t h2 h3, Phi_pos0 V c t (by omega), PhiS0]
  unfold tupD; dsimp only
  iintro ⟨⟨⟨HS0, HS1, Hoth⟩, Hg⟩, Ho, ⟨%d0, H0⟩, ⟨%d1, H1⟩, ⟨%d2, H2⟩, ⟨%d3, H3⟩⟩
  iapply ((run0_D V c t h2 h3 _ _).2.2.2.2 _ Set.univ _)
  case' neg => have hc2 := mt (hcond0_2 t).1 h2
  rw [idleAt0_2 t hc2, noFlush0_2 t hc2]
  by_cases h1 : t.val % 64 = 0
  simp only [before0_0, before0_1]
  rw [outsAt0_A V c t h1]
  unfold tupA; dsimp only
  have hw := Phi_weak0 V c t.castSucc
  rw [PhiA0_eq] at hw
  iintro ⟨HΦ, Ho, ⟨%d0, H0⟩, ⟨%d1, H1⟩, ⟨%d2, H2⟩, ⟨%d3, H3⟩⟩
  icases hw $$ HΦ with ⟨⟨HS0, HS1, Hoth⟩, Hg⟩
  iapply ((run0_A V c t h1).2.2.2.2 _ _ Set.univ _)
  case' neg => rw [Phi_pos0 V c t (by omega), PhiS0]
  by_cases h0 : t.val % 8 = 0
  simp only [before0_0, before0_1]
  rw [outsAt0_B V c t h1 h0]
  unfold tupB; dsimp only
  iintro ⟨⟨⟨HS0, HS1, Hoth⟩, Hg⟩, Ho, ⟨%d0, H0⟩, ⟨%d1, H1⟩, ⟨%d2, H2⟩, ⟨%d3, H3⟩⟩
  iapply ((run0_B V c t h1 h0 _).2.2.2.2 _ _ Set.univ _)
  case' neg => simp only [before0_0, before0_1]
  rw [outsAt0_C V c t h0 h2]
  unfold tupC; dsimp only
  iintro ⟨⟨⟨HS0, HS1, Hoth⟩, Hg⟩, Ho, ⟨%d0, H0⟩, ⟨%d1, H1⟩, ⟨%d2, H2⟩, ⟨%d3, H3⟩⟩
  iapply ((run0_C V c t h0 h2 _ _).2.2.2.2 _ _ Set.univ _)
  all_goals
    isplitl [H0]; · iexact H0
    isplitl [H1]; · iexact H1
    isplitl [H2]; · first | iexact H2 | (iexists _; iexact H2)
    isplitl [H3]; · first | iexact H3 | (iexists _; iexact H3)
    isplitl [HS0]; · first | iexact HS0 | (iexists _; iexact HS0)
    isplitl [HS1]; · first | iexact HS1 | (iexists _; iexact HS1)
    iintro ⟨H0, H1, H2, H3, HS0, HS1⟩
    isplitl [HS0 HS1 Hoth Hg]
    · iframe Hoth Hg
      isplitl [HS0]
      · first | iapply owns_intro _ scM0_0 _ _ $$ HS0 | (icases HS0 with ⟨%e, HS0⟩; iapply Ring.owns_of_writes_tiledL VS0_0 S4x1x512.size $$ HS0; ipureintro; sl_kernel_rfl)
      first | iapply owns_intro _ scM0_1 _ _ $$ HS1 | (icases HS1 with ⟨%e, HS1⟩; iapply Ring.owns_of_writes_tiledL VS0_1 S4x1x8192.size $$ HS1; ipureintro; sl_kernel_rfl)
    iframe Ho
    isplitl [H0]; · iexact H0
    isplitl [H1]; · iexact H1
    isplitl [H2]
    · first | (iexists _; iexact H2) | (icases H2 with ⟨%e, H2⟩; iapply Ring.owns_of_writes_tiledL VO0_2 S4x512.size $$ H2; ipureintro; sl_kernel_rfl)
    first | (iexists _; iexact H3) | (icases H3 with ⟨%e, H3⟩; iapply Ring.owns_of_writes_tiledL VO0_3 S1x4x8192.size $$ H3; ipureintro; sl_kernel_rfl)

theorem hin0 (c : Dev nD) : Pipeline.ΦA spec0 c ⊢ (dat0 V c).Φ 0 := .refl

theorem hout0 (c : Dev nD) : (dat0 V c).Φ (Fin.last cfg0.N) ⊢ Pipeline.ΦA spec0 c :=
  Phi_weak0 V c _

theorem rec_eq0 (c : Dev nD) : (dat0 V c).recorded 0 = Set.univ := rfl

end

end Cert.Kernel.Hand

end
-- ==== Proof.Kernel.R1Defs.lean ====
import proofs.«427145_j9268539424872_3_alg».proof.Proof.Gen.Kernel.Launch
import proofs.«427145_j9268539424872_3_alg».proof.Proof.Gen.Kernel.Skeleton
import proofs.«427145_j9268539424872_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws
open Idealize.ShloMosaic.Pipeline (Dat)
open Cert.Kernel.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 2 = 0 := by decide +kernel

abbrev cond1_1 (i : grid1.Coords) : Prop := k1_cond2 i = 1#1

theorem hcond1_1 : ∀ t : Fin cfg1.N, cond1_1 (grid1.coords t) ↔ t.val % 2 = 1 := by decide +kernel

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2_A : ∀ t : Fin cfg1.N, cond1_0 (grid1.coords t) → ¬cond1_1 (grid1.coords t) → cfg1.idle 2 (grid1.coords t) = true := by decide +kernel

theorem noFlush1_2_A : ∀ t : Fin cfg1.N, cond1_0 (grid1.coords t) → ¬cond1_1 (grid1.coords t) → (cfg1.win 2).flush t = false := by decide +kernel

theorem liveAt1_2_B : ∀ t : Fin cfg1.N, ¬cond1_0 (grid1.coords t) → cond1_1 (grid1.coords t) → cfg1.idle 2 (grid1.coords t) = false := by decide +kernel

abbrev VO1_2 : View sig .tc .vmem S4x512 .f32 := (Memref.whole cc1_stg2_0 : Memref sig .tc .vmem S4x512 .f32).view
abbrev ms1_0 (t : Fin cfg1.N) : Memref sig .tc .vmem S4x3x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x3x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)

abbrev scM1_0 : Memref sig .tc .vmem S4x1x512 .f32 := Memref.whole cc1_scratch0
abbrev VS1_0 : View sig .tc .vmem S4x1x512 .f32 := scM1_0.view

def Rest1 (c : Dev nD) : sProp 𝕄 := Pipeline.scopedRestBut spec1 c [cc1_scratch0]

def PhiR1 (c : Dev nD) (S : sProp 𝕄) : sProp 𝕄 := iprop(S ∗ Rest1 (F := F) c ∗ (∃ r, prngReg c r))

-- Associativity of ∗, once the scratch buffer's points-to is split off the other buffers' conjunction.
theorem PhiA1_iff (c : Dev nD) :
    (Pipeline.ΦA spec1 c : sProp 𝕄) ⊣⊢ PhiR1 c iprop(∃ d, owns (c : Thread nD τ) scM1_0 fullShare d) := by
  unfold Pipeline.ΦA PhiR1 Rest1; rw [Pipeline.scopedRest_split_of_list spec1 c [cc1_scratch0] (by decide) (by decide)]
  simp only [scM1_0, owns_whole]; exact sep_assoc

theorem PhiA1_elim (c : Dev nD) :
    (Pipeline.ΦA spec1 c : sProp 𝕄) ⊢ iprop((∃ d, owns (c : Thread nD τ) scM1_0 fullShare d) ∗ Rest1 (F := F) c ∗ (∃ r, prngReg c r)) :=
  (PhiA1_iff c).1

theorem PhiA1_intro (c : Dev nD) :
    iprop((∃ d, owns (c : Thread nD τ) scM1_0 fullShare d) ∗ Rest1 (F := F) c ∗ (∃ r, prngReg c r)) ⊢ (Pipeline.ΦA spec1 c : sProp 𝕄) :=
  (PhiA1_iff c).2

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter, Dat.blockOf, hA]; rfl) t d).trans
    (by rw [Dat.fetched, Dat.blockOf, hA]; rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter, Dat.blockOf, hA]; rfl) t d).trans
    (by rw [Dat.fetched, Dat.blockOf, hA]; rfl)

end Regions

end Cert.Kernel.Hand

end
-- ==== Proof.Kernel.R1RunA.lean ====
-- (the text of proof/Proof/KernelIdeal/R1RunA.lean with the namespace Cert.KernelIdeal replaced by Cert.Kernel)
/- Region 1, the even points: the whole body run once, the pieces its stores leave as the witness. -/
import proofs.«427145_j9268539424872_3_alg».proof.Proof.Kernel.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 4000000 in
/-- The pieces the body's stores leave at the even points (the running minimum reset, then lowered row by row; no store into
    the output block), with the proof that from whole memrefs (the two inputs at their contents, the output block at contents
    handed back untouched, the scratch buffer at anything) the body runs to the continuation holding the inputs as they were
    and the scratch buffer with those pieces written. -/
noncomputable def kernelRun1_A (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x1x512 .f32) (harg5 : arg5.IsWhole) (hc0 : cond1_0 i) (hc1 : ¬cond1_1 i)
    (x0 : Vec F S4x3x512 .f32) (x1 : Vec F S4x3x512 .f32) :
    Σ' (L2 : List (View.Piece (Elt F) S4x512 .f32)), { LS0 : List (View.Piece (Elt F) S4x1x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__density_kernel i arg2 harg2 arg3 harg3 arg4 harg4 arg5 harg5) K } := by
  refine ⟨[], ?_, fun xi2 E K => ?run⟩
  case run =>
    simp only [cc1__density_kernel_eq_skeleton]; unfold cc1__density_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Kernel.R1RunB.lean ====
-- (the text of proof/Proof/KernelIdeal/R1RunB.lean with the namespace Cert.KernelIdeal replaced by Cert.Kernel)
/- Region 1, the odd points: the whole body run once, the pieces its stores leave as the witness. -/
import proofs.«427145_j9268539424872_3_alg».proof.Proof.Kernel.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large)
set_option maxHeartbeats 4000000 in
/-- The pieces the body's stores leave at the odd points (the running minimum lowered row by row, then copied whole into the
    output block), with the proof that from whole memrefs (the two inputs at their contents, the output block at anything, the
    scratch buffer at what the point before left) the body runs to the continuation holding the inputs as they were and the
    output block and the scratch buffer with those pieces written. -/
noncomputable def kernelRun1_B (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x1x512 .f32) (harg5 : arg5.IsWhole) (hc0 : ¬cond1_0 i) (hc1 : cond1_1 i)
    (x0 : Vec F S4x3x512 .f32) (x1 : Vec F S4x3x512 .f32) (xs0 : Vec F S4x1x512 .f32) :
    Σ' (L2 : List (View.Piece (Elt F) S4x512 .f32)), { LS0 : List (View.Piece (Elt F) S4x1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__density_kernel i arg2 harg2 arg3 harg3 arg4 harg4 arg5 harg5) K } := by
  refine ⟨?_, ?_, fun E K => ?run⟩
  case run =>
    simp only [cc1__density_kernel_eq_skeleton]; unfold cc1__density_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Kernel.R1Frame.lean ====
import proofs.«427145_j9268539424872_3_alg».proof.Proof.Kernel.R1RunB

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

section Cases
variable (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x1x512 .f32) (harg5 : arg5.IsWhole)

section A
variable (hc0 : cond1_0 i) (hc1 : ¬cond1_1 i) (x0 : Vec F S4x3x512 .f32) (x1 : Vec F S4x3x512 .f32)

def out1_A_2 : Vec F S4x512 .f32 :=
  VO1_2.read (Elt F) (VO1_2.writes (Elt F) VO1_2.junk (kernelRun1_A c i arg2 harg2 arg3 harg3 arg4 harg4 arg5 harg5 hc0 hc1 x0 x1).1)

-- The rows written after the reset tile the scratch buffer.
theorem scover1_A_0 (y : S4x1x512.Idx) :
    ∃ pc ∈ (kernelRun1_A c i arg2 harg2 arg3 harg3 arg4 harg4 arg5 harg5 hc0 hc1 x0 x1).2.1, y ∈ pc.1.set :=
  View.cover_of_tiledL (s := S4x1x512) _ S1x1x512.size (by sl_kernel_rfl) y

def sout1_A_0 : Vec F S4x1x512 .f32 :=
  VS1_0.read (Elt F) (VS1_0.writes (Elt F) VS1_0.junk (kernelRun1_A c i arg2 harg2 arg3 harg3 arg4 harg4 arg5 harg5 hc0 hc1 x0 x1).2.1)

end A

section B
variable (hc0 : ¬cond1_0 i) (hc1 : cond1_1 i) (x0 : Vec F S4x3x512 .f32) (x1 : Vec F S4x3x512 .f32) (xs0 : Vec F S4x1x512 .f32)

-- The one store into the output block covers it.
theorem cover1_B_2 (y : S4x512.Idx) :
    ∃ pc ∈ (kernelRun1_B c i arg2 harg2 arg3 harg3 arg4 harg4 arg5 harg5 hc0 hc1 x0 x1 xs0).1, y ∈ pc.1.set :=
  View.cover_of_tiledL _ S4x512.size (by sl_kernel_rfl) y

def out1_B_2 : Vec F S4x512 .f32 :=
  VO1_2.read (Elt F) (VO1_2.writes (Elt F) VO1_2.junk (kernelRun1_B c i arg2 harg2 arg3 harg3 arg4 harg4 arg5 harg5 hc0 hc1 x0 x1 xs0).1)

theorem scover1_B_0 (y : S4x1x512.Idx) :
    ∃ pc ∈ (kernelRun1_B c i arg2 harg2 arg3 harg3 arg4 harg4 arg5 harg5 hc0 hc1 x0 x1 xs0).2.1, y ∈ pc.1.set :=
  View.cover_of_tiledL (s := S4x1x512) _ S1x1x512.size (by sl_kernel_rfl) y

def sout1_B_0 : Vec F S4x1x512 .f32 :=
  VS1_0.read (Elt F) (VS1_0.writes (Elt F) VS1_0.junk (kernelRun1_B c i arg2 harg2 arg3 harg3 arg4 harg4 arg5 harg5 hc0 hc1 x0 x1 xs0).2.1)

end B

end Cases

theorem pt1_A0 (t : Fin cfg1.N) (h0 : t.val % 2 = 0) : cond1_0 (grid1.coords t) := (hcond1_0 t).mpr h0
theorem pt1_A1 (t : Fin cfg1.N) (h0 : t.val % 2 = 0) : ¬cond1_1 (grid1.coords t) := fun h => Nat.mod_two_ne_one.mpr h0 ((hcond1_1 t).mp h)
theorem pt1_B0 (t : Fin cfg1.N) (h0 : ¬t.val % 2 = 0) : ¬cond1_0 (grid1.coords t) := fun h => h0 ((hcond1_0 t).mp h)
theorem pt1_B1 (t : Fin cfg1.N) (h0 : ¬t.val % 2 = 0) : cond1_1 (grid1.coords t) := (hcond1_1 t).mpr (Nat.mod_two_ne_zero.mp h0)

section Regions
variable (V : (c : Dev nD) → (b : Ref sig .tc) → Buf (Elt F) ((c : Thread nD τ).loc b)) (c : Dev nD)

def outA1 (t : Fin cfg1.N) (h0 : t.val % 2 = 0) : Vec F S4x512 .f32 × Vec F S4x1x512 .f32 :=
  (out1_A_2 c (grid1.coords t) (ms1_0 t) (hs1_0 t) (ms1_1 t) (hs1_1 t) (ms1_2 t) (hs1_2 t) scM1_0 (Memref.isWhole_whole _) (pt1_A0 t h0) (pt1_A1 t h0) (iblk1 V c 0 t) (iblk1 V c 1 t),
   sout1_A_0 c (grid1.coords t) (ms1_0 t) (hs1_0 t) (ms1_1 t) (hs1_1 t) (ms1_2 t) (hs1_2 t) scM1_0 (Memref.isWhole_whole _) (pt1_A0 t h0) (pt1_A1 t h0) (iblk1 V c 0 t) (iblk1 V c 1 t))

def outB1 (t : Fin cfg1.N) (h0 : ¬t.val % 2 = 0) (xs : Vec F S4x1x512 .f32) : Vec F S4x512 .f32 × Vec F S4x1x512 .f32 :=
  (out1_B_2 c (grid1.coords t) (ms1_0 t) (hs1_0 t) (ms1_1 t) (hs1_1 t) (ms1_2 t) (hs1_2 t) scM1_0 (Memref.isWhole_whole _) (pt1_B0 t h0) (pt1_B1 t h0) (iblk1 V c 0 t) (iblk1 V c 1 t) xs,
   sout1_B_0 c (grid1.coords t) (ms1_0 t) (hs1_0 t) (ms1_1 t) (hs1_1 t) (ms1_2 t) (hs1_2 t) scM1_0 (Memref.isWhole_whole _) (pt1_B0 t h0) (pt1_B1 t h0) (iblk1 V c 0 t) (iblk1 V c 1 t) xs)

def outsAt1 : (n : ℕ) → n < cfg1.N → Vec F S4x512 .f32 × Vec F S4x1x512 .f32
  | 0, hn => outA1 V c ⟨0, hn⟩ (Nat.zero_mod _)
  | n + 1, hn =>
    if h0 : (n + 1) % 2 = 0 then outA1 V c ⟨n + 1, hn⟩ h0
    else outB1 V c ⟨n + 1, hn⟩ h0 (outsAt1 n (Nat.lt_of_succ_lt hn)).2

theorem outsAt1_A (t : Fin cfg1.N) (h0 : t.val % 2 = 0) :
    outsAt1 V c t.val t.isLt = outA1 V c t h0 := by
  obtain ⟨_ | n, hn⟩ := t
  exacts [rfl, dif_pos h0]

theorem outsAt1_B (t : Fin cfg1.N) (h0 : ¬t.val % 2 = 0) :
    outsAt1 V c t.val t.isLt = outB1 V c t h0 (outsAt1 V c (t.val - 1) (Nat.lt_of_le_of_lt (Nat.sub_le _ _) t.isLt)).2 := by
  obtain ⟨_ | n, hn⟩ := t
  exacts [absurd (Nat.zero_mod _) h0, dif_neg h0]

def PhiS1 : (n : ℕ) → n ≤ cfg1.N → sProp 𝕄
  | 0, _ => Pipeline.ΦA spec1 c
  | n + 1, hn => PhiR1 c (owns (c : Thread nD τ) scM1_0 fullShare ((outsAt1 V c n hn).2))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (w : Fin cfg1.W) : (dat1 V c).A w = V c (Pipeline.arrRef spec1 w) := rfl

theorem owed1 (t : Fin (cfg1.N + 1)) : (dat1 V c).owed t = 0 := rfl

theorem q1_0 : (dat1 V c).q 0 = fullShare.left := rfl
theorem q1_1 : (dat1 V c).q 1 = fullShare.right := rfl

theorem after1_0 (t : Fin cfg1.N) : (dat1 V c).after 0 t = iblk1 V c 0 t := rfl
theorem after1_1 (t : Fin cfg1.N) : (dat1 V c).after 1 t = iblk1 V c 1 t := rfl
theorem after1_2 (t : Fin cfg1.N) : (dat1 V c).after 2 t = (outsAt1 V c t.val t.isLt).1 := rfl

-- Before any point the invariant yields the scratch buffer at some contents beside the rest.
theorem Phi1_elim (t : Fin (cfg1.N + 1)) :
    (dat1 V c).Φ t ⊢ iprop((∃ d, owns (c : Thread nD τ) scM1_0 fullShare d) ∗ Rest1 c ∗ (∃ r, prngReg c r)) := by
  obtain ⟨_ | n, hn⟩ := t
  exacts [PhiA1_elim c, sep_mono_left (exists_intro _)]

-- After the first point it holds the scratch buffer at what the point before left.
theorem Phi1_pos (t : Fin cfg1.N) (hz : t.val ≠ 0) :
    (dat1 V c).Φ t.castSucc = PhiR1 c (owns (c : Thread nD τ) scM1_0 fullShare (outsAt1 V c (t.val - 1) (by omega)).2) := by
  obtain ⟨_ | n, hn⟩ := t
  exacts [absurd rfl hz, rfl]

-- Either case's run, framed by the rest of the invariant; the pieces it leaves cover their buffers.
theorem body_obligation1 : BodyObligation (dat1 (F := F) V c) (defs₀ (F := F)) Variants.none () Set.univ := fun t => by
  rw [bigSep_W1, bigSep_W1]
  change _ ⊢ wp _ _ _ (bodyAt1 t) fun _ => iprop(_ ∗ _ ∗ _ ∗ _ ∗ (dat1 V c).leavesExact 2 t)
  unfold bodyAt1
  rw [show (dat1 V c).owesAt () t.succ = (dat1 V c).owesAt () t.castSucc from rfl,
    show (dat1 V c).Φ t.succ = PhiR1 c (owns (c : Thread nD τ) scM1_0 fullShare (outsAt1 V c t.val t.isLt).2) from rfl]
  simp only [before1_0_of V (dat1 V c) rfl (after1_0 V c), before1_1_of V (dat1 V c) rfl (after1_1 V c), liveAt1_0 t, liveAt1_1 t, after1_0, after1_1]
  by_cases h0 : t.val % 2 = 0
  · rw [Dat.leavesExact_idle (dat1 V c) 2 t (idleAt1_2_A t (pt1_A0 t h0) (pt1_A1 t h0)) (noFlush1_2_A t (pt1_A0 t h0) (pt1_A1 t h0)), outsAt1_A V c t h0]
    unfold outA1 sout1_A_0 PhiR1; dsimp only
    iintro ⟨HΦ, Ho, ⟨%d0, H0⟩, ⟨%d1, H1⟩, ⟨%d2, H2⟩⟩
    icases (Phi1_elim V c _) $$ HΦ with ⟨HS, HR⟩
    iapply ((kernelRun1_A c (grid1.coords t) _ _ _ _ _ _ _ _ (pt1_A0 t h0) (pt1_A1 t h0) (iblk1 V c 0 t) (iblk1 V c 1 t)).2.2 _ Set.univ _)
    iframe H0 H1 H2 HS
    iintro ⟨H0, H1, H2, ⟨%f, HS⟩⟩
    iframe HR Ho H0 H1
    isplitl [HS]
    · unfold owns; iexists _; isplitr
      swap; · iexact HS
      ipureintro; exact View.read_writes_of_cover _ _ _ _ _ fun _ => scover1_A_0 ..
    iexists _; iexact H2
  · rw [show (dat1 V c).leavesExact 2 t = owns (c : Thread nD τ) (ms1_2 t) fullShare ((dat1 V c).after 2 t) from by
      unfold Dat.leavesExact; rw [liveAt1_2_B t (pt1_B0 t h0) (pt1_B1 t h0)], after1_2, outsAt1_B V c t h0, Phi1_pos V c t fun hz => h0 (by rw [hz])]
    unfold outB1 out1_B_2 sout1_B_0 PhiR1; dsimp only
    iintro ⟨⟨HS, HR⟩, Ho, ⟨%d0, H0⟩, ⟨%d1, H1⟩, ⟨%d2, H2⟩⟩
    iapply ((kernelRun1_B c (grid1.coords t) _ _ _ _ _ _ _ _ (pt1_B0 t h0) (pt1_B1 t h0) (iblk1 V c 0 t) (iblk1 V c 1 t) _).2.2 Set.univ _)
    iframe H0 H1 HS
    isplitl [H2]; · iexists _; iexact H2
    iintro ⟨H0, H1, ⟨%f2, H2⟩, ⟨%f, HS⟩⟩
    iframe HR Ho H0 H1
    isplitl [HS]
    · unfold owns; iexists _; isplitr
      swap; · iexact HS
      ipureintro; exact View.read_writes_of_cover _ _ _ _ _ fun _ => scover1_B_0 ..
    unfold owns; iexists _; isplitr
    swap; · iexact H2
    ipureintro; exact View.read_writes_of_cover _ _ _ _ _ fun _ => cover1_B_2 ..

theorem hin1 : Pipeline.ΦA spec1 c ⊢ (dat1 V c).Φ 0 := .rfl

theorem hout1 : (dat1 V c).Φ (Fin.last cfg1.N) ⊢ Pipeline.ΦA spec1 c :=
  (Phi1_elim V c _).trans (PhiA1_intro c)

end Regions

end Cert.Kernel.Hand

end
-- ==== Proof.Kernel.Launch.lean ====
import proofs.«427145_j9268539424872_3_alg».proof.Proof.Gen.Kernel.Launch
import proofs.«427145_j9268539424872_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

abbrev Contents (F : FTy → Type) : Type := (c : Dev nD) → (b : Ref sig .tc) → Buf (Elt F) ((c : Thread nD τ).loc b)

structure Region0 (F : FTy → Type) [FloatOps F] where
  dat : (V : Contents F) → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  rec_eq : ∀ V c, (dat V c).recorded 0 = Set.univ
  body : ∀ V c, BodyObligation (dat V c) (defs₀ (F := F)) Variants.none () Set.univ
  hin : ∀ V c, (Pipeline.ΦA (U := UR sig nD τ) spec0 c : sProp (MT nD τ sig Unit (Elt F) ℕ (UR sig nD τ) ℕ)) ⊢ (dat V c).Φ 0
  hout : ∀ V c, (dat V c).Φ (Fin.last cfg0.N) ⊢ (Pipeline.ΦA (U := UR sig nD τ) spec0 c : sProp (MT nD τ sig Unit (Elt F) ℕ (UR sig nD τ) ℕ))

structure Region1 (F : FTy → Type) [FloatOps F] where
  dat : (V : Contents F) → (c : Dev nD) → Dat τ (Elt F) Unit ℕ (UR sig nD τ) ℕ cfg1 c
  A_eq : ∀ V c w, (dat V c).A w = V c (Pipeline.arrRef spec1 w)
  q_0 : ∀ V c, (dat V c).q 0 = fullShare.left
  q_1 : ∀ V c, (dat V c).q 1 = fullShare.right
  owed_eq : ∀ V c t, (dat V c).owed t = 0
  rec_eq : ∀ V c, (dat V c).recorded 0 = Set.univ
  body : ∀ V c, BodyObligation (dat V c) (defs₀ (F := F)) Variants.none () Set.univ
  hin : ∀ V c, (Pipeline.ΦA (U := UR sig nD τ) spec1 c : sProp (MT nD τ sig Unit (Elt F) ℕ (UR sig nD τ) ℕ)) ⊢ (dat V c).Φ 0
  hout : ∀ V c, (dat V c).Φ (Fin.last cfg1.N) ⊢ (Pipeline.ΦA (U := UR sig nD τ) spec1 c : sProp (MT nD τ sig Unit (Elt F) ℕ (UR sig nD τ) ℕ))

variable {F : FTy → Type} [FloatOps F]

local notation "𝕄" => MT nD τ sig Unit (Elt F) ℕ (UR sig nD τ) ℕ

variable (R0 : Region0 F) (R1 : Region1 F)
variable (m : (ℓ : Loc nD τ sig) → Buf (Elt F) ℓ) (ρ : Dev nD → PrngReg)

abbrev E1 : Contents F := fun c b => Gen.V1 m c b

def outs₂ : Gen.Outs (F := F) := fun _ r c =>
  Function.update (β := fun r : Ref sig .tc => Buf (Elt F) ((c : Thread nD τ).loc r))
    (Function.update (β := fun r : Ref sig .tc => Buf (Elt F) ((c : Thread nD τ).loc r)) (fun r => m ((c : Thread nD τ).loc r))
      main_v2_0 ((R0.dat (E1 m) c).arrAt 2 cfg0.N))
    main_v2_1 ((R0.dat (E1 m) c).arrAt 3 cfg0.N) r

abbrev E3 : Contents F := fun c b => Gen.V3 m (outs₂ R0 m) c b

def outs : Gen.Outs (F := F) := fun n r c =>
  Function.update (β := fun r : Ref sig .tc => Buf (Elt F) ((c : Thread nD τ).loc r)) (fun r => outs₂ R0 m n r c)
    main_v34 ((R1.dat (E3 R0 m) c).arrAt 2 cfg1.N) r

theorem outs_of_ne (n : ℕ) (r : Ref sig .tc) (c : Dev nD) (h : r ≠ main_v34) : outs R0 R1 m n r c = outs₂ R0 m n r c :=
  Function.update_of_ne h ..
theorem outs_v2_0 (n : ℕ) (c : Dev nD) : outs R0 R1 m n main_v2_0 c = (R0.dat (E1 m) c).arrAt 2 cfg0.N :=
  (outs_of_ne R0 R1 m n main_v2_0 c (by decide)).trans ((Function.update_of_ne (by decide) ..).trans (Function.update_self ..))
theorem outs_v2_1 (n : ℕ) (c : Dev nD) : outs R0 R1 m n main_v2_1 c = (R0.dat (E1 m) c).arrAt 3 cfg0.N :=
  (outs_of_ne R0 R1 m n main_v2_1 c (by decide)).trans (Function.update_self ..)
theorem outs_v34 (n : ℕ) (c : Dev nD) : outs R0 R1 m n main_v34 c = (R1.dat (E3 R0 m) c).arrAt 2 cfg1.N :=
  Function.update_self ..

-- `Gen.V3` reads `outs` only at region 0's two arrays, where it agrees with `outs₂`
theorem V3_outs (c : Dev nD) : Gen.V3 m (outs R0 R1 m) c = Gen.V3 m (outs₂ R0 m) c := by
  unfold Gen.V3 Gen.V2
  rw [outs_of_ne R0 R1 m 2 main_v2_0 c (by decide), outs_of_ne R0 R1 m 2 main_v2_1 c (by decide)]

section Valuations
variable (os : Gen.Outs (F := F))

theorem V2_v2_0 (c : Dev nD) : Gen.V2 m os c main_v2_0 = os 2 main_v2_0 c :=
  (Function.update_of_ne (StableHlo.devRef_ne_of_ne (by decide)) ..).trans (Function.update_self ..)
theorem V2_v2_1 (c : Dev nD) : Gen.V2 m os c main_v2_1 = os 2 main_v2_1 c := Function.update_self ..
theorem V4_v34 (c : Dev nD) : Gen.V4 m os c main_v34 = os 4 main_v34 c := Function.update_self ..

end Valuations

def pdats : (p : Fin 2) → (c : Dev nD) → Dat τ (Elt F) Unit ℕ (UR sig nD τ) ℕ (Pipeline.pin (pcfgs (F := F)) Gen.adm p) c
  | ⟨0, _⟩ => R0.dat (E1 m)
  | ⟨1, _⟩ => R1.dat (E3 R0 m)

abbrev L : GSem nD τ sig → Finset Unit := fun _ => ∅
abbrev lv : GSem nD τ sig → Unit → ℕ := fun _ _ => 0
abbrev Rst (c : Dev nD) : sProp 𝕄 := iprop((∃ r, prngReg c r) ∗ ∃ W, owes c.tc (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- both regions are this record: the thread state is every unscoped buffer whole at a valuation; only the split `hs` and the join `hj` differ
set_option backward.isDefEq.respectTransparency.types false in
def mkReg (pd : (p : Fin 2) → (c : Dev nD) → Dat τ (Elt F) Unit ℕ (UR sig nD τ) ℕ (Pipeline.pin (pcfgs (F := F)) Gen.adm p) c)
    (p : Fin 2) (win : Pipeline.WinFacts₀ (cfgs p).spec) (bp : ∀ w, 0 < ((cfgs p).spec w).block.numel)
    (sw : ∀ w s, (((cfgs p).spec w).stage s).IsWhole)
    (Vi Vo : Dev nD → Valuation τ sig (Elt F))
    (hb : ∀ c, BodyObligation (pd p c) defs₀ .none () Set.univ)
    (ho : ∀ c t, (pd p c).owed t = 0) (hr : ∀ c, (pd p c).recorded 0 = Set.univ)
    (hi : ∀ c, (Pipeline.ΦA (cfgs p).spec c : sProp 𝕄) ⊢ (pd p c).Φ 0)
    (hu : ∀ c, (pd p c).Φ (Fin.last _) ⊢ (Pipeline.ΦA (cfgs p).spec c : sProp 𝕄))
    (hs : ∀ c, (unscopedBufs c (fun b => Vi c b) : sProp 𝕄)
      ⊢ iprop((pd p c).arrays ((pd p c).arrAt · 0) ∗ Pipeline.unscopedRest (cfgs p).spec c fun b => Vi c b))
    (hj : ∀ c, iprop((pd p c).arrays ((pd p c).arrAt · (cfgs p).N) ∗ Pipeline.unscopedRest (cfgs p).spec c fun b => Vi c b)
      ⊢ (unscopedBufs c (fun b => Vo c b) : sProp 𝕄)) :
    Pipeline.RegionSeg pcfgs Gen.adm pd () defs₀ .none L lv p where
  win := win
  block_pos := bp
  stage_whole := sw
  K := PEmpty
  osem k := k.elim
  ho := Pipeline.OwnSemFacts.none _
  hbody c := (hb c).loose
  hwaits := Pipeline.hwaits_of_owed_zero _ _ _ _ L lv p ho
  pre c := iprop(StableHlo.held c.tc (Pipeline.ucRefs τ sig) (Vi c) ∗ Rst c)
  post c := iprop(StableHlo.held c.tc (Pipeline.ucRefs τ sig) (Vo c) ∗ Rst c)
  X c := iprop(∃ r, prngReg c r)
  Y c := iprop(∃ r, prngReg c r)
  Z c := Pipeline.unscopedRest (cfgs p).spec c fun b => Vi c b
  hentry c := by
    rw [Pipeline.ownSems0_none]
    have hsplit := hs c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%W, HO⟩; iexists W; isplitr
      · ipureintro; exact fun x _ => Or.inl ((hr c).symm ▸ Set.mem_univ x)
      iexact HO
    isplitl [Hp] <;> iassumption
  hin c := by
    refine .trans ?_ (hi c)
    unfold Pipeline.ΦA
    iintro ⟨Hp, -, Hr⟩
    isplitl [Hr] <;> iassumption
  hout c := by
    rw [Pipeline.ownSems0_none]
    refine (hu c).trans ?_
    unfold Pipeline.ΦA
    iintro ⟨Hr, Hp⟩
    isplitl [Hp]; · iexact Hp
    isplitr; · iempintro
    iexact Hr
  hexit c := by
    have hjoin := hj c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c _]
    icases HO with ⟨%W, -, HO⟩; iexists W; iexact HO

theorem hF0 (c : Dev nD) : ∀ w : Fin cfg0.W, (pdats R0 R1 m 0 c).arrAt w cfg0.N = Gen.V2 m (outs R0 R1 m) c (Pipeline.arrRef spec0 w)
  | 0 => ((R0.dat _ c).arrAt_in 0 rfl _).trans ((R0.A_eq _ c 0).trans (Gen.V2_of m _ c main_v0 (by decide)).symm)
  | 1 => ((R0.dat _ c).arrAt_in 1 rfl _).trans ((R0.A_eq _ c 1).trans (Gen.V2_of m _ c main_v1 (by decide)).symm)
  | 2 => ((V2_v2_0 m _ c).trans (outs_v2_0 R0 R1 m 2 c)).symm
  | 3 => ((V2_v2_1 m _ c).trans (outs_v2_1 R0 R1 m 2 c)).symm
  | ⟨_ + 4, h⟩ => absurd h (Nat.not_lt.2 (Nat.le_add_left _ _))

theorem hrest0 (c : Dev nD) : ∀ b, b ∉ Finset.univ.image (Pipeline.arrRef spec0) → Gen.V2 m (outs R0 R1 m) c b = Gen.V1 m c b :=
  fun b hb => Gen.V2_of m _ c b fun hm => hb (by rcases List.mem_pair.mp hm with rfl | rfl <;> decide)

def reg0 :=
  mkReg (pdats R0 R1 m) 0 Gen.launch0.win.to₀ Gen.launch0.block_pos Gen.launch0.stage_whole (Gen.V1 m) (Gen.V2 m (outs R0 R1 m)) (R0.body _) (R0.owed_eq _) (R0.rec_eq _) (R0.hin _) (R0.hout _)
    (fun c => Pipeline.arrays_of_unscopedBufs (p := 0) _ Gen.adm _ Gen.launch0.win Gen.launch0.arr_whole c
      ((pdats R0 R1 m 0 c).share_full (R0.q_eq _ c)) _ (R0.A_eq _ c))
    (fun c => Pipeline.unscopedBufs_of_arrays (p := 0) _ Gen.adm Gen.launch0.win Gen.launch0.arr_whole c _
      ((pdats R0 R1 m 0 c).share_full (R0.q_eq _ c)) _ _ _ (hF0 R0 R1 m c) (hrest0 R0 R1 m c))

theorem bigSep_arr1 {M : Type} [URA M] (Φ : Ref sig .tc → sProp M) :
    bigSep (Finset.univ.image (Pipeline.arrRef spec1)) Φ = iprop(Φ main_v33 ∗ Φ main_v34) :=
  bigSep_eq_bigSepL_of_eq [main_v33, main_v34] (by decide) (by decide) Φ

-- one whole array behind two windows: the full share is the join of its halves (read forwards at entry, backwards at exit)
theorem arrays1 (E : Contents F) (c : Dev nD) (V : (b : Ref sig .tc) → Buf (Elt F) (c.tc.loc b))
    (G : (w : Fin cfg1.W) → Buf (Elt F) ((cfg1.win w).arr.view.loc c.tc))
    (h0 : G 0 = V main_v33) (h1 : G 1 = V main_v33) (h2 : G 2 = V main_v34) :
    (Pipeline.arrBufs spec1 c V : sProp 𝕄) ⊣⊢ (R1.dat E c).arrays G := by
  unfold Pipeline.arrBufs Dat.arrays
  rw [bigSep_arr1, Gen.bigSep_W1, h0, h1, h2,
    show (R1.dat E c).share 0 = fullShare.left from (if_neg Bool.false_ne_true).trans (R1.q_0 _ c),
    show (R1.dat E c).share 1 = fullShare.right from (if_neg Bool.false_ne_true).trans (R1.q_1 _ c),
    show (R1.dat E c).share 2 = fullShare from if_pos rfl,
    Memref.IsWhole.set_eq_univ (m := (cfg1.win 0).arr) (Gen.arr_whole1 0),
    Memref.IsWhole.set_eq_univ (m := (cfg1.win 2).arr) (Gen.arr_whole1 2)]
  exact (sep_congr_left (pointsTo_share (PosShare.mem_left_op_right fullShare))).trans sep_assoc

def reg1 :=
  mkReg (pdats R0 R1 m) 1 Gen.winFacts₀1 Gen.block_pos1 Gen.stage_whole1 (Gen.V3 m (outs R0 R1 m)) (Gen.V4 m (outs R0 R1 m)) (R1.body _) (R1.owed_eq _) (R1.rec_eq _) (R1.hin _) (R1.hout _)
    (fun c => by
      rw [V3_outs R0 R1 m c, Pipeline.unscopedBufs_split₀ cfgs 1 Gen.winFacts₀1.arr_unscoped c (E3 R0 m c)]
      exact sep_mono (arrays1 R1 _ c _ _ (R1.A_eq _ c 0) (R1.A_eq _ c 1) (R1.A_eq _ c 2)).1 .rfl)
    fun c => by
      have h33 : Gen.V4 m (outs R0 R1 m) c main_v33 = E3 R0 m c main_v33 :=
        (Gen.V4_of m _ c _ (by decide)).trans (congrFun (V3_outs R0 R1 m c) _)
      rw [Pipeline.unscopedBufs_split₀ cfgs 1 Gen.winFacts₀1.arr_unscoped c]
      refine sep_mono (arrays1 R1 _ c _ _ ?_ ?_ ?_).2 (Entails.of_eq ?_)
      · exact ((R1.dat _ c).arrAt_in 0 rfl _).trans ((R1.A_eq _ c 0).trans h33.symm)
      · exact ((R1.dat _ c).arrAt_in 1 rfl _).trans ((R1.A_eq _ c 1).trans h33.symm)
      · exact ((V4_v34 m _ c).trans (outs_v34 R0 R1 m 4 c)).symm
      · unfold Pipeline.unscopedRest
        exact bigSep_congr fun b hb => by
          beta_reduce; rw [Gen.V4_of m _ c b fun h => (Finset.mem_sdiff.mp hb).2 (List.mem_singleton.mp h ▸ by decide)]

set_option backward.isDefEq.respectTransparency.types false in
theorem run_of {Q : PUnit × MemSt nD τ sig (Elt F) → Prop}
    (hQ : ∀ s : MemSt nD τ sig (Elt F), (∀ c : Dev nD, ∀ b ∈ Pipeline.ucRefs τ sig, s.mem ((c : Thread nD τ).1, b) = Gen.V7 m (outs R0 R1 m) c b) → Q (⟨⟩, s)) :
    θ_run defs (onTc (τ := τ) (main (F := F))) ⟨m, fun _ => 0, ρ⟩ Q :=
  Pipeline.θ_run_regions_kit_dev pcfgs Gen.adm (pdats R0 R1 m) () Gen.cellOf_inj emb₁ defs₀ .none L lv m ρ main
    (Gen.segs m (outs R0 R1 m) .none L lv (fun _ => Rst) () (pdats R0 R1 m) (reg0 R0 R1 m) (reg1 R0 R1 m))
    (fun c Q => by
      rewrite [Gen.main_chain c, Pipeline.Seg.run_eq_chain]
      exact .rfl)
    (fun c => by simp only [Gen.segs, Pipeline.Seg.pipes_host, Pipeline.Seg.pipes_region, Pipeline.Seg.pipes_nil]; decide)
    (O₀ := 0) (hL := fun _ _ => rfl) (G := fun _ => BI.emp)
    (u₀ := initOf (Pipeline.cells cfgs Gen.cellOf_inj) (Pipeline.launchToks cfgs Gen.cellOf_inj))
    (hu₀ := by
      rw [ownU_emb₁, BI.bigSep_emp_const]
      iintro Hu; imodintro; isplitl [Hu]; · iexact Hu
      iempintro)
    (T₀ := fun c => iprop(StableHlo.held c.tc (Pipeline.ucRefs τ sig) (Gen.V0 m c) ∗ Rst c))
    (Tₙ := fun c => iprop(StableHlo.held c.tc (Pipeline.ucRefs τ sig) (Gen.V7 m (outs R0 R1 m) c) ∗ ∃ r, prngReg c r))
    (hch := fun c => ⟨.rfl, .rfl, .rfl, .rfl, .rfl, .rfl, .rfl, BI.sep_assoc'⟩)
    (hinit := by
      refine Pipeline.initEach L lv fun c => ?_
      rw [← Pipeline.unscopedBufs_held]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (c.tc.1, b)) (Gen.V7 m (outs R0 R1 m) c) s')
      isplitl [Hh] <;> iassumption)
    (hQ := hQ)

include R0 R1 in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_of R0 R1 m ρ fun s h c =>
    have k (r : Ref sig .tc) hr := h c _ (mem_uc r hr)
    ⟨(k main_arg0 (by decide)).trans (Gen.V7_main_arg0 m _ c), (k main_arg1 (by decide)).trans (Gen.V7_main_arg1 m _ c),
     (k main_arg2 (by decide)).trans (Gen.V7_main_arg2 m _ c), (k main_arg3 (by decide)).trans (Gen.V7_main_arg3 m _ c),
     (k main_arg4 (by decide)).trans (Gen.V7_main_arg4 m _ c), (k main_arg5 (by decide)).trans (Gen.V7_main_arg5 m _ c),
     (k main_arg6 (by decide)).trans (Gen.V7_main_arg6 m _ c), (k main_arg7 (by decide)).trans (Gen.V7_main_arg7 m _ c),
     (k main_arg8 (by decide)).trans (Gen.V7_main_arg8 m _ c)⟩

/-- info: 'Cert.Kernel.Hand.frame' depends on axioms: [propext, Classical.choice, Quot.sound] -/
#guard_msgs in #print axioms frame

end Cert.Kernel.Hand

end
-- ==== Proof.KernelIdeal.R0Defs.lean ====
import proofs.«427145_j9268539424872_3_alg».proof.Proof.Gen.KernelIdeal.Launch
import proofs.«427145_j9268539424872_3_alg».proof.Proof.Gen.KernelIdeal.Skeleton
import proofs.«427145_j9268539424872_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 := by decide +kernel

abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 64 = 0 := by decide +kernel

abbrev cond0_2 (i : grid0.Coords) : Prop := k0_cond3 i = 1#1
theorem hcond0_2 : ∀ t : Fin cfg0.N, cond0_2 (grid0.coords t) ↔ t.val % 8 = 7 := by decide +kernel

abbrev cond0_3 (i : grid0.Coords) : Prop := k0_cond4 i = 1#1
theorem hcond0_3 : ∀ t : Fin cfg0.N, cond0_3 (grid0.coords t) ↔ t.val % 64 = 63 := by decide +kernel

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
theorem liveAt0_2 : ∀ t : Fin cfg0.N, cond0_2 (grid0.coords t) → cfg0.idle 2 (grid0.coords t) = false := by decide +kernel

theorem idleAt0_3 : ∀ t : Fin cfg0.N, ¬cond0_3 (grid0.coords t) → cfg0.idle 3 (grid0.coords t) = true := by decide +kernel
theorem noFlush0_3 : ∀ t : Fin cfg0.N, ¬cond0_3 (grid0.coords t) → (cfg0.win 3).flush t = false := by decide +kernel
theorem liveAt0_3 : ∀ t : Fin cfg0.N, cond0_3 (grid0.coords t) → cfg0.idle 3 (grid0.coords t) = false := by decide +kernel

abbrev VO0_2 : View sig .tc .vmem S4x512 .f32 := (Memref.whole cc0_stg2_0 : Memref sig .tc .vmem S4x512 .f32).view
abbrev VO0_3 : View sig .tc .vmem S1x4x8192 .f32 := (Memref.whole cc0_stg3_0 : Memref sig .tc .vmem S1x4x8192 .f32).view
abbrev ms0_0 (t : Fin cfg0.N) : Memref sig .tc .vmem S4x3x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x8192 .f32 := win0_3.stage (cfg0.slots t 3)
abbrev hs0_3 (t : Fin cfg0.N) : (ms0_3 t).IsWhole := hstage0_3 ((cfg0.slots t 3).cast nbuf0_3)

abbrev scM0_0 : Memref sig .tc .vmem S4x1x512 .f32 := Memref.whole cc0_scratch0
abbrev scM0_1 : Memref sig .tc .vmem S4x1x8192 .f32 := Memref.whole cc0_scratch1
abbrev VS0_0 : View sig .tc .vmem S4x1x512 .f32 := scM0_0.view
abbrev VS0_1 : View sig .tc .vmem S4x1x8192 .f32 := scM0_1.view

abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA; rw [scopedRest0_eq]; simp only [scM0_0, scM0_1, owns_whole]; try rfl

end Cert.KernelIdeal.Hand

end
-- ==== Proof.KernelIdeal.R0RunA.lean ====
/-
  Region 0, case A: both accumulators are reset to +∞ first (i = 0 ∧ j = 0), then updated; no output block is stored. The body loads the two input blocks batch by batch, forms the 512 × 1024 tile of
  squared distances, and folds its row minima into the row accumulator's row b and its column minima into the column
  accumulator's slice [b, 0, 1024·j .. 1024·j + 1024), for b = 0 … 3. What the stores leave is found by running the body.
-/
import proofs.«427145_j9268539424872_3_alg».proof.Proof.KernelIdeal.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x1x512 .f32) (harg7 : arg7.IsWhole) (arg8 : Memref sig .tc .vmem S4x1x8192 .f32) (harg8 : arg8.IsWhole) (hc0 : cond0_0 i) (hc1 : cond0_1 i) (hc2 : ¬cond0_2 i) (hc3 : ¬cond0_3 i)
    (x0 : Vec F S4x3x512 .f32) (x1 : Vec F S4x3x1024 .f32) :
    Σ' (L2 : List (View.Piece (Elt F) S4x512 .f32)) (L3 : List (View.Piece (Elt F) S1x4x8192 .f32)) (LS0 : List (View.Piece (Elt F) S4x1x512 .f32)), { LS1 : List (View.Piece (Elt F) S4x1x8192 .f32) //
      ∀ (xi2 : Vec F S4x512 .f32) (xi3 : Vec F S1x4x8192 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__chamfer_kernel i arg3 harg3 arg4 harg4 arg5 harg5 arg6 harg6 arg7 harg7 arg8 harg8) K } := by
  refine ⟨[], [], ?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact H5

end Cert.KernelIdeal.Hand

end
-- ==== Proof.KernelIdeal.R0RunB.lean ====
/-
  Region 0, case B: the row accumulator is reset to +∞ first (j = 0, i ≠ 0), the column accumulator is carried; both are then updated; no output block is stored. The body loads the two input blocks batch by batch, forms the 512 × 1024 tile of
  squared distances, and folds its row minima into the row accumulator's row b and its column minima into the column
  accumulator's slice [b, 0, 1024·j .. 1024·j + 1024), for b = 0 … 3. What the stores leave is found by running the body.
-/
import proofs.«427145_j9268539424872_3_alg».proof.Proof.KernelIdeal.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x1x512 .f32) (harg7 : arg7.IsWhole) (arg8 : Memref sig .tc .vmem S4x1x8192 .f32) (harg8 : arg8.IsWhole) (hc0 : cond0_0 i) (hc1 : ¬cond0_1 i) (hc2 : ¬cond0_2 i) (hc3 : ¬cond0_3 i)
    (x0 : Vec F S4x3x512 .f32) (x1 : Vec F S4x3x1024 .f32) (xs1 : Vec F S4x1x8192 .f32) :
    Σ' (L2 : List (View.Piece (Elt F) S4x512 .f32)) (L3 : List (View.Piece (Elt F) S1x4x8192 .f32)) (LS0 : List (View.Piece (Elt F) S4x1x512 .f32)), { LS1 : List (View.Piece (Elt F) S4x1x8192 .f32) //
      ∀ (xi2 : Vec F S4x512 .f32) (xi3 : Vec F S1x4x8192 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ owns (c : Thread nD τ) arg8 fullShare xs1
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0) ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0__chamfer_kernel i arg3 harg3 arg4 harg4 arg5 harg5 arg6 harg6 arg7 harg7 arg8 harg8) K } := by
  refine ⟨[], [], ?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg3.eq_unread hf0; obtain rfl := harg4.eq_unread hf1; obtain rfl := harg5.eq_unread hf2; obtain rfl := harg6.eq_unread hf3; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexact H5

end Cert.KernelIdeal.Hand

end
-- ==== Proof.KernelIdeal.R0RunC.lean ====
/-
  Region 0, case C: no branch is taken (0 < j < 7): both accumulators are carried and updated; no output block is stored. The body loads the two input blocks batch by batch, forms the 512 × 1024 tile of
  squared distances, and folds its row minima into the row accumulator's row b and its column minima into the column
  accumulator's slice [b, 0, 1024·j .. 1024·j + 1024), for b = 0 … 3. What the stores leave is found by running the body.
-/
import proofs.«427145_j9268539424872_3_alg».proof.Proof.KernelIdeal.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x1x512 .f32) (harg7 : arg7.IsWhole) (arg8 : Memref sig .tc .vmem S4x1x8192 .f32) (harg8 : arg8.IsWhole) (hc0 : ¬cond0_0 i) (hc1 : ¬cond0_1 i) (hc2 : ¬cond0_2 i) (hc3 : ¬cond0_3 i)
    (x0 : Vec F S4x3x512 .f32) (x1 : Vec F S4x3x1024 .f32) (xs0 : Vec F S4x1x512 .f32) (xs1 : Vec F S4x1x8192 .f32) :
    Σ' (L2 : List (View.Piece (Elt F) S4x512 .f32)) (L3 : List (View.Piece (Elt F) S1x4x8192 .f32)) (LS0 : List (View.Piece (Elt F) S4x1x512 .f32)), { LS1 : List (View.Piece (Elt F) S4x1x8192 .f32) //
      ∀ (xi2 : Vec F S4x512 .f32) (xi3 : Vec F S1x4x8192 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (arg7.view.loc (c : Thread nD τ) ↦[arg7.view.set]{fullShare} arg7.view.writes (Elt F) (harg7.unread xs0) LS0) ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0__chamfer_kernel i arg3 harg3 arg4 harg4 arg5 harg5 arg6 harg6 arg7 harg7 arg8 harg8) K } := by
  refine ⟨[], [], ?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexact H4
    iexact H5

end Cert.KernelIdeal.Hand

end
-- ==== Proof.KernelIdeal.R0RunD.lean ====
/-
  Region 0, case D: j = 7 (and not i = 7): both accumulators are carried and updated, and the row accumulator is copied to the row output's block. The body loads the two input blocks batch by batch, forms the 512 × 1024 tile of
  squared distances, and folds its row minima into the row accumulator's row b and its column minima into the column
  accumulator's slice [b, 0, 1024·j .. 1024·j + 1024), for b = 0 … 3. What the stores leave is found by running the body.
-/
import proofs.«427145_j9268539424872_3_alg».proof.Proof.KernelIdeal.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_D (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x1x512 .f32) (harg7 : arg7.IsWhole) (arg8 : Memref sig .tc .vmem S4x1x8192 .f32) (harg8 : arg8.IsWhole) (hc0 : ¬cond0_0 i) (hc1 : ¬cond0_1 i) (hc2 : cond0_2 i) (hc3 : ¬cond0_3 i)
    (x0 : Vec F S4x3x512 .f32) (x1 : Vec F S4x3x1024 .f32) (xs0 : Vec F S4x1x512 .f32) (xs1 : Vec F S4x1x8192 .f32) :
    Σ' (L2 : List (View.Piece (Elt F) S4x512 .f32)) (L3 : List (View.Piece (Elt F) S1x4x8192 .f32)) (LS0 : List (View.Piece (Elt F) S4x1x512 .f32)), { LS1 : List (View.Piece (Elt F) S4x1x8192 .f32) //
      ∀ (xi3 : Vec F S1x4x8192 .f32) (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xi3 ∗ (arg7.view.loc (c : Thread nD τ) ↦[arg7.view.set]{fullShare} arg7.view.writes (Elt F) (harg7.unread xs0) LS0) ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0__chamfer_kernel i arg3 harg3 arg4 harg4 arg5 harg5 arg6 harg6 arg7 harg7 arg8 harg8) K } := by
  refine ⟨?_, [], ?_, ?_, fun xi3 E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
    obtain rfl := harg3.eq_unread hf0; obtain rfl := harg4.eq_unread hf1; obtain rfl := harg6.eq_unread hf3; obtain rfl := harg7.eq_unread hf4; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexists _; isplitr; · ipureintro; exact harg6.read_unread _
      iexact H3
    isplitl [H4]
    · iexact H4
    iexact H5

end Cert.KernelIdeal.Hand

end
-- ==== Proof.KernelIdeal.R0RunE.lean ====
/-
  Region 0, case E: i = 7 ∧ j = 7: both accumulators are carried and updated, the row accumulator is copied to the row output's block and the column accumulator to the column output's block. The body loads the two input blocks batch by batch, forms the 512 × 1024 tile of
  squared distances, and folds its row minima into the row accumulator's row b and its column minima into the column
  accumulator's slice [b, 0, 1024·j .. 1024·j + 1024), for b = 0 … 3. What the stores leave is found by running the body.
-/
import proofs.«427145_j9268539424872_3_alg».proof.Proof.KernelIdeal.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_E (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x1x512 .f32) (harg7 : arg7.IsWhole) (arg8 : Memref sig .tc .vmem S4x1x8192 .f32) (harg8 : arg8.IsWhole) (hc0 : ¬cond0_0 i) (hc1 : ¬cond0_1 i) (hc2 : cond0_2 i) (hc3 : cond0_3 i)
    (x0 : Vec F S4x3x512 .f32) (x1 : Vec F S4x3x1024 .f32) (xs0 : Vec F S4x1x512 .f32) (xs1 : Vec F S4x1x8192 .f32) :
    Σ' (L2 : List (View.Piece (Elt F) S4x512 .f32)) (L3 : List (View.Piece (Elt F) S1x4x8192 .f32)) (LS0 : List (View.Piece (Elt F) S4x1x512 .f32)), { LS1 : List (View.Piece (Elt F) S4x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (arg7.view.loc (c : Thread nD τ) ↦[arg7.view.set]{fullShare} arg7.view.writes (Elt F) (harg7.unread xs0) LS0) ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0__chamfer_kernel i arg3 harg3 arg4 harg4 arg5 harg5 arg6 harg6 arg7 harg7 arg8 harg8) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
    obtain rfl := harg3.eq_unread hf0; obtain rfl := harg4.eq_unread hf1; obtain rfl := harg7.eq_unread hf4; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexists _; iexact H3
    isplitl [H4]
    · iexact H4
    iexact H5

end Cert.KernelIdeal.Hand

end
-- ==== Proof.KernelIdeal.R0Frame.lean ====
import proofs.«427145_j9268539424872_3_alg».proof.Proof.KernelIdeal.R0RunA
import proofs.«427145_j9268539424872_3_alg».proof.Proof.KernelIdeal.R0RunB
import proofs.«427145_j9268539424872_3_alg».proof.Proof.KernelIdeal.R0RunC
import proofs.«427145_j9268539424872_3_alg».proof.Proof.KernelIdeal.R0RunD
import proofs.«427145_j9268539424872_3_alg».proof.Proof.KernelIdeal.R0RunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev T0 (F : FTy → Type) [FloatOps F] : Type := Vec F S4x512 .f32 × Vec F S1x4x8192 .f32 × Vec F S4x1x512 .f32 × Vec F S4x1x8192 .f32
def rb2 (L : List (View.Piece (Elt F) S4x512 .f32)) : Vec F S4x512 .f32 := VO0_2.read (Elt F) (VO0_2.writes (Elt F) VO0_2.junk L)
def rb3 (L : List (View.Piece (Elt F) S1x4x8192 .f32)) : Vec F S1x4x8192 .f32 := VO0_3.read (Elt F) (VO0_3.writes (Elt F) VO0_3.junk L)
def rbS0 (L : List (View.Piece (Elt F) S4x1x512 .f32)) : Vec F S4x1x512 .f32 := VS0_0.read (Elt F) (VS0_0.writes (Elt F) VS0_0.junk L)
def rbS1 (L : List (View.Piece (Elt F) S4x1x8192 .f32)) : Vec F S4x1x8192 .f32 := VS0_1.read (Elt F) (VS0_1.writes (Elt F) VS0_1.junk L)
def cbS0 (p : Vec F S4x1x512 .f32) (L : List (View.Piece (Elt F) S4x1x512 .f32)) : Vec F S4x1x512 .f32 :=
  VS0_0.read (Elt F) (VS0_0.writes (Elt F) ((Memref.isWhole_whole cc0_scratch0 : scM0_0.IsWhole).unread p) L)
def cbS1 (p : Vec F S4x1x8192 .f32) (L : List (View.Piece (Elt F) S4x1x8192 .f32)) : Vec F S4x1x8192 .f32 :=
  VS0_1.read (Elt F) (VS0_1.writes (Elt F) ((Memref.isWhole_whole cc0_scratch1 : scM0_1.IsWhole).unread p) L)
def junk0 : T0 F := (rb2 [], rb3 [], rbS0 [], rbS1 [])

theorem hypsA (t : Fin cfg0.N) (h1 : t.val % 64 = 0) : let i := grid0.coords t; cond0_0 i ∧ cond0_1 i ∧ ¬cond0_2 i ∧ ¬cond0_3 i := by
  dsimp only; rw [hcond0_0, hcond0_1, hcond0_2, hcond0_3]; omega
theorem hypsB (t : Fin cfg0.N) (h1 : ¬t.val % 64 = 0) (h0 : t.val % 8 = 0) : let i := grid0.coords t; cond0_0 i ∧ ¬cond0_1 i ∧ ¬cond0_2 i ∧ ¬cond0_3 i := by
  dsimp only; rw [hcond0_0, hcond0_1, hcond0_2, hcond0_3]; omega
theorem hypsC (t : Fin cfg0.N) (h0 : ¬t.val % 8 = 0) (h2 : ¬t.val % 8 = 7) : let i := grid0.coords t; ¬cond0_0 i ∧ ¬cond0_1 i ∧ ¬cond0_2 i ∧ ¬cond0_3 i := by
  dsimp only; rw [hcond0_0, hcond0_1, hcond0_2, hcond0_3]; omega
theorem hypsD (t : Fin cfg0.N) (h2 : t.val % 8 = 7) (h3 : ¬t.val % 64 = 63) : let i := grid0.coords t; ¬cond0_0 i ∧ ¬cond0_1 i ∧ cond0_2 i ∧ ¬cond0_3 i := by
  dsimp only; rw [hcond0_0, hcond0_1, hcond0_2, hcond0_3]; omega
theorem hypsE (t : Fin cfg0.N) (h3 : t.val % 64 = 63) : let i := grid0.coords t; ¬cond0_0 i ∧ ¬cond0_1 i ∧ cond0_2 i ∧ cond0_3 i := by
  dsimp only; rw [hcond0_0, hcond0_1, hcond0_2, hcond0_3]; omega

abbrev run0_A (c : Dev nD) (t : Fin cfg0.N) (h1 : t.val % 64 = 0)  :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (hypsA t h1).1 (hypsA t h1).2.1 (hypsA t h1).2.2.1 (hypsA t h1).2.2.2 (iblk0 V c 0 t) (iblk0 V c 1 t)

abbrev run0_B (c : Dev nD) (t : Fin cfg0.N) (h1 : ¬t.val % 64 = 0) (h0 : t.val % 8 = 0) (p1 : Vec F S4x1x8192 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (hypsB t h1 h0).1 (hypsB t h1 h0).2.1 (hypsB t h1 h0).2.2.1 (hypsB t h1 h0).2.2.2 (iblk0 V c 0 t) (iblk0 V c 1 t) p1

abbrev run0_C (c : Dev nD) (t : Fin cfg0.N) (h0 : ¬t.val % 8 = 0) (h2 : ¬t.val % 8 = 7) (p0 : Vec F S4x1x512 .f32) (p1 : Vec F S4x1x8192 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (hypsC t h0 h2).1 (hypsC t h0 h2).2.1 (hypsC t h0 h2).2.2.1 (hypsC t h0 h2).2.2.2 (iblk0 V c 0 t) (iblk0 V c 1 t) p0 p1

abbrev run0_D (c : Dev nD) (t : Fin cfg0.N) (h2 : t.val % 8 = 7) (h3 : ¬t.val % 64 = 63) (p0 : Vec F S4x1x512 .f32) (p1 : Vec F S4x1x8192 .f32) :=
  kernelRun0_D (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (hypsD t h2 h3).1 (hypsD t h2 h3).2.1 (hypsD t h2 h3).2.2.1 (hypsD t h2 h3).2.2.2 (iblk0 V c 0 t) (iblk0 V c 1 t) p0 p1

abbrev run0_E (c : Dev nD) (t : Fin cfg0.N) (h3 : t.val % 64 = 63) (p0 : Vec F S4x1x512 .f32) (p1 : Vec F S4x1x8192 .f32) :=
  kernelRun0_E (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (hypsE t h3).1 (hypsE t h3).2.1 (hypsE t h3).2.2.1 (hypsE t h3).2.2.2 (iblk0 V c 0 t) (iblk0 V c 1 t) p0 p1

def tupA (c : Dev nD) (t : Fin cfg0.N) (h1 : t.val % 64 = 0)  : T0 F :=
  (rb2 (run0_A V c t h1 ).1, rb3 (run0_A V c t h1 ).2.1, rbS0 (run0_A V c t h1 ).2.2.1, rbS1 (run0_A V c t h1 ).2.2.2.1)

def tupB (c : Dev nD) (t : Fin cfg0.N) (h1 : ¬t.val % 64 = 0) (h0 : t.val % 8 = 0) (p1 : Vec F S4x1x8192 .f32) : T0 F :=
  (rb2 (run0_B V c t h1 h0 p1).1, rb3 (run0_B V c t h1 h0 p1).2.1, rbS0 (run0_B V c t h1 h0 p1).2.2.1, cbS1 p1 (run0_B V c t h1 h0 p1).2.2.2.1)

def tupC (c : Dev nD) (t : Fin cfg0.N) (h0 : ¬t.val % 8 = 0) (h2 : ¬t.val % 8 = 7) (p0 : Vec F S4x1x512 .f32) (p1 : Vec F S4x1x8192 .f32) : T0 F :=
  (rb2 (run0_C V c t h0 h2 p0 p1).1, rb3 (run0_C V c t h0 h2 p0 p1).2.1, cbS0 p0 (run0_C V c t h0 h2 p0 p1).2.2.1, cbS1 p1 (run0_C V c t h0 h2 p0 p1).2.2.2.1)

def tupD (c : Dev nD) (t : Fin cfg0.N) (h2 : t.val % 8 = 7) (h3 : ¬t.val % 64 = 63) (p0 : Vec F S4x1x512 .f32) (p1 : Vec F S4x1x8192 .f32) : T0 F :=
  (rb2 (run0_D V c t h2 h3 p0 p1).1, rb3 (run0_D V c t h2 h3 p0 p1).2.1, cbS0 p0 (run0_D V c t h2 h3 p0 p1).2.2.1, cbS1 p1 (run0_D V c t h2 h3 p0 p1).2.2.2.1)

def tupE (c : Dev nD) (t : Fin cfg0.N) (h3 : t.val % 64 = 63) (p0 : Vec F S4x1x512 .f32) (p1 : Vec F S4x1x8192 .f32) : T0 F :=
  (rb2 (run0_E V c t h3 p0 p1).1, rb3 (run0_E V c t h3 p0 p1).2.1, cbS0 p0 (run0_E V c t h3 p0 p1).2.2.1, cbS1 p1 (run0_E V c t h3 p0 p1).2.2.2.1)

def step0 (c : Dev nD) (t : Fin cfg0.N) (p : T0 F) : T0 F :=
  if h1 : t.val % 64 = 0 then tupA V c t h1
  else if h0 : t.val % 8 = 0 then tupB V c t h1 h0 p.2.2.2
  else if h3 : t.val % 64 = 63 then tupE V c t h3 p.2.2.1 p.2.2.2
  else if h2 : t.val % 8 = 7 then tupD V c t h2 h3 p.2.2.1 p.2.2.2
  else tupC V c t h0 h2 p.2.2.1 p.2.2.2

def outsAt0 (c : Dev nD) : (n : ℕ) → n < cfg0.N → T0 F
  | 0, hn => step0 V c ⟨0, hn⟩ junk0
  | n + 1, hn => step0 V c ⟨n + 1, hn⟩ (outsAt0 c n (Nat.lt_of_succ_lt hn))

-- Past the first point the accumulation is one step over what the point before left.
theorem outsAt0_pos (c : Dev nD) (t : Fin cfg0.N) (hz : t.val ≠ 0) :
    outsAt0 V c t.val t.isLt = step0 V c t (outsAt0 V c (t.val - 1) (Nat.lt_of_le_of_lt (Nat.sub_le _ _) t.isLt)) := by
  obtain ⟨_ | n, hn⟩ := t
  · exact absurd rfl hz
  · rfl

theorem outsAt0_A (c : Dev nD) (t : Fin cfg0.N) (h1 : t.val % 64 = 0) : outsAt0 V c t.val t.isLt = tupA V c t h1 := by
  obtain ⟨_ | n, hn⟩ := t
  · exact (show outsAt0 V c 0 hn = step0 V c ⟨0, hn⟩ junk0 from rfl).trans (dif_pos h1)
  · exact (show outsAt0 V c (n + 1) hn = step0 V c ⟨n + 1, hn⟩ (outsAt0 V c n (Nat.lt_of_succ_lt hn)) from rfl).trans (dif_pos h1)

theorem outsAt0_B (c : Dev nD) (t : Fin cfg0.N) (h1 : ¬t.val % 64 = 0) (h0 : t.val % 8 = 0) :
    outsAt0 V c t.val t.isLt = tupB V c t h1 h0 (outsAt0 V c (t.val - 1) (Nat.lt_of_le_of_lt (Nat.sub_le _ _) t.isLt)).2.2.2 :=
  (outsAt0_pos V c t (by omega)).trans ((dif_neg h1).trans (dif_pos h0))

theorem outsAt0_C (c : Dev nD) (t : Fin cfg0.N) (h0 : ¬t.val % 8 = 0) (h2 : ¬t.val % 8 = 7) :
    outsAt0 V c t.val t.isLt = tupC V c t h0 h2 (outsAt0 V c (t.val - 1) (Nat.lt_of_le_of_lt (Nat.sub_le _ _) t.isLt)).2.2.1 (outsAt0 V c (t.val - 1) (Nat.lt_of_le_of_lt (Nat.sub_le _ _) t.isLt)).2.2.2 :=
  (outsAt0_pos V c t (by omega)).trans ((dif_neg (by omega)).trans ((dif_neg h0).trans ((dif_neg (by omega)).trans (dif_neg h2))))

theorem outsAt0_D (c : Dev nD) (t : Fin cfg0.N) (h2 : t.val % 8 = 7) (h3 : ¬t.val % 64 = 63) :
    outsAt0 V c t.val t.isLt = tupD V c t h2 h3 (outsAt0 V c (t.val - 1) (Nat.lt_of_le_of_lt (Nat.sub_le _ _) t.isLt)).2.2.1 (outsAt0 V c (t.val - 1) (Nat.lt_of_le_of_lt (Nat.sub_le _ _) t.isLt)).2.2.2 :=
  (outsAt0_pos V c t (by omega)).trans ((dif_neg (by omega)).trans ((dif_neg (by omega)).trans ((dif_neg h3).trans (dif_pos h2))))

theorem outsAt0_E (c : Dev nD) (t : Fin cfg0.N) (h3 : t.val % 64 = 63) :
    outsAt0 V c t.val t.isLt = tupE V c t h3 (outsAt0 V c (t.val - 1) (Nat.lt_of_le_of_lt (Nat.sub_le _ _) t.isLt)).2.2.1 (outsAt0 V c (t.val - 1) (Nat.lt_of_le_of_lt (Nat.sub_le _ _) t.isLt)).2.2.2 :=
  (outsAt0_pos V c t (by omega)).trans ((dif_neg (by omega)).trans ((dif_neg (by omega)).trans (dif_pos h3)))

def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.2.1 ∗ owns (c : Thread nD τ) scM0_1 fullShare (outsAt0 V c n hn).2.2.2 ∗ others0 c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
-- An input window's staging buffer holds its block at every point, fetched there or not.
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

-- Past the first point the invariant names the two accumulators at what the point before left.
theorem Phi_pos0 (c : Dev nD) (t : Fin cfg0.N) (hz : t.val ≠ 0) :
    (dat0 V c).Φ t.castSucc = PhiS0 V c (t.val - 1 + 1) (by have := t.isLt; omega) := by
  obtain ⟨_ | n, hn⟩ := t
  exacts [absurd rfl hz, rfl]

-- At any position the invariant gives the class invariant back: the accumulators' named contents are forgotten.
theorem Phi_weak0 (c : Dev nD) (t : Fin (cfg0.N + 1)) : (dat0 V c).Φ t ⊢ Pipeline.ΦA spec0 c := by
  obtain ⟨n, hn⟩ := t
  show PhiS0 V c n _ ⊢ _
  cases n with
  | zero => exact .refl
  | succ n =>
    rw [PhiS0, PhiA0_eq]
    iintro ⟨⟨HS0, HS1, Hoth⟩, Hg⟩
    iframe Hoth Hg
    isplitl [HS0] <;> iexists _
    · iexact HS0
    · iexact HS1

-- The body at any point: the point's case selects the run; each buffer goes in as it is held and comes back owned at what the run's stores leave (read back over the carried contents, or over any contents where the stores cover it); an output the case does not store is idle and passes through.
set_option maxHeartbeats 8000000 in
theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl,
    show (dat0 V c).Φ t.succ = PhiS0 V c (t.val + 1) t.isLt from rfl, PhiS0]
  by_cases h3 : t.val % 64 = 63
  rw [liveAt0_2 t (hypsE t h3).2.2.1, liveAt0_3 t (hypsE t h3).2.2.2]
  simp only [before0_0, before0_1]
  rw [after0_2, after0_3, outsAt0_E V c t h3, Phi_pos0 V c t (by omega), PhiS0]
  unfold tupE; dsimp only
  iintro ⟨⟨⟨HS0, HS1, Hoth⟩, Hg⟩, Ho, ⟨%d0, H0⟩, ⟨%d1, H1⟩, ⟨%d2, H2⟩, ⟨%d3, H3⟩⟩
  iapply ((run0_E V c t h3 _ _).2.2.2.2 Set.univ _)
  case' neg => have hc3 := mt (hcond0_3 t).1 h3
  rw [idleAt0_3 t hc3, noFlush0_3 t hc3]
  by_cases h2 : t.val % 8 = 7
  rw [liveAt0_2 t (hypsD t h2 h3).2.2.1]
  simp only [before0_0, before0_1]
  rw [after0_2, outsAt0_D V c t h2 h3, Phi_pos0 V c t (by omega), PhiS0]
  unfold tupD; dsimp only
  iintro ⟨⟨⟨HS0, HS1, Hoth⟩, Hg⟩, Ho, ⟨%d0, H0⟩, ⟨%d1, H1⟩, ⟨%d2, H2⟩, ⟨%d3, H3⟩⟩
  iapply ((run0_D V c t h2 h3 _ _).2.2.2.2 _ Set.univ _)
  case' neg => have hc2 := mt (hcond0_2 t).1 h2
  rw [idleAt0_2 t hc2, noFlush0_2 t hc2]
  by_cases h1 : t.val % 64 = 0
  simp only [before0_0, before0_1]
  rw [outsAt0_A V c t h1]
  unfold tupA; dsimp only
  have hw := Phi_weak0 V c t.castSucc
  rw [PhiA0_eq] at hw
  iintro ⟨HΦ, Ho, ⟨%d0, H0⟩, ⟨%d1, H1⟩, ⟨%d2, H2⟩, ⟨%d3, H3⟩⟩
  icases hw $$ HΦ with ⟨⟨HS0, HS1, Hoth⟩, Hg⟩
  iapply ((run0_A V c t h1).2.2.2.2 _ _ Set.univ _)
  case' neg => rw [Phi_pos0 V c t (by omega), PhiS0]
  by_cases h0 : t.val % 8 = 0
  simp only [before0_0, before0_1]
  rw [outsAt0_B V c t h1 h0]
  unfold tupB; dsimp only
  iintro ⟨⟨⟨HS0, HS1, Hoth⟩, Hg⟩, Ho, ⟨%d0, H0⟩, ⟨%d1, H1⟩, ⟨%d2, H2⟩, ⟨%d3, H3⟩⟩
  iapply ((run0_B V c t h1 h0 _).2.2.2.2 _ _ Set.univ _)
  case' neg => simp only [before0_0, before0_1]
  rw [outsAt0_C V c t h0 h2]
  unfold tupC; dsimp only
  iintro ⟨⟨⟨HS0, HS1, Hoth⟩, Hg⟩, Ho, ⟨%d0, H0⟩, ⟨%d1, H1⟩, ⟨%d2, H2⟩, ⟨%d3, H3⟩⟩
  iapply ((run0_C V c t h0 h2 _ _).2.2.2.2 _ _ Set.univ _)
  all_goals
    isplitl [H0]; · iexact H0
    isplitl [H1]; · iexact H1
    isplitl [H2]; · first | iexact H2 | (iexists _; iexact H2)
    isplitl [H3]; · first | iexact H3 | (iexists _; iexact H3)
    isplitl [HS0]; · first | iexact HS0 | (iexists _; iexact HS0)
    isplitl [HS1]; · first | iexact HS1 | (iexists _; iexact HS1)
    iintro ⟨H0, H1, H2, H3, HS0, HS1⟩
    isplitl [HS0 HS1 Hoth Hg]
    · iframe Hoth Hg
      isplitl [HS0]
      · first | iapply owns_intro _ scM0_0 _ _ $$ HS0 | (icases HS0 with ⟨%e, HS0⟩; iapply Ring.owns_of_writes_tiledL VS0_0 S4x1x512.size $$ HS0; ipureintro; sl_kernel_rfl)
      first | iapply owns_intro _ scM0_1 _ _ $$ HS1 | (icases HS1 with ⟨%e, HS1⟩; iapply Ring.owns_of_writes_tiledL VS0_1 S4x1x8192.size $$ HS1; ipureintro; sl_kernel_rfl)
    iframe Ho
    isplitl [H0]; · iexact H0
    isplitl [H1]; · iexact H1
    isplitl [H2]
    · first | (iexists _; iexact H2) | (icases H2 with ⟨%e, H2⟩; iapply Ring.owns_of_writes_tiledL VO0_2 S4x512.size $$ H2; ipureintro; sl_kernel_rfl)
    first | (iexists _; iexact H3) | (icases H3 with ⟨%e, H3⟩; iapply Ring.owns_of_writes_tiledL VO0_3 S1x4x8192.size $$ H3; ipureintro; sl_kernel_rfl)

theorem hin0 (c : Dev nD) : Pipeline.ΦA spec0 c ⊢ (dat0 V c).Φ 0 := .refl

theorem hout0 (c : Dev nD) : (dat0 V c).Φ (Fin.last cfg0.N) ⊢ Pipeline.ΦA spec0 c :=
  Phi_weak0 V c _

theorem rec_eq0 (c : Dev nD) : (dat0 V c).recorded 0 = Set.univ := rfl

end

end Cert.KernelIdeal.Hand

end
-- ==== Proof.KernelIdeal.R1Defs.lean ====
import proofs.«427145_j9268539424872_3_alg».proof.Proof.Gen.KernelIdeal.Launch
import proofs.«427145_j9268539424872_3_alg».proof.Proof.Gen.KernelIdeal.Skeleton
import proofs.«427145_j9268539424872_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws
open Idealize.ShloMosaic.Pipeline (Dat)
open Cert.KernelIdeal.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 2 = 0 := by decide +kernel

abbrev cond1_1 (i : grid1.Coords) : Prop := k1_cond2 i = 1#1

theorem hcond1_1 : ∀ t : Fin cfg1.N, cond1_1 (grid1.coords t) ↔ t.val % 2 = 1 := by decide +kernel

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2_A : ∀ t : Fin cfg1.N, cond1_0 (grid1.coords t) → ¬cond1_1 (grid1.coords t) → cfg1.idle 2 (grid1.coords t) = true := by decide +kernel

theorem noFlush1_2_A : ∀ t : Fin cfg1.N, cond1_0 (grid1.coords t) → ¬cond1_1 (grid1.coords t) → (cfg1.win 2).flush t = false := by decide +kernel

theorem liveAt1_2_B : ∀ t : Fin cfg1.N, ¬cond1_0 (grid1.coords t) → cond1_1 (grid1.coords t) → cfg1.idle 2 (grid1.coords t) = false := by decide +kernel

abbrev VO1_2 : View sig .tc .vmem S4x512 .f32 := (Memref.whole cc1_stg2_0 : Memref sig .tc .vmem S4x512 .f32).view
abbrev ms1_0 (t : Fin cfg1.N) : Memref sig .tc .vmem S4x3x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x3x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)

abbrev scM1_0 : Memref sig .tc .vmem S4x1x512 .f32 := Memref.whole cc1_scratch0
abbrev VS1_0 : View sig .tc .vmem S4x1x512 .f32 := scM1_0.view

def Rest1 (c : Dev nD) : sProp 𝕄 := Pipeline.scopedRestBut spec1 c [cc1_scratch0]

def PhiR1 (c : Dev nD) (S : sProp 𝕄) : sProp 𝕄 := iprop(S ∗ Rest1 (F := F) c ∗ (∃ r, prngReg c r))

-- Associativity of ∗, once the scratch buffer's points-to is split off the other buffers' conjunction.
theorem PhiA1_iff (c : Dev nD) :
    (Pipeline.ΦA spec1 c : sProp 𝕄) ⊣⊢ PhiR1 c iprop(∃ d, owns (c : Thread nD τ) scM1_0 fullShare d) := by
  unfold Pipeline.ΦA PhiR1 Rest1; rw [Pipeline.scopedRest_split_of_list spec1 c [cc1_scratch0] (by decide) (by decide)]
  simp only [scM1_0, owns_whole]; exact sep_assoc

theorem PhiA1_elim (c : Dev nD) :
    (Pipeline.ΦA spec1 c : sProp 𝕄) ⊢ iprop((∃ d, owns (c : Thread nD τ) scM1_0 fullShare d) ∗ Rest1 (F := F) c ∗ (∃ r, prngReg c r)) :=
  (PhiA1_iff c).1

theorem PhiA1_intro (c : Dev nD) :
    iprop((∃ d, owns (c : Thread nD τ) scM1_0 fullShare d) ∗ Rest1 (F := F) c ∗ (∃ r, prngReg c r)) ⊢ (Pipeline.ΦA spec1 c : sProp 𝕄) :=
  (PhiA1_iff c).2

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter, Dat.blockOf, hA]; rfl) t d).trans
    (by rw [Dat.fetched, Dat.blockOf, hA]; rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter, Dat.blockOf, hA]; rfl) t d).trans
    (by rw [Dat.fetched, Dat.blockOf, hA]; rfl)

end Regions

end Cert.KernelIdeal.Hand

end
-- ==== Proof.KernelIdeal.R1RunA.lean ====
/- Region 1, the even points: the whole body run once, the pieces its stores leave as the witness. -/
import proofs.«427145_j9268539424872_3_alg».proof.Proof.KernelIdeal.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 4000000 in
/-- The pieces the body's stores leave at the even points (the running minimum reset, then lowered row by row; no store into
    the output block), with the proof that from whole memrefs (the two inputs at their contents, the output block at contents
    handed back untouched, the scratch buffer at anything) the body runs to the continuation holding the inputs as they were
    and the scratch buffer with those pieces written. -/
noncomputable def kernelRun1_A (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x1x512 .f32) (harg5 : arg5.IsWhole) (hc0 : cond1_0 i) (hc1 : ¬cond1_1 i)
    (x0 : Vec F S4x3x512 .f32) (x1 : Vec F S4x3x512 .f32) :
    Σ' (L2 : List (View.Piece (Elt F) S4x512 .f32)), { LS0 : List (View.Piece (Elt F) S4x1x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__density_kernel i arg2 harg2 arg3 harg3 arg4 harg4 arg5 harg5) K } := by
  refine ⟨[], ?_, fun xi2 E K => ?run⟩
  case run =>
    simp only [cc1__density_kernel_eq_skeleton]; unfold cc1__density_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KernelIdeal.R1RunB.lean ====
/- Region 1, the odd points: the whole body run once, the pieces its stores leave as the witness. -/
import proofs.«427145_j9268539424872_3_alg».proof.Proof.KernelIdeal.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 4000000 in
/-- The pieces the body's stores leave at the odd points (the running minimum lowered row by row, then copied whole into the
    output block), with the proof that from whole memrefs (the two inputs at their contents, the output block at anything, the
    scratch buffer at what the point before left) the body runs to the continuation holding the inputs as they were and the
    output block and the scratch buffer with those pieces written. -/
noncomputable def kernelRun1_B (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x1x512 .f32) (harg5 : arg5.IsWhole) (hc0 : ¬cond1_0 i) (hc1 : cond1_1 i)
    (x0 : Vec F S4x3x512 .f32) (x1 : Vec F S4x3x512 .f32) (xs0 : Vec F S4x1x512 .f32) :
    Σ' (L2 : List (View.Piece (Elt F) S4x512 .f32)), { LS0 : List (View.Piece (Elt F) S4x1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__density_kernel i arg2 harg2 arg3 harg3 arg4 harg4 arg5 harg5) K } := by
  refine ⟨?_, ?_, fun E K => ?run⟩
  case run =>
    simp only [cc1__density_kernel_eq_skeleton]; unfold cc1__density_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KernelIdeal.R1Frame.lean ====
import proofs.«427145_j9268539424872_3_alg».proof.Proof.KernelIdeal.R1RunB

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

section Cases
variable (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x1x512 .f32) (harg5 : arg5.IsWhole)

section A
variable (hc0 : cond1_0 i) (hc1 : ¬cond1_1 i) (x0 : Vec F S4x3x512 .f32) (x1 : Vec F S4x3x512 .f32)

def out1_A_2 : Vec F S4x512 .f32 :=
  VO1_2.read (Elt F) (VO1_2.writes (Elt F) VO1_2.junk (kernelRun1_A c i arg2 harg2 arg3 harg3 arg4 harg4 arg5 harg5 hc0 hc1 x0 x1).1)

-- The rows written after the reset tile the scratch buffer.
theorem scover1_A_0 (y : S4x1x512.Idx) :
    ∃ pc ∈ (kernelRun1_A c i arg2 harg2 arg3 harg3 arg4 harg4 arg5 harg5 hc0 hc1 x0 x1).2.1, y ∈ pc.1.set :=
  View.cover_of_tiledL (s := S4x1x512) _ S1x1x512.size (by sl_kernel_rfl) y

def sout1_A_0 : Vec F S4x1x512 .f32 :=
  VS1_0.read (Elt F) (VS1_0.writes (Elt F) VS1_0.junk (kernelRun1_A c i arg2 harg2 arg3 harg3 arg4 harg4 arg5 harg5 hc0 hc1 x0 x1).2.1)

end A

section B
variable (hc0 : ¬cond1_0 i) (hc1 : cond1_1 i) (x0 : Vec F S4x3x512 .f32) (x1 : Vec F S4x3x512 .f32) (xs0 : Vec F S4x1x512 .f32)

-- The one store into the output block covers it.
theorem cover1_B_2 (y : S4x512.Idx) :
    ∃ pc ∈ (kernelRun1_B c i arg2 harg2 arg3 harg3 arg4 harg4 arg5 harg5 hc0 hc1 x0 x1 xs0).1, y ∈ pc.1.set :=
  View.cover_of_tiledL _ S4x512.size (by sl_kernel_rfl) y

def out1_B_2 : Vec F S4x512 .f32 :=
  VO1_2.read (Elt F) (VO1_2.writes (Elt F) VO1_2.junk (kernelRun1_B c i arg2 harg2 arg3 harg3 arg4 harg4 arg5 harg5 hc0 hc1 x0 x1 xs0).1)

theorem scover1_B_0 (y : S4x1x512.Idx) :
    ∃ pc ∈ (kernelRun1_B c i arg2 harg2 arg3 harg3 arg4 harg4 arg5 harg5 hc0 hc1 x0 x1 xs0).2.1, y ∈ pc.1.set :=
  View.cover_of_tiledL (s := S4x1x512) _ S1x1x512.size (by sl_kernel_rfl) y

def sout1_B_0 : Vec F S4x1x512 .f32 :=
  VS1_0.read (Elt F) (VS1_0.writes (Elt F) VS1_0.junk (kernelRun1_B c i arg2 harg2 arg3 harg3 arg4 harg4 arg5 harg5 hc0 hc1 x0 x1 xs0).2.1)

end B

end Cases

theorem pt1_A0 (t : Fin cfg1.N) (h0 : t.val % 2 = 0) : cond1_0 (grid1.coords t) := (hcond1_0 t).mpr h0
theorem pt1_A1 (t : Fin cfg1.N) (h0 : t.val % 2 = 0) : ¬cond1_1 (grid1.coords t) := fun h => Nat.mod_two_ne_one.mpr h0 ((hcond1_1 t).mp h)
theorem pt1_B0 (t : Fin cfg1.N) (h0 : ¬t.val % 2 = 0) : ¬cond1_0 (grid1.coords t) := fun h => h0 ((hcond1_0 t).mp h)
theorem pt1_B1 (t : Fin cfg1.N) (h0 : ¬t.val % 2 = 0) : cond1_1 (grid1.coords t) := (hcond1_1 t).mpr (Nat.mod_two_ne_zero.mp h0)

section Regions
variable (V : (c : Dev nD) → (b : Ref sig .tc) → Buf (Elt F) ((c : Thread nD τ).loc b)) (c : Dev nD)

def outA1 (t : Fin cfg1.N) (h0 : t.val % 2 = 0) : Vec F S4x512 .f32 × Vec F S4x1x512 .f32 :=
  (out1_A_2 c (grid1.coords t) (ms1_0 t) (hs1_0 t) (ms1_1 t) (hs1_1 t) (ms1_2 t) (hs1_2 t) scM1_0 (Memref.isWhole_whole _) (pt1_A0 t h0) (pt1_A1 t h0) (iblk1 V c 0 t) (iblk1 V c 1 t),
   sout1_A_0 c (grid1.coords t) (ms1_0 t) (hs1_0 t) (ms1_1 t) (hs1_1 t) (ms1_2 t) (hs1_2 t) scM1_0 (Memref.isWhole_whole _) (pt1_A0 t h0) (pt1_A1 t h0) (iblk1 V c 0 t) (iblk1 V c 1 t))

def outB1 (t : Fin cfg1.N) (h0 : ¬t.val % 2 = 0) (xs : Vec F S4x1x512 .f32) : Vec F S4x512 .f32 × Vec F S4x1x512 .f32 :=
  (out1_B_2 c (grid1.coords t) (ms1_0 t) (hs1_0 t) (ms1_1 t) (hs1_1 t) (ms1_2 t) (hs1_2 t) scM1_0 (Memref.isWhole_whole _) (pt1_B0 t h0) (pt1_B1 t h0) (iblk1 V c 0 t) (iblk1 V c 1 t) xs,
   sout1_B_0 c (grid1.coords t) (ms1_0 t) (hs1_0 t) (ms1_1 t) (hs1_1 t) (ms1_2 t) (hs1_2 t) scM1_0 (Memref.isWhole_whole _) (pt1_B0 t h0) (pt1_B1 t h0) (iblk1 V c 0 t) (iblk1 V c 1 t) xs)

def outsAt1 : (n : ℕ) → n < cfg1.N → Vec F S4x512 .f32 × Vec F S4x1x512 .f32
  | 0, hn => outA1 V c ⟨0, hn⟩ (Nat.zero_mod _)
  | n + 1, hn =>
    if h0 : (n + 1) % 2 = 0 then outA1 V c ⟨n + 1, hn⟩ h0
    else outB1 V c ⟨n + 1, hn⟩ h0 (outsAt1 n (Nat.lt_of_succ_lt hn)).2

theorem outsAt1_A (t : Fin cfg1.N) (h0 : t.val % 2 = 0) :
    outsAt1 V c t.val t.isLt = outA1 V c t h0 := by
  obtain ⟨_ | n, hn⟩ := t
  exacts [rfl, dif_pos h0]

theorem outsAt1_B (t : Fin cfg1.N) (h0 : ¬t.val % 2 = 0) :
    outsAt1 V c t.val t.isLt = outB1 V c t h0 (outsAt1 V c (t.val - 1) (Nat.lt_of_le_of_lt (Nat.sub_le _ _) t.isLt)).2 := by
  obtain ⟨_ | n, hn⟩ := t
  exacts [absurd (Nat.zero_mod _) h0, dif_neg h0]

def PhiS1 : (n : ℕ) → n ≤ cfg1.N → sProp 𝕄
  | 0, _ => Pipeline.ΦA spec1 c
  | n + 1, hn => PhiR1 c (owns (c : Thread nD τ) scM1_0 fullShare ((outsAt1 V c n hn).2))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (w : Fin cfg1.W) : (dat1 V c).A w = V c (Pipeline.arrRef spec1 w) := rfl

theorem owed1 (t : Fin (cfg1.N + 1)) : (dat1 V c).owed t = 0 := rfl

theorem q1_0 : (dat1 V c).q 0 = fullShare.left := rfl
theorem q1_1 : (dat1 V c).q 1 = fullShare.right := rfl

theorem after1_0 (t : Fin cfg1.N) : (dat1 V c).after 0 t = iblk1 V c 0 t := rfl
theorem after1_1 (t : Fin cfg1.N) : (dat1 V c).after 1 t = iblk1 V c 1 t := rfl
theorem after1_2 (t : Fin cfg1.N) : (dat1 V c).after 2 t = (outsAt1 V c t.val t.isLt).1 := rfl

-- Before any point the invariant yields the scratch buffer at some contents beside the rest.
theorem Phi1_elim (t : Fin (cfg1.N + 1)) :
    (dat1 V c).Φ t ⊢ iprop((∃ d, owns (c : Thread nD τ) scM1_0 fullShare d) ∗ Rest1 c ∗ (∃ r, prngReg c r)) := by
  obtain ⟨_ | n, hn⟩ := t
  exacts [PhiA1_elim c, sep_mono_left (exists_intro _)]

-- After the first point it holds the scratch buffer at what the point before left.
theorem Phi1_pos (t : Fin cfg1.N) (hz : t.val ≠ 0) :
    (dat1 V c).Φ t.castSucc = PhiR1 c (owns (c : Thread nD τ) scM1_0 fullShare (outsAt1 V c (t.val - 1) (by omega)).2) := by
  obtain ⟨_ | n, hn⟩ := t
  exacts [absurd rfl hz, rfl]

-- Either case's run, framed by the rest of the invariant; the pieces it leaves cover their buffers.
theorem body_obligation1 : BodyObligation (dat1 (F := F) V c) (defs₀ (F := F)) Variants.none () Set.univ := fun t => by
  rw [bigSep_W1, bigSep_W1]
  change _ ⊢ wp _ _ _ (bodyAt1 t) fun _ => iprop(_ ∗ _ ∗ _ ∗ _ ∗ (dat1 V c).leavesExact 2 t)
  unfold bodyAt1
  rw [show (dat1 V c).owesAt () t.succ = (dat1 V c).owesAt () t.castSucc from rfl,
    show (dat1 V c).Φ t.succ = PhiR1 c (owns (c : Thread nD τ) scM1_0 fullShare (outsAt1 V c t.val t.isLt).2) from rfl]
  simp only [before1_0_of V (dat1 V c) rfl (after1_0 V c), before1_1_of V (dat1 V c) rfl (after1_1 V c), liveAt1_0 t, liveAt1_1 t, after1_0, after1_1]
  by_cases h0 : t.val % 2 = 0
  · rw [Dat.leavesExact_idle (dat1 V c) 2 t (idleAt1_2_A t (pt1_A0 t h0) (pt1_A1 t h0)) (noFlush1_2_A t (pt1_A0 t h0) (pt1_A1 t h0)), outsAt1_A V c t h0]
    unfold outA1 sout1_A_0 PhiR1; dsimp only
    iintro ⟨HΦ, Ho, ⟨%d0, H0⟩, ⟨%d1, H1⟩, ⟨%d2, H2⟩⟩
    icases (Phi1_elim V c _) $$ HΦ with ⟨HS, HR⟩
    iapply ((kernelRun1_A c (grid1.coords t) _ _ _ _ _ _ _ _ (pt1_A0 t h0) (pt1_A1 t h0) (iblk1 V c 0 t) (iblk1 V c 1 t)).2.2 _ Set.univ _)
    iframe H0 H1 H2 HS
    iintro ⟨H0, H1, H2, ⟨%f, HS⟩⟩
    iframe HR Ho H0 H1
    isplitl [HS]
    · unfold owns; iexists _; isplitr
      swap; · iexact HS
      ipureintro; exact View.read_writes_of_cover _ _ _ _ _ fun _ => scover1_A_0 ..
    iexists _; iexact H2
  · rw [show (dat1 V c).leavesExact 2 t = owns (c : Thread nD τ) (ms1_2 t) fullShare ((dat1 V c).after 2 t) from by
      unfold Dat.leavesExact; rw [liveAt1_2_B t (pt1_B0 t h0) (pt1_B1 t h0)], after1_2, outsAt1_B V c t h0, Phi1_pos V c t fun hz => h0 (by rw [hz])]
    unfold outB1 out1_B_2 sout1_B_0 PhiR1; dsimp only
    iintro ⟨⟨HS, HR⟩, Ho, ⟨%d0, H0⟩, ⟨%d1, H1⟩, ⟨%d2, H2⟩⟩
    iapply ((kernelRun1_B c (grid1.coords t) _ _ _ _ _ _ _ _ (pt1_B0 t h0) (pt1_B1 t h0) (iblk1 V c 0 t) (iblk1 V c 1 t) _).2.2 Set.univ _)
    iframe H0 H1 HS
    isplitl [H2]; · iexists _; iexact H2
    iintro ⟨H0, H1, ⟨%f2, H2⟩, ⟨%f, HS⟩⟩
    iframe HR Ho H0 H1
    isplitl [HS]
    · unfold owns; iexists _; isplitr
      swap; · iexact HS
      ipureintro; exact View.read_writes_of_cover _ _ _ _ _ fun _ => scover1_B_0 ..
    unfold owns; iexists _; isplitr
    swap; · iexact H2
    ipureintro; exact View.read_writes_of_cover _ _ _ _ _ fun _ => cover1_B_2 ..

theorem hin1 : Pipeline.ΦA spec1 c ⊢ (dat1 V c).Φ 0 := .rfl

theorem hout1 : (dat1 V c).Φ (Fin.last cfg1.N) ⊢ Pipeline.ΦA spec1 c :=
  (Phi1_elim V c _).trans (PhiA1_intro c)

end Regions

end Cert.KernelIdeal.Hand

end
-- ==== Proof.KernelIdeal.Launch.lean ====
import proofs.«427145_j9268539424872_3_alg».proof.Proof.Gen.KernelIdeal.Launch
import proofs.«427145_j9268539424872_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

abbrev Contents (F : FTy → Type) : Type := (c : Dev nD) → (b : Ref sig .tc) → Buf (Elt F) ((c : Thread nD τ).loc b)

structure Region0 (F : FTy → Type) [FloatOps F] where
  dat : (V : Contents F) → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  rec_eq : ∀ V c, (dat V c).recorded 0 = Set.univ
  body : ∀ V c, BodyObligation (dat V c) (defs₀ (F := F)) Variants.none () Set.univ
  hin : ∀ V c, (Pipeline.ΦA (U := UR sig nD τ) spec0 c : sProp (MT nD τ sig Unit (Elt F) ℕ (UR sig nD τ) ℕ)) ⊢ (dat V c).Φ 0
  hout : ∀ V c, (dat V c).Φ (Fin.last cfg0.N) ⊢ (Pipeline.ΦA (U := UR sig nD τ) spec0 c : sProp (MT nD τ sig Unit (Elt F) ℕ (UR sig nD τ) ℕ))

structure Region1 (F : FTy → Type) [FloatOps F] where
  dat : (V : Contents F) → (c : Dev nD) → Dat τ (Elt F) Unit ℕ (UR sig nD τ) ℕ cfg1 c
  A_eq : ∀ V c w, (dat V c).A w = V c (Pipeline.arrRef spec1 w)
  q_0 : ∀ V c, (dat V c).q 0 = fullShare.left
  q_1 : ∀ V c, (dat V c).q 1 = fullShare.right
  owed_eq : ∀ V c t, (dat V c).owed t = 0
  rec_eq : ∀ V c, (dat V c).recorded 0 = Set.univ
  body : ∀ V c, BodyObligation (dat V c) (defs₀ (F := F)) Variants.none () Set.univ
  hin : ∀ V c, (Pipeline.ΦA (U := UR sig nD τ) spec1 c : sProp (MT nD τ sig Unit (Elt F) ℕ (UR sig nD τ) ℕ)) ⊢ (dat V c).Φ 0
  hout : ∀ V c, (dat V c).Φ (Fin.last cfg1.N) ⊢ (Pipeline.ΦA (U := UR sig nD τ) spec1 c : sProp (MT nD τ sig Unit (Elt F) ℕ (UR sig nD τ) ℕ))

variable {F : FTy → Type} [FloatOps F]

local notation "𝕄" => MT nD τ sig Unit (Elt F) ℕ (UR sig nD τ) ℕ

variable (R0 : Region0 F) (R1 : Region1 F)
variable (m : (ℓ : Loc nD τ sig) → Buf (Elt F) ℓ) (ρ : Dev nD → PrngReg)

abbrev E1 : Contents F := fun c b => Gen.V1 m c b

def outs₂ : Gen.Outs (F := F) := fun _ r c =>
  Function.update (β := fun r : Ref sig .tc => Buf (Elt F) ((c : Thread nD τ).loc r))
    (Function.update (β := fun r : Ref sig .tc => Buf (Elt F) ((c : Thread nD τ).loc r)) (fun r => m ((c : Thread nD τ).loc r))
      main_v2_0 ((R0.dat (E1 m) c).arrAt 2 cfg0.N))
    main_v2_1 ((R0.dat (E1 m) c).arrAt 3 cfg0.N) r

abbrev E3 : Contents F := fun c b => Gen.V3 m (outs₂ R0 m) c b

def outs : Gen.Outs (F := F) := fun n r c =>
  Function.update (β := fun r : Ref sig .tc => Buf (Elt F) ((c : Thread nD τ).loc r)) (fun r => outs₂ R0 m n r c)
    main_v34 ((R1.dat (E3 R0 m) c).arrAt 2 cfg1.N) r

theorem outs_of_ne (n : ℕ) (r : Ref sig .tc) (c : Dev nD) (h : r ≠ main_v34) : outs R0 R1 m n r c = outs₂ R0 m n r c :=
  Function.update_of_ne h ..
theorem outs_v2_0 (n : ℕ) (c : Dev nD) : outs R0 R1 m n main_v2_0 c = (R0.dat (E1 m) c).arrAt 2 cfg0.N :=
  (outs_of_ne R0 R1 m n main_v2_0 c (by decide)).trans ((Function.update_of_ne (by decide) ..).trans (Function.update_self ..))
theorem outs_v2_1 (n : ℕ) (c : Dev nD) : outs R0 R1 m n main_v2_1 c = (R0.dat (E1 m) c).arrAt 3 cfg0.N :=
  (outs_of_ne R0 R1 m n main_v2_1 c (by decide)).trans (Function.update_self ..)
theorem outs_v34 (n : ℕ) (c : Dev nD) : outs R0 R1 m n main_v34 c = (R1.dat (E3 R0 m) c).arrAt 2 cfg1.N :=
  Function.update_self ..

-- `Gen.V3` reads `outs` only at region 0's two arrays, where it agrees with `outs₂`
theorem V3_outs (c : Dev nD) : Gen.V3 m (outs R0 R1 m) c = Gen.V3 m (outs₂ R0 m) c := by
  unfold Gen.V3 Gen.V2
  rw [outs_of_ne R0 R1 m 2 main_v2_0 c (by decide), outs_of_ne R0 R1 m 2 main_v2_1 c (by decide)]

section Valuations
variable (os : Gen.Outs (F := F))

theorem V2_v2_0 (c : Dev nD) : Gen.V2 m os c main_v2_0 = os 2 main_v2_0 c :=
  (Function.update_of_ne (StableHlo.devRef_ne_of_ne (by decide)) ..).trans (Function.update_self ..)
theorem V2_v2_1 (c : Dev nD) : Gen.V2 m os c main_v2_1 = os 2 main_v2_1 c := Function.update_self ..
theorem V4_v34 (c : Dev nD) : Gen.V4 m os c main_v34 = os 4 main_v34 c := Function.update_self ..

end Valuations

def pdats : (p : Fin 2) → (c : Dev nD) → Dat τ (Elt F) Unit ℕ (UR sig nD τ) ℕ (Pipeline.pin (pcfgs (F := F)) Gen.adm p) c
  | ⟨0, _⟩ => R0.dat (E1 m)
  | ⟨1, _⟩ => R1.dat (E3 R0 m)

abbrev L : GSem nD τ sig → Finset Unit := fun _ => ∅
abbrev lv : GSem nD τ sig → Unit → ℕ := fun _ _ => 0
abbrev Rst (c : Dev nD) : sProp 𝕄 := iprop((∃ r, prngReg c r) ∗ ∃ W, owes c.tc (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- both regions are this record: the thread state is every unscoped buffer whole at a valuation; only the split `hs` and the join `hj` differ
set_option backward.isDefEq.respectTransparency.types false in
def mkReg (pd : (p : Fin 2) → (c : Dev nD) → Dat τ (Elt F) Unit ℕ (UR sig nD τ) ℕ (Pipeline.pin (pcfgs (F := F)) Gen.adm p) c)
    (p : Fin 2) (win : Pipeline.WinFacts₀ (cfgs p).spec) (bp : ∀ w, 0 < ((cfgs p).spec w).block.numel)
    (sw : ∀ w s, (((cfgs p).spec w).stage s).IsWhole)
    (Vi Vo : Dev nD → Valuation τ sig (Elt F))
    (hb : ∀ c, BodyObligation (pd p c) defs₀ .none () Set.univ)
    (ho : ∀ c t, (pd p c).owed t = 0) (hr : ∀ c, (pd p c).recorded 0 = Set.univ)
    (hi : ∀ c, (Pipeline.ΦA (cfgs p).spec c : sProp 𝕄) ⊢ (pd p c).Φ 0)
    (hu : ∀ c, (pd p c).Φ (Fin.last _) ⊢ (Pipeline.ΦA (cfgs p).spec c : sProp 𝕄))
    (hs : ∀ c, (unscopedBufs c (fun b => Vi c b) : sProp 𝕄)
      ⊢ iprop((pd p c).arrays ((pd p c).arrAt · 0) ∗ Pipeline.unscopedRest (cfgs p).spec c fun b => Vi c b))
    (hj : ∀ c, iprop((pd p c).arrays ((pd p c).arrAt · (cfgs p).N) ∗ Pipeline.unscopedRest (cfgs p).spec c fun b => Vi c b)
      ⊢ (unscopedBufs c (fun b => Vo c b) : sProp 𝕄)) :
    Pipeline.RegionSeg pcfgs Gen.adm pd () defs₀ .none L lv p where
  win := win
  block_pos := bp
  stage_whole := sw
  K := PEmpty
  osem k := k.elim
  ho := Pipeline.OwnSemFacts.none _
  hbody c := (hb c).loose
  hwaits := Pipeline.hwaits_of_owed_zero _ _ _ _ L lv p ho
  pre c := iprop(StableHlo.held c.tc (Pipeline.ucRefs τ sig) (Vi c) ∗ Rst c)
  post c := iprop(StableHlo.held c.tc (Pipeline.ucRefs τ sig) (Vo c) ∗ Rst c)
  X c := iprop(∃ r, prngReg c r)
  Y c := iprop(∃ r, prngReg c r)
  Z c := Pipeline.unscopedRest (cfgs p).spec c fun b => Vi c b
  hentry c := by
    rw [Pipeline.ownSems0_none]
    have hsplit := hs c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%W, HO⟩; iexists W; isplitr
      · ipureintro; exact fun x _ => Or.inl ((hr c).symm ▸ Set.mem_univ x)
      iexact HO
    isplitl [Hp] <;> iassumption
  hin c := by
    refine .trans ?_ (hi c)
    unfold Pipeline.ΦA
    iintro ⟨Hp, -, Hr⟩
    isplitl [Hr] <;> iassumption
  hout c := by
    rw [Pipeline.ownSems0_none]
    refine (hu c).trans ?_
    unfold Pipeline.ΦA
    iintro ⟨Hr, Hp⟩
    isplitl [Hp]; · iexact Hp
    isplitr; · iempintro
    iexact Hr
  hexit c := by
    have hjoin := hj c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c _]
    icases HO with ⟨%W, -, HO⟩; iexists W; iexact HO

theorem hF0 (c : Dev nD) : ∀ w : Fin cfg0.W, (pdats R0 R1 m 0 c).arrAt w cfg0.N = Gen.V2 m (outs R0 R1 m) c (Pipeline.arrRef spec0 w)
  | 0 => ((R0.dat _ c).arrAt_in 0 rfl _).trans ((R0.A_eq _ c 0).trans (Gen.V2_of m _ c main_v0 (by decide)).symm)
  | 1 => ((R0.dat _ c).arrAt_in 1 rfl _).trans ((R0.A_eq _ c 1).trans (Gen.V2_of m _ c main_v1 (by decide)).symm)
  | 2 => ((V2_v2_0 m _ c).trans (outs_v2_0 R0 R1 m 2 c)).symm
  | 3 => ((V2_v2_1 m _ c).trans (outs_v2_1 R0 R1 m 2 c)).symm
  | ⟨_ + 4, h⟩ => absurd h (Nat.not_lt.2 (Nat.le_add_left _ _))

theorem hrest0 (c : Dev nD) : ∀ b, b ∉ Finset.univ.image (Pipeline.arrRef spec0) → Gen.V2 m (outs R0 R1 m) c b = Gen.V1 m c b :=
  fun b hb => Gen.V2_of m _ c b fun hm => hb (by rcases List.mem_pair.mp hm with rfl | rfl <;> decide)

def reg0 :=
  mkReg (pdats R0 R1 m) 0 Gen.launch0.win.to₀ Gen.launch0.block_pos Gen.launch0.stage_whole (Gen.V1 m) (Gen.V2 m (outs R0 R1 m)) (R0.body _) (R0.owed_eq _) (R0.rec_eq _) (R0.hin _) (R0.hout _)
    (fun c => Pipeline.arrays_of_unscopedBufs (p := 0) _ Gen.adm _ Gen.launch0.win Gen.launch0.arr_whole c
      ((pdats R0 R1 m 0 c).share_full (R0.q_eq _ c)) _ (R0.A_eq _ c))
    (fun c => Pipeline.unscopedBufs_of_arrays (p := 0) _ Gen.adm Gen.launch0.win Gen.launch0.arr_whole c _
      ((pdats R0 R1 m 0 c).share_full (R0.q_eq _ c)) _ _ _ (hF0 R0 R1 m c) (hrest0 R0 R1 m c))

theorem bigSep_arr1 {M : Type} [URA M] (Φ : Ref sig .tc → sProp M) :
    bigSep (Finset.univ.image (Pipeline.arrRef spec1)) Φ = iprop(Φ main_v33 ∗ Φ main_v34) :=
  bigSep_eq_bigSepL_of_eq [main_v33, main_v34] (by decide) (by decide) Φ

-- one whole array behind two windows: the full share is the join of its halves (read forwards at entry, backwards at exit)
theorem arrays1 (E : Contents F) (c : Dev nD) (V : (b : Ref sig .tc) → Buf (Elt F) (c.tc.loc b))
    (G : (w : Fin cfg1.W) → Buf (Elt F) ((cfg1.win w).arr.view.loc c.tc))
    (h0 : G 0 = V main_v33) (h1 : G 1 = V main_v33) (h2 : G 2 = V main_v34) :
    (Pipeline.arrBufs spec1 c V : sProp 𝕄) ⊣⊢ (R1.dat E c).arrays G := by
  unfold Pipeline.arrBufs Dat.arrays
  rw [bigSep_arr1, Gen.bigSep_W1, h0, h1, h2,
    show (R1.dat E c).share 0 = fullShare.left from (if_neg Bool.false_ne_true).trans (R1.q_0 _ c),
    show (R1.dat E c).share 1 = fullShare.right from (if_neg Bool.false_ne_true).trans (R1.q_1 _ c),
    show (R1.dat E c).share 2 = fullShare from if_pos rfl,
    Memref.IsWhole.set_eq_univ (m := (cfg1.win 0).arr) (Gen.arr_whole1 0),
    Memref.IsWhole.set_eq_univ (m := (cfg1.win 2).arr) (Gen.arr_whole1 2)]
  exact (sep_congr_left (pointsTo_share (PosShare.mem_left_op_right fullShare))).trans sep_assoc

def reg1 :=
  mkReg (pdats R0 R1 m) 1 Gen.winFacts₀1 Gen.block_pos1 Gen.stage_whole1 (Gen.V3 m (outs R0 R1 m)) (Gen.V4 m (outs R0 R1 m)) (R1.body _) (R1.owed_eq _) (R1.rec_eq _) (R1.hin _) (R1.hout _)
    (fun c => by
      rw [V3_outs R0 R1 m c, Pipeline.unscopedBufs_split₀ cfgs 1 Gen.winFacts₀1.arr_unscoped c (E3 R0 m c)]
      exact sep_mono (arrays1 R1 _ c _ _ (R1.A_eq _ c 0) (R1.A_eq _ c 1) (R1.A_eq _ c 2)).1 .rfl)
    fun c => by
      have h33 : Gen.V4 m (outs R0 R1 m) c main_v33 = E3 R0 m c main_v33 :=
        (Gen.V4_of m _ c _ (by decide)).trans (congrFun (V3_outs R0 R1 m c) _)
      rw [Pipeline.unscopedBufs_split₀ cfgs 1 Gen.winFacts₀1.arr_unscoped c]
      refine sep_mono (arrays1 R1 _ c _ _ ?_ ?_ ?_).2 (Entails.of_eq ?_)
      · exact ((R1.dat _ c).arrAt_in 0 rfl _).trans ((R1.A_eq _ c 0).trans h33.symm)
      · exact ((R1.dat _ c).arrAt_in 1 rfl _).trans ((R1.A_eq _ c 1).trans h33.symm)
      · exact ((V4_v34 m _ c).trans (outs_v34 R0 R1 m 4 c)).symm
      · unfold Pipeline.unscopedRest
        exact bigSep_congr fun b hb => by
          beta_reduce; rw [Gen.V4_of m _ c b fun h => (Finset.mem_sdiff.mp hb).2 (List.mem_singleton.mp h ▸ by decide)]

set_option backward.isDefEq.respectTransparency.types false in
theorem run_of {Q : PUnit × MemSt nD τ sig (Elt F) → Prop}
    (hQ : ∀ s : MemSt nD τ sig (Elt F), (∀ c : Dev nD, ∀ b ∈ Pipeline.ucRefs τ sig, s.mem ((c : Thread nD τ).1, b) = Gen.V7 m (outs R0 R1 m) c b) → Q (⟨⟩, s)) :
    θ_run defs (onTc (τ := τ) (main (F := F))) ⟨m, fun _ => 0, ρ⟩ Q :=
  Pipeline.θ_run_regions_kit_dev pcfgs Gen.adm (pdats R0 R1 m) () Gen.cellOf_inj emb₁ defs₀ .none L lv m ρ main
    (Gen.segs m (outs R0 R1 m) .none L lv (fun _ => Rst) () (pdats R0 R1 m) (reg0 R0 R1 m) (reg1 R0 R1 m))
    (fun c Q => by
      rewrite [Gen.main_chain c, Pipeline.Seg.run_eq_chain]
      exact .rfl)
    (fun c => by simp only [Gen.segs, Pipeline.Seg.pipes_host, Pipeline.Seg.pipes_region, Pipeline.Seg.pipes_nil]; decide)
    (O₀ := 0) (hL := fun _ _ => rfl) (G := fun _ => BI.emp)
    (u₀ := initOf (Pipeline.cells cfgs Gen.cellOf_inj) (Pipeline.launchToks cfgs Gen.cellOf_inj))
    (hu₀ := by
      rw [ownU_emb₁, BI.bigSep_emp_const]
      iintro Hu; imodintro; isplitl [Hu]; · iexact Hu
      iempintro)
    (T₀ := fun c => iprop(StableHlo.held c.tc (Pipeline.ucRefs τ sig) (Gen.V0 m c) ∗ Rst c))
    (Tₙ := fun c => iprop(StableHlo.held c.tc (Pipeline.ucRefs τ sig) (Gen.V7 m (outs R0 R1 m) c) ∗ ∃ r, prngReg c r))
    (hch := fun c => ⟨.rfl, .rfl, .rfl, .rfl, .rfl, .rfl, .rfl, BI.sep_assoc'⟩)
    (hinit := by
      refine Pipeline.initEach L lv fun c => ?_
      rw [← Pipeline.unscopedBufs_held]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (c.tc.1, b)) (Gen.V7 m (outs R0 R1 m) c) s')
      isplitl [Hh] <;> iassumption)
    (hQ := hQ)

include R0 R1 in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_of R0 R1 m ρ fun s h c =>
    have k (r : Ref sig .tc) hr := h c _ (mem_uc r hr)
    ⟨(k main_arg0 (by decide)).trans (Gen.V7_main_arg0 m _ c), (k main_arg1 (by decide)).trans (Gen.V7_main_arg1 m _ c),
     (k main_arg2 (by decide)).trans (Gen.V7_main_arg2 m _ c), (k main_arg3 (by decide)).trans (Gen.V7_main_arg3 m _ c),
     (k main_arg4 (by decide)).trans (Gen.V7_main_arg4 m _ c), (k main_arg5 (by decide)).trans (Gen.V7_main_arg5 m _ c),
     (k main_arg6 (by decide)).trans (Gen.V7_main_arg6 m _ c), (k main_arg7 (by decide)).trans (Gen.V7_main_arg7 m _ c),
     (k main_arg8 (by decide)).trans (Gen.V7_main_arg8 m _ c)⟩

/-- info: 'Cert.KernelIdeal.Hand.frame' depends on axioms: [propext, Classical.choice, Quot.sound] -/
#guard_msgs in #print axioms frame

end Cert.KernelIdeal.Hand

end
-- ==== Proof.RefRun.lean ====
import proofs.«427145_j9268539424872_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ binary main_arg0 main_arg0 main_v0 (mulf : (⟨S4x8192x3, .f32⟩ : BufTy).Contents (Elt F) → (⟨S4x8192x3, .f32⟩ : BufTy).Contents (Elt F) → (⟨S4x8192x3, .f32⟩ : BufTy).Contents (Elt F)),
    nullary main_cst (constant S_ .f32 0x00000000#32),
    binary main_v0 main_cst main_v1 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    binary main_arg3 main_arg3 main_v2 (mulf : (⟨S4x8192x3, .f32⟩ : BufTy).Contents (Elt F) → (⟨S4x8192x3, .f32⟩ : BufTy).Contents (Elt F) → (⟨S4x8192x3, .f32⟩ : BufTy).Contents (Elt F)),
    nullary main_cst_0 (constant S_ .f32 0x00000000#32),
    binary main_v2 main_cst_0 main_v3 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    binary main_arg0 main_arg3 main_v4 ((fun l r => Host.dotGeneral dot_S4x8192x3_S4x8192x3_S4x8192x8192_2_2_1_1_0_0 none l r) : (⟨S4x8192x3, .f32⟩ : BufTy).Contents (Elt F) → (⟨S4x8192x3, .f32⟩ : BufTy).Contents (Elt F) → (⟨S4x8192x8192, .f32⟩ : BufTy).Contents (Elt F)),
    unary main_v1 main_v5 (broadcastInDim S4x8192x1 ![0, 1] bcast_S4x8192_S4x8192x1_0_1 : (⟨S4x8192, .f32⟩ : BufTy).Contents (Elt F) → (⟨S4x8192x1, .f32⟩ : BufTy).Contents (Elt F)),
    unary main_v3 main_v6 (broadcastInDim S4x1x8192 ![0, 2] bcast_S4x8192_S4x1x8192_0_2 : (⟨S4x8192, .f32⟩ : BufTy).Contents (Elt F) → (⟨S4x1x8192, .f32⟩ : BufTy).Contents (Elt F)),
    unary main_v5 main_v7 (broadcastInDim S4x8192x8192 ![0, 1, 2] bcast_S4x8192x1_S4x8192x8192_0_1_2 : (⟨S4x8192x1, .f32⟩ : BufTy).Contents (Elt F) → (⟨S4x8192x8192, .f32⟩ : BufTy).Contents (Elt F)),
    unary main_v6 main_v8 (broadcastInDim S4x8192x8192 ![0, 1, 2] bcast_S4x1x8192_S4x8192x8192_0_1_2 : (⟨S4x1x8192, .f32⟩ : BufTy).Contents (Elt F) → (⟨S4x8192x8192, .f32⟩ : BufTy).Contents (Elt F)),
    binary main_v7 main_v8 main_v9 (addf : (⟨S4x8192x8192, .f32⟩ : BufTy).Contents (Elt F) → (⟨S4x8192x8192, .f32⟩ : BufTy).Contents (Elt F) → (⟨S4x8192x8192, .f32⟩ : BufTy).Contents (Elt F)),
    nullary main_cst_1 (constant S_ .f32 0x40000000#32),
    unary main_cst_1 main_v10 (broadcastInDim S4x8192x8192 ![] bcast_S_S4x8192x8192 : (⟨S_, .f32⟩ : BufTy).Contents (Elt F) → (⟨S4x8192x8192, .f32⟩ : BufTy).Contents (Elt F)),
    binary main_v10 main_v4 main_v11 (mulf : (⟨S4x8192x8192, .f32⟩ : BufTy).Contents (Elt F) → (⟨S4x8192x8192, .f32⟩ : BufTy).Contents (Elt F) → (⟨S4x8192x8192, .f32⟩ : BufTy).Contents (Elt F)),
    binary main_v9 main_v11 main_v12 (subf : (⟨S4x8192x8192, .f32⟩ : BufTy).Contents (Elt F) → (⟨S4x8192x8192, .f32⟩ : BufTy).Contents (Elt F) → (⟨S4x8192x8192, .f32⟩ : BufTy).Contents (Elt F)),
    nullary main_cst_2 (constant S_ .f32 0x7F800000#32),
    binary main_v12 main_cst_2 main_v13 ((fun x v => Host.reduce FloatOps.minimumf x v reducesTo_S4x8192x8192_S4x8192_d2 h_S_) : (⟨S4x8192x8192, .f32⟩ : BufTy).Contents (Elt F) → (⟨S_, .f32⟩ : BufTy).Contents (Elt F) → (⟨S4x8192, .f32⟩ : BufTy).Contents (Elt F)),
    nullary main_cst_3 (constant S_ .f32 0x00000000#32),
    binary main_v13 main_cst_3 main_v14 ((fun x v => Host.reduceAdd x v reducesTo_S4x8192_S4_d1 h_S_) : (⟨S4x8192, .f32⟩ : BufTy).Contents (Elt F) → (⟨S_, .f32⟩ : BufTy).Contents (Elt F) → (⟨S4, .f32⟩ : BufTy).Contents (Elt F)),
    nullary main_cst_4 (constant S_ .f32 0x46000000#32),
    unary main_cst_4 main_v15 (broadcastInDim S4 ![] bcast_S_S4 : (⟨S_, .f32⟩ : BufTy).Contents (Elt F) → (⟨S4, .f32⟩ : BufTy).Contents (Elt F)),
    binary main_v14 main_v15 main_v16 (Host.divf : (⟨S4, .f32⟩ : BufTy).Contents (Elt F) → (⟨S4, .f32⟩ : BufTy).Contents (Elt F) → (⟨S4, .f32⟩ : BufTy).Contents (Elt F)),
    nullary main_cst_5 (constant S_ .f32 0x7F800000#32),
    binary main_v12 main_cst_5 main_v17 ((fun x v => Host.reduce FloatOps.minimumf x v reducesTo_S4x8192x8192_S4x8192_d1 h_S_) : (⟨S4x8192x8192, .f32⟩ : BufTy).Contents (Elt F) → (⟨S_, .f32⟩ : BufTy).Contents (Elt F) → (⟨S4x8192, .f32⟩ : BufTy).Contents (Elt F)),
    nullary main_cst_6 (constant S_ .f32 0x00000000#32),
    binary main_v17 main_cst_6 main_v18 ((fun x v => Host.reduceAdd x v reducesTo_S4x8192_S4_d1 h_S_) : (⟨S4x8192, .f32⟩ : BufTy).Contents (Elt F) → (⟨S_, .f32⟩ : BufTy).Contents (Elt F) → (⟨S4, .f32⟩ : BufTy).Contents (Elt F)),
    nullary main_cst_7 (constant S_ .f32 0x46000000#32),
    unary main_cst_7 main_v19 (broadcastInDim S4 ![] bcast_S_S4 : (⟨S_, .f32⟩ : BufTy).Contents (Elt F) → (⟨S4, .f32⟩ : BufTy).Contents (Elt F)),
    binary main_v18 main_v19 main_v20 (Host.divf : (⟨S4, .f32⟩ : BufTy).Contents (Elt F) → (⟨S4, .f32⟩ : BufTy).Contents (Elt F) → (⟨S4, .f32⟩ : BufTy).Contents (Elt F)),
    binary main_v16 main_v20 main_v21 (addf : (⟨S4, .f32⟩ : BufTy).Contents (Elt F) → (⟨S4, .f32⟩ : BufTy).Contents (Elt F) → (⟨S4, .f32⟩ : BufTy).Contents (Elt F)),
    nullary main_cst_8 (constant S_ .f32 0x00000000#32),
    binary main_v21 main_cst_8 main_v22 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_9 (constant S_ .f32 0x40800000#32),
    binary main_v22 main_cst_9 main_v23 (Host.divf : (⟨S_, .f32⟩ : BufTy).Contents (Elt F) → (⟨S_, .f32⟩ : BufTy).Contents (Elt F) → (⟨S_, .f32⟩ : BufTy).Contents (Elt F)),
    nullary main_cst_10 (constant S_ .f32 0x3F800000#32),
    unary main_cst_10 main_v24 (broadcastInDim S4x512 ![] bcast_S_S4x512 : (⟨S_, .f32⟩ : BufTy).Contents (Elt F) → (⟨S4x512, .f32⟩ : BufTy).Contents (Elt F)),
    binary main_v24 main_arg7 main_v25 (addf : (⟨S4x512, .f32⟩ : BufTy).Contents (Elt F) → (⟨S4x512, .f32⟩ : BufTy).Contents (Elt F) → (⟨S4x512, .f32⟩ : BufTy).Contents (Elt F)),
    binary main_arg6 main_arg6 main_v26 (mulf : (⟨S4x512, .f32⟩ : BufTy).Contents (Elt F) → (⟨S4x512, .f32⟩ : BufTy).Contents (Elt F) → (⟨S4x512, .f32⟩ : BufTy).Contents (Elt F)),
    binary main_v25 main_v26 main_v27 (subf : (⟨S4x512, .f32⟩ : BufTy).Contents (Elt F) → (⟨S4x512, .f32⟩ : BufTy).Contents (Elt F) → (⟨S4x512, .f32⟩ : BufTy).Contents (Elt F)),
    unary main_arg7 main_v28 (Host.exp : (⟨S4x512, .f32⟩ : BufTy).Contents (Elt F) → (⟨S4x512, .f32⟩ : BufTy).Contents (Elt F)),
    binary main_v27 main_v28 main_v29 (subf : (⟨S4x512, .f32⟩ : BufTy).Contents (Elt F) → (⟨S4x512, .f32⟩ : BufTy).Contents (Elt F) → (⟨S4x512, .f32⟩ : BufTy).Contents (Elt F)),
    nullary main_cst_11 (constant S_ .f32 0x00000000#32),
    binary main_v29 main_cst_11 main_v30 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    nullary main_cst_12 (constant S_ .f32 0x45000000#32),
    binary main_v30 main_cst_12 main_v31 (Host.divf : (⟨S_, .f32⟩ : BufTy).Contents (Elt F) → (⟨S_, .f32⟩ : BufTy).Contents (Elt F) → (⟨S_, .f32⟩ : BufTy).Contents (Elt F)),
    nullary main_cst_13 (constant S_ .f32 0xBF000000#32),
    binary main_cst_13 main_v31 main_v32 (mulf : (⟨S_, .f32⟩ : BufTy).Contents (Elt F) → (⟨S_, .f32⟩ : BufTy).Contents (Elt F) → (⟨S_, .f32⟩ : BufTy).Contents (Elt F)),
    nullary main_c (constantI S_ 32 0#32),
    unary main_c main_v33 (broadcastInDim S1024 ![] bcast_S_S1024 : (⟨S_, .i32⟩ : BufTy).Contents (Elt F) → (⟨S1024, .i32⟩ : BufTy).Contents (Elt F)),
    binary main_arg8 main_v33 main_v34 (cmpi .slt : (⟨S1024, .i32⟩ : BufTy).Contents (Elt F) → (⟨S1024, .i32⟩ : BufTy).Contents (Elt F) → (⟨S1024, .i1⟩ : BufTy).Contents (Elt F)),
    nullary main_c_14 (constantI S_ 32 8192#32),
    unary main_c_14 main_v35 (broadcastInDim S1024 ![] bcast_S_S1024 : (⟨S_, .i32⟩ : BufTy).Contents (Elt F) → (⟨S1024, .i32⟩ : BufTy).Contents (Elt F)),
    binary main_arg8 main_v35 main_v36 (addi : (⟨S1024, .i32⟩ : BufTy).Contents (Elt F) → (⟨S1024, .i32⟩ : BufTy).Contents (Elt F) → (⟨S1024, .i32⟩ : BufTy).Contents (Elt F)),
    ternary main_v34 main_v36 main_arg8 main_v37 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v37 main_v38 (broadcastInDim S1024x1 ![0] bcast_S1024_S1024x1_0 : (⟨S1024, .i32⟩ : BufTy).Contents (Elt F) → (⟨S1024x1, .i32⟩ : BufTy).Contents (Elt F)),
    binary main_arg0 main_v38 main_v39 ((fun x i => Host.gather gather_S4x8192x3_S1024x1_S4x1024x3_02_1_n_n_1_1_413 x i) : (⟨S4x8192x3, .f32⟩ : BufTy).Contents (Elt F) → (⟨S1024x1, .i32⟩ : BufTy).Contents (Elt F) → (⟨S4x1024x3, .f32⟩ : BufTy).Contents (Elt F)),
    binary main_v39 main_v39 main_v40 (mulf : (⟨S4x1024x3, .f32⟩ : BufTy).Contents (Elt F) → (⟨S4x1024x3, .f32⟩ : BufTy).Contents (Elt F) → (⟨S4x1024x3, .f32⟩ : BufTy).Contents (Elt F)),
    nullary main_cst_15 (constant S_ .f32 0x00000000#32),
    binary main_v40 main_cst_15 main_v41 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)) ]

abbrev ops1 : List (HloOp τ sig (Elt F)) :=
  [ binary main_v39 main_v39 main_v42 (mulf : (⟨S4x1024x3, .f32⟩ : BufTy).Contents (Elt F) → (⟨S4x1024x3, .f32⟩ : BufTy).Contents (Elt F) → (⟨S4x1024x3, .f32⟩ : BufTy).Contents (Elt F)),
    nullary main_cst_16 (constant S_ .f32 0x00000000#32),
    binary main_v42 main_cst_16 main_v43 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)),
    binary main_v39 main_v39 main_v44 ((fun l r => Host.dotGeneral dot_S4x1024x3_S4x1024x3_S4x1024x1024_2_2_1_1_0_0 none l r) : (⟨S4x1024x3, .f32⟩ : BufTy).Contents (Elt F) → (⟨S4x1024x3, .f32⟩ : BufTy).Contents (Elt F) → (⟨S4x1024x1024, .f32⟩ : BufTy).Contents (Elt F)),
    unary main_v41 main_v45 (broadcastInDim S4x1024x1 ![0, 1] bcast_S4x1024_S4x1024x1_0_1 : (⟨S4x1024, .f32⟩ : BufTy).Contents (Elt F) → (⟨S4x1024x1, .f32⟩ : BufTy).Contents (Elt F)),
    unary main_v43 main_v46 (broadcastInDim S4x1x1024 ![0, 2] bcast_S4x1024_S4x1x1024_0_2 : (⟨S4x1024, .f32⟩ : BufTy).Contents (Elt F) → (⟨S4x1x1024, .f32⟩ : BufTy).Contents (Elt F)),
    unary main_v45 main_v47 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    unary main_v46 main_v48 (broadcastInDim S4x1024x1024 ![0, 1, 2] bcast_S4x1x1024_S4x1024x1024_0_1_2 : (⟨S4x1x1024, .f32⟩ : BufTy).Contents (Elt F) → (⟨S4x1024x1024, .f32⟩ : BufTy).Contents (Elt F)),
    binary main_v47 main_v48 main_v49 (addf : (⟨S4x1024x1024, .f32⟩ : BufTy).Contents (Elt F) → (⟨S4x1024x1024, .f32⟩ : BufTy).Contents (Elt F) → (⟨S4x1024x1024, .f32⟩ : BufTy).Contents (Elt F)),
    nullary main_cst_17 (constant S_ .f32 0x40000000#32),
    unary main_cst_17 main_v50 (broadcastInDim S4x1024x1024 ![] bcast_S_S4x1024x1024 : (⟨S_, .f32⟩ : BufTy).Contents (Elt F) → (⟨S4x1024x1024, .f32⟩ : BufTy).Contents (Elt F)),
    binary main_v50 main_v44 main_v51 (mulf : (⟨S4x1024x1024, .f32⟩ : BufTy).Contents (Elt F) → (⟨S4x1024x1024, .f32⟩ : BufTy).Contents (Elt F) → (⟨S4x1024x1024, .f32⟩ : BufTy).Contents (Elt F)),
    binary main_v49 main_v51 main_v52 (subf : (⟨S4x1024x1024, .f32⟩ : BufTy).Contents (Elt F) → (⟨S4x1024x1024, .f32⟩ : BufTy).Contents (Elt F) → (⟨S4x1024x1024, .f32⟩ : BufTy).Contents (Elt F)),
    nullary main_v53 (iotaInDim S1024x1024 32 0),
    nullary main_v54 (iotaInDim S1024x1024 32 1),
    nullary main_c_18 (constantI S_ 32 0#32),
    unary main_c_18 main_v55 (broadcastInDim S1024x1024 ![] bcast_S_S1024x1024 : (⟨S_, .i32⟩ : BufTy).Contents (Elt F) → (⟨S1024x1024, .i32⟩ : BufTy).Contents (Elt F)),
    binary main_v53 main_v55 main_v56 (addi : (⟨S1024x1024, .i32⟩ : BufTy).Contents (Elt F) → (⟨S1024x1024, .i32⟩ : BufTy).Contents (Elt F) → (⟨S1024x1024, .i32⟩ : BufTy).Contents (Elt F)),
    binary main_v56 main_v54 main_v57 (cmpi .eq : (⟨S1024x1024, .i32⟩ : BufTy).Contents (Elt F) → (⟨S1024x1024, .i32⟩ : BufTy).Contents (Elt F) → (⟨S1024x1024, .i1⟩ : BufTy).Contents (Elt F)),
    unary main_v57 main_v58 (uitofp .f32 : (⟨S1024x1024, .i1⟩ : BufTy).Contents (Elt F) → (⟨S1024x1024, .f32⟩ : BufTy).Contents (Elt F)),
    unary main_v58 main_v59 (broadcastInDim S1x1024x1024 ![1, 2] bcast_S1024x1024_S1x1024x1024_1_2 : (⟨S1024x1024, .f32⟩ : BufTy).Contents (Elt F) → (⟨S1x1024x1024, .f32⟩ : BufTy).Contents (Elt F)),
    nullary main_cst_19 (constant S_ .f32 0x49742400#32),
    unary main_cst_19 main_v60 (broadcastInDim S1x1024x1024 ![] bcast_S_S1x1024x1024 : (⟨S_, .f32⟩ : BufTy).Contents (Elt F) → (⟨S1x1024x1024, .f32⟩ : BufTy).Contents (Elt F)),
    binary main_v59 main_v60 main_v61 (mulf : (⟨S1x1024x1024, .f32⟩ : BufTy).Contents (Elt F) → (⟨S1x1024x1024, .f32⟩ : BufTy).Contents (Elt F) → (⟨S1x1024x1024, .f32⟩ : BufTy).Contents (Elt F)),
    unary main_v61 main_v62 (broadcastInDim S4x1024x1024 ![0, 1, 2] bcast_S1x1024x1024_S4x1024x1024_0_1_2 : (⟨S1x1024x1024, .f32⟩ : BufTy).Contents (Elt F) → (⟨S4x1024x1024, .f32⟩ : BufTy).Contents (Elt F)),
    binary main_v52 main_v62 main_v63 (addf : (⟨S4x1024x1024, .f32⟩ : BufTy).Contents (Elt F) → (⟨S4x1024x1024, .f32⟩ : BufTy).Contents (Elt F) → (⟨S4x1024x1024, .f32⟩ : BufTy).Contents (Elt F)),
    nullary main_cst_20 (constant S_ .f32 0x7F800000#32),
    binary main_v63 main_cst_20 main_v64 ((fun x v => Host.reduce FloatOps.minimumf x v reducesTo_S4x1024x1024_S4x1024_d2 h_S_) : (⟨S4x1024x1024, .f32⟩ : BufTy).Contents (Elt F) → (⟨S_, .f32⟩ : BufTy).Contents (Elt F) → (⟨S4x1024, .f32⟩ : BufTy).Contents (Elt F)),
    nullary main_c_21 (constantI S_ 32 1#32),
    TRef.nullary main_call0.call0.cst (constant S_ .f32 0x00000000#32),
    TRef.binary (TRef.of (T := ⟨S4x1024, .f32⟩) main_v64) main_call0.call0.cst main_call0.call0.v0 (fun x v => Host.reduceAdd x v reducesTo_S4x1024_S4_d1 h_S_),
    TRef.unary main_call0.call0.v0 main_call0.call0.v1 (broadcastInDim S4x1 ![0] bcast_S4_S4x1_0),
    TRef.nullary main_call0.call0.cst_0 (constant S_ .f32 0x44800000#32),
    TRef.unary main_call0.call0.cst_0 main_call0.call0.v2 (broadcastInDim S4x1 ![] bcast_S_S4x1),
    TRef.binary main_call0.call0.v1 main_call0.call0.v2 main_call0.call0.v3 Host.divf,
    TRef.unary main_call0.call0.v3 main_call0.call0.v4 (broadcastInDim S4x1024 ![0, 1] bcast_S4x1_S4x1024_0_1),
    TRef.binary (TRef.of (T := ⟨S4x1024, .f32⟩) main_v64) main_call0.call0.v4 main_call0.call0.v5 subf,
    TRef.binary main_call0.call0.v5 main_call0.call0.v5 main_call0.call0.v6 mulf,
    TRef.unary (TRef.of (T := ⟨S_, .i32⟩) main_c_21) main_call0.call0.v7 (sitofp .f32),
    TRef.nullary main_call0.call0.cst_1 (constant S_ .f32 0x44800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S4x1024_S4_d1 h_S_),
    TRef.unary main_call0.call0.v8 main_call0.call0.v10 (broadcastInDim S4 ![] bcast_S_S4),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S4 ![] bcast_S_S4),
    TRef.ternary main_call0.call0.v12 main_call0.call0.v11 main_call0.call0.call0.v1 main_call0.call0.call0.v2 (fun p a b => select (broadcastInDim S4 ![] bcast_S_S4 p) a b),
    TRef.unary main_call0.call0.call0.v2 main_call0.v1 Host.sqrt,
    nullary main_cst_22 (constant S_ .f32 0x00000000#32),
    binary main_v65 main_cst_22 main_v66 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_23 (constant S_ .f32 0x40800000#32),
    binary main_v66 main_cst_23 main_v67 (Host.divf : (⟨S_, .f32⟩ : BufTy).Contents (Elt F) → (⟨S_, .f32⟩ : BufTy).Contents (Elt F) → (⟨S_, .f32⟩ : BufTy).Contents (Elt F)),
    binary main_arg1 main_arg4 main_v68 (subf : (⟨S4x8192x1, .f32⟩ : BufTy).Contents (Elt F) → (⟨S4x8192x1, .f32⟩ : BufTy).Contents (Elt F) → (⟨S4x8192x1, .f32⟩ : BufTy).Contents (Elt F)),
    binary main_v68 main_v68 main_v69 (mulf : (⟨S4x8192x1, .f32⟩ : BufTy).Contents (Elt F) → (⟨S4x8192x1, .f32⟩ : BufTy).Contents (Elt F) → (⟨S4x8192x1, .f32⟩ : BufTy).Contents (Elt F)),
    nullary main_cst_24 (constant S_ .f32 0x00000000#32),
    binary main_v69 main_cst_24 main_v70 ((fun x v => Host.reduceAdd x v reducesTo_S4x8192x1_S_d0_1_2 h_S_) : (⟨S4x8192x1, .f32⟩ : BufTy).Contents (Elt F) → (⟨S_, .f32⟩ : BufTy).Contents (Elt F) → (⟨S_, .f32⟩ : BufTy).Contents (Elt F)),
    nullary main_cst_25 (constant S_ .f32 0x47000000#32),
    binary main_v70 main_cst_25 main_v71 (Host.divf : (⟨S_, .f32⟩ : BufTy).Contents (Elt F) → (⟨S_, .f32⟩ : BufTy).Contents (Elt F) → (⟨S_, .f32⟩ : BufTy).Contents (Elt F)),
    binary main_arg2 main_arg5 main_v72 (subf : (⟨S4x8192x4, .f32⟩ : BufTy).Contents (Elt F) → (⟨S4x8192x4, .f32⟩ : BufTy).Contents (Elt F) → (⟨S4x8192x4, .f32⟩ : BufTy).Contents (Elt F)),
    binary main_v72 main_v72 main_v73 (mulf : (⟨S4x8192x4, .f32⟩ : BufTy).Contents (Elt F) → (⟨S4x8192x4, .f32⟩ : BufTy).Contents (Elt F) → (⟨S4x8192x4, .f32⟩ : BufTy).Contents (Elt F)),
    nullary main_cst_26 (constant S_ .f32 0x00000000#32),
    binary main_v73 main_cst_26 main_v74 ((fun x v => Host.reduceAdd x v reducesTo_S4x8192x4_S_d0_1_2 h_S_) : (⟨S4x8192x4, .f32⟩ : BufTy).Contents (Elt F) → (⟨S_, .f32⟩ : BufTy).Contents (Elt F) → (⟨S_, .f32⟩ : BufTy).Contents (Elt F)),
    nullary main_cst_27 (constant S_ .f32 0x48000000#32),
    binary main_v74 main_cst_27 main_v75 (Host.divf : (⟨S_, .f32⟩ : BufTy).Contents (Elt F) → (⟨S_, .f32⟩ : BufTy).Contents (Elt F) → (⟨S_, .f32⟩ : BufTy).Contents (Elt F)),
    nullary main_cst_28 (constant S_ .f32 0x3A83126F#32),
    binary main_cst_28 main_v32 main_v76 (mulf : (⟨S_, .f32⟩ : BufTy).Contents (Elt F) → (⟨S_, .f32⟩ : BufTy).Contents (Elt F) → (⟨S_, .f32⟩ : BufTy).Contents (Elt F)),
    binary main_v23 main_v76 main_v77 (addf : (⟨S_, .f32⟩ : BufTy).Contents (Elt F) → (⟨S_, .f32⟩ : BufTy).Contents (Elt F) → (⟨S_, .f32⟩ : BufTy).Contents (Elt F)),
    nullary main_cst_29 (constant S_ .f32 0x3DCCCCCD#32),
    binary main_cst_29 main_v67 main_v78 (mulf : (⟨S_, .f32⟩ : BufTy).Contents (Elt F) → (⟨S_, .f32⟩ : BufTy).Contents (Elt F) → (⟨S_, .f32⟩ : BufTy).Contents (Elt F)),
    binary main_v77 main_v78 main_v79 (addf : (⟨S_, .f32⟩ : BufTy).Contents (Elt F) → (⟨S_, .f32⟩ : BufTy).Contents (Elt F) → (⟨S_, .f32⟩ : BufTy).Contents (Elt F)),
    nullary main_cst_30 (constant S_ .f32 0x3D4CCCCD#32),
    binary main_cst_30 main_v71 main_v80 (mulf : (⟨S_, .f32⟩ : BufTy).Contents (Elt F) → (⟨S_, .f32⟩ : BufTy).Contents (Elt F) → (⟨S_, .f32⟩ : BufTy).Contents (Elt F)),
    binary main_v79 main_v80 main_v81 (addf : (⟨S_, .f32⟩ : BufTy).Contents (Elt F) → (⟨S_, .f32⟩ : BufTy).Contents (Elt F) → (⟨S_, .f32⟩ : BufTy).Contents (Elt F)),
    nullary main_cst_31 (constant S_ .f32 0x3DCCCCCD#32),
    binary main_cst_31 main_v75 main_v82 (mulf : (⟨S_, .f32⟩ : BufTy).Contents (Elt F) → (⟨S_, .f32⟩ : BufTy).Contents (Elt F) → (⟨S_, .f32⟩ : BufTy).Contents (Elt F)),
    binary main_v81 main_v82 main_v83 (addf : (⟨S_, .f32⟩ : BufTy).Contents (Elt F) → (⟨S_, .f32⟩ : BufTy).Contents (Elt F) → (⟨S_, .f32⟩ : BufTy).Contents (Elt F)) ]

abbrev ops : List (HloOp τ sig (Elt F)) := ops0 ++ ops1

set_option maxRecDepth 8192 in
set_option maxHeartbeats 4000000 in

theorem main_part0_eq (c : Dev nD) : main_part0 (F := F) c = seq ops0 := rfl

set_option maxRecDepth 8192 in
set_option maxHeartbeats 4000000 in

theorem main_part1_eq (c : Dev nD) : main_part1 (F := F) c = seq ops1 := by
  simp only [main_part1, fn_std.body, fn_var.body, fn_where.body, seq, bind_assoc, pure_bind]

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., binary_bufs_sub ..,
    nullary_bufs_sub .., unary_bufs_sub .., binary_bufs_sub .., binary_bufs_sub .., nullary_bufs_sub .., binary_bufs_sub ..,
    nullary_bufs_sub .., binary_bufs_sub .., nullary_bufs_sub .., unary_bufs_sub .., binary_bufs_sub .., nullary_bufs_sub ..,
    binary_bufs_sub .., nullary_bufs_sub .., binary_bufs_sub .., nullary_bufs_sub .., unary_bufs_sub .., binary_bufs_sub ..,
    binary_bufs_sub .., nullary_bufs_sub .., binary_bufs_sub .., nullary_bufs_sub .., binary_bufs_sub .., nullary_bufs_sub ..,
    unary_bufs_sub .., binary_bufs_sub .., binary_bufs_sub .., binary_bufs_sub .., unary_bufs_sub .., binary_bufs_sub ..,
    nullary_bufs_sub .., binary_bufs_sub .., nullary_bufs_sub .., binary_bufs_sub .., nullary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., binary_bufs_sub ..⟩

set_option maxRecDepth 8192 in
theorem ops1_sub : (ops1 : List (HloOp τ sig (Elt F))).Forall fun op => op.bufs ⊆ tcRefs τ sig :=
  ⟨binary_bufs_sub .., nullary_bufs_sub .., binary_bufs_sub .., binary_bufs_sub .., unary_bufs_sub .., unary_bufs_sub ..,
    unary_bufs_sub .., unary_bufs_sub .., binary_bufs_sub .., nullary_bufs_sub .., unary_bufs_sub .., binary_bufs_sub ..,
    binary_bufs_sub .., nullary_bufs_sub .., nullary_bufs_sub .., nullary_bufs_sub .., unary_bufs_sub .., binary_bufs_sub ..,
    binary_bufs_sub .., unary_bufs_sub .., unary_bufs_sub .., nullary_bufs_sub .., unary_bufs_sub .., binary_bufs_sub ..,
    unary_bufs_sub .., binary_bufs_sub .., nullary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., nullary_bufs_sub .., binary_bufs_sub ..,
    nullary_bufs_sub .., binary_bufs_sub .., binary_bufs_sub .., binary_bufs_sub .., nullary_bufs_sub .., binary_bufs_sub ..,
    nullary_bufs_sub .., binary_bufs_sub .., binary_bufs_sub .., binary_bufs_sub .., nullary_bufs_sub .., binary_bufs_sub ..,
    nullary_bufs_sub .., binary_bufs_sub .., nullary_bufs_sub .., binary_bufs_sub .., binary_bufs_sub .., nullary_bufs_sub ..,
    binary_bufs_sub .., binary_bufs_sub .., nullary_bufs_sub .., binary_bufs_sub .., binary_bufs_sub .., nullary_bufs_sub ..,
    binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h
  exacts [ops0_fresh op h, ops1_fresh op h]

abbrev ops0_W : List (Ref sig .tc) := [main_v0, main_cst, main_v1, main_v2, main_cst_0, main_v3, main_v4, main_v5, main_v6, main_v7, main_v8, main_v9, main_cst_1, main_v10, main_v11, main_v12, main_cst_2, main_v13, main_cst_3, main_v14, main_cst_4, main_v15, main_v16, main_cst_5, main_v17, main_cst_6, main_v18, main_cst_7, main_v19, main_v20, main_v21, main_cst_8, main_v22, main_cst_9, main_v23, main_cst_10, main_v24, main_v25, main_v26, main_v27, main_v28, main_v29, main_cst_11, main_v30, main_cst_12, main_v31, main_cst_13, main_v32, main_c, main_v33, main_v34, main_c_14, main_v35, main_v36, main_v37, main_v38, main_v39, main_v40, main_cst_15, main_v41]

abbrev ops1_W : List (Ref sig .tc) := [main_v42, main_cst_16, main_v43, main_v44, main_v45, main_v46, main_v47, main_v48, main_v49, main_cst_17, main_v50, main_v51, main_v52, main_v53, main_v54, main_c_18, main_v55, main_v56, main_v57, main_v58, main_v59, main_cst_19, main_v60, main_v61, main_v62, main_v63, main_cst_20, main_v64, main_c_21, (main_call0.call0.cst).ref, (main_call0.call0.v0).ref, (main_call0.call0.v1).ref, (main_call0.call0.cst_0).ref, (main_call0.call0.v2).ref, (main_call0.call0.v3).ref, (main_call0.call0.v4).ref, (main_call0.call0.v5).ref, (main_call0.call0.v6).ref, (main_call0.call0.v7).ref, (main_call0.call0.cst_1).ref, (main_call0.call0.v8).ref, (main_call0.call0.cst_2).ref, (main_call0.call0.v9).ref, (main_call0.call0.v10).ref, (main_call0.call0.v11).ref, (main_call0.call0.cst_3).ref, (main_call0.call0.v12).ref, (main_call0.call0.cst_4).ref, (main_call0.call0.call0.v0).ref, (main_call0.call0.call0.v1).ref, (main_call0.call0.call0.v2).ref, (main_call0.v1).ref, main_cst_22, main_v66, main_cst_23, main_v67, main_v68, main_v69, main_cst_24, main_v70, main_cst_25, main_v71, main_v72, main_v73, main_cst_26, main_v74, main_cst_27, main_v75, main_cst_28, main_v76, main_v77, main_cst_29, main_v78, main_v79, main_cst_30, main_v80, main_v81, main_cst_31, main_v82, main_v83]

set_option maxRecDepth 8192 in
theorem ops0_writes : (ops0 : List (HloOp τ sig (Elt F))).Forall fun op =>
    op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))

set_option maxRecDepth 8192 in
theorem ops1_writes : (ops1 : List (HloOp τ sig (Elt F))).Forall fun op =>
    op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))

theorem ops_keep (V : Valuation τ sig (Elt F)) (r : Ref sig .tc) (h0 : r ∉ ops0_W) (h1 : r ∉ ops1_W) :
    after ops V (Proc.devRef .tc r) = V (Proc.devRef .tc r) := by
  rw [show (ops : List (HloOp τ sig (Elt F))) = ops0 ++ ops1 from rfl, StableHlo.after_append,
    after_of_writes_sub ops1 _ ops1_writes h1, after_of_writes_sub ops0 _ ops0_writes h0]

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v83) = after ops (launchContents m c) (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v83,
      (h c main_arg0).trans (ops_keep _ main_arg0 (by decide) (by decide)),
      (h c main_arg1).trans (ops_keep _ main_arg1 (by decide) (by decide)),
      (h c main_arg2).trans (ops_keep _ main_arg2 (by decide) (by decide)),
      (h c main_arg3).trans (ops_keep _ main_arg3 (by decide) (by decide)),
      (h c main_arg4).trans (ops_keep _ main_arg4 (by decide) (by decide)),
      (h c main_arg5).trans (ops_keep _ main_arg5 (by decide) (by decide)),
      (h c main_arg6).trans (ops_keep _ main_arg6 (by decide) (by decide)),
      (h c main_arg7).trans (ops_keep _ main_arg7 (by decide) (by decide)),
      (h c main_arg8).trans (ops_keep _ main_arg8 (by decide) (by decide))⟩)
    (run_seq scopedRefs_eq scopedSems_eq defs main (fun _ => ops) main_eq (fun _ => ops_sub) m ρ (fun _ => ops_fresh))

end Cert.ReferenceIdeal.Hand

end
-- ==== Proof.RefStages.lean ====
import proofs.«427145_j9268539424872_3_alg».proof.ReferenceIdeal
import proofs.«427145_j9268539424872_3_alg».proof.Proof.Gen.ReferenceIdeal
import Idealize.ShloMosaic.PureOps.Ideal

noncomputable section

namespace Cert.ReferenceIdeal.Hand

open Idealize.ShloMosaic Cert.ReferenceIdeal Cert.ReferenceIdeal.Facts₀

variable [Facts]

def sqSum8 (a : FVec Ideal S4x8192x3 .f32) : FVec Ideal S4x8192 .f32 :=
  Host.reduceAdd (F := Ideal) (mulf (F := Ideal) a a) (constant (F := Ideal) S_ .f32 0x00000000#32)
    reducesTo_S4x8192x3_S4x8192_d2 h_S_

def dot8 (a0 a3 : FVec Ideal S4x8192x3 .f32) : FVec Ideal S4x8192x8192 .f32 :=
  Host.dotGeneral (F := Ideal) dot_S4x8192x3_S4x8192x3_S4x8192x8192_2_2_1_1_0_0 none a0 a3

def dMat (a0 a3 : FVec Ideal S4x8192x3 .f32) : FVec Ideal S4x8192x8192 .f32 :=
  subf (F := Ideal)
    (addf (F := Ideal)
      (broadcastInDim S4x8192x8192 ![0, 1, 2] bcast_S4x8192x1_S4x8192x8192_0_1_2
        (broadcastInDim S4x8192x1 ![0, 1] bcast_S4x8192_S4x8192x1_0_1 (sqSum8 a0)))
      (broadcastInDim S4x8192x8192 ![0, 1, 2] bcast_S4x1x8192_S4x8192x8192_0_1_2
        (broadcastInDim S4x1x8192 ![0, 2] bcast_S4x8192_S4x1x8192_0_2 (sqSum8 a3))))
    (mulf (F := Ideal)
      (broadcastInDim S4x8192x8192 ![] bcast_S_S4x8192x8192 (constant (F := Ideal) S_ .f32 0x40000000#32))
      (dot8 a0 a3))

def rowMinRef (a0 a3 : FVec Ideal S4x8192x3 .f32) : FVec Ideal S4x8192 .f32 :=
  Host.reduce (FloatOps.minimumf (F := Ideal) (φ := .f32)) (dMat a0 a3) (constant (F := Ideal) S_ .f32 0x7F800000#32)
    reducesTo_S4x8192x8192_S4x8192_d2 h_S_

def colMinRef (a0 a3 : FVec Ideal S4x8192x3 .f32) : FVec Ideal S4x8192 .f32 :=
  Host.reduce (FloatOps.minimumf (F := Ideal) (φ := .f32)) (dMat a0 a3) (constant (F := Ideal) S_ .f32 0x7F800000#32)
    reducesTo_S4x8192x8192_S4x8192_d1 h_S_

def sqSum1 (x : FVec Ideal S4x1024x3 .f32) : FVec Ideal S4x1024 .f32 :=
  Host.reduceAdd (F := Ideal) (mulf (F := Ideal) x x) (constant (F := Ideal) S_ .f32 0x00000000#32)
    reducesTo_S4x1024x3_S4x1024_d2 h_S_

def dot1 (x : FVec Ideal S4x1024x3 .f32) : FVec Ideal S4x1024x1024 .f32 :=
  Host.dotGeneral (F := Ideal) dot_S4x1024x3_S4x1024x3_S4x1024x1024_2_2_1_1_0_0 none x x

def dMat1 (x : FVec Ideal S4x1024x3 .f32) : FVec Ideal S4x1024x1024 .f32 :=
  subf (F := Ideal)
    (addf (F := Ideal)
      (broadcastInDim S4x1024x1024 ![0, 1, 2] bcast_S4x1024x1_S4x1024x1024_0_1_2
        (broadcastInDim S4x1024x1 ![0, 1] bcast_S4x1024_S4x1024x1_0_1 (sqSum1 x)))
      (broadcastInDim S4x1024x1024 ![0, 1, 2] bcast_S4x1x1024_S4x1024x1024_0_1_2
        (broadcastInDim S4x1x1024 ![0, 2] bcast_S4x1024_S4x1x1024_0_2 (sqSum1 x))))
    (mulf (F := Ideal)
      (broadcastInDim S4x1024x1024 ![] bcast_S_S4x1024x1024 (constant (F := Ideal) S_ .f32 0x40000000#32))
      (dot1 x))

def eyeBit : IVec S1024x1024 1 :=
  cmpi .eq
    (addi (iotaInDim S1024x1024 32 0) (broadcastInDim S1024x1024 ![] bcast_S_S1024x1024 (constantI S_ 32 0#32)))
    (iotaInDim S1024x1024 32 1)

def eyePen : FVec Ideal S4x1024x1024 .f32 :=
  broadcastInDim S4x1024x1024 ![0, 1, 2] bcast_S1x1024x1024_S4x1024x1024_0_1_2
    (mulf (F := Ideal)
      (broadcastInDim S1x1024x1024 ![1, 2] bcast_S1024x1024_S1x1024x1024_1_2 (uitofp (F := Ideal) .f32 eyeBit))
      (broadcastInDim S1x1024x1024 ![] bcast_S_S1x1024x1024 (constant (F := Ideal) S_ .f32 0x49742400#32)))

def ddMat (x : FVec Ideal S4x1024x3 .f32) : FVec Ideal S4x1024x1024 .f32 :=
  addf (F := Ideal) (dMat1 x) eyePen

def densRef (x : FVec Ideal S4x1024x3 .f32) : FVec Ideal S4x1024 .f32 :=
  Host.reduce (FloatOps.minimumf (F := Ideal) (φ := .f32)) (ddMat x) (constant (F := Ideal) S_ .f32 0x7F800000#32)
    reducesTo_S4x1024x1024_S4x1024_d2 h_S_

end Cert.ReferenceIdeal.Hand

end
-- ==== Proof.RefValue.lean ====
import proofs.«427145_j9268539424872_3_alg».proof.Proof.RefRun
import proofs.«427145_j9268539424872_3_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

section Stages

variable {F : FTy → Type} [FloatOps F]

def chamferOf (r c : FVec F S4x8192 .f32) : FVec F S_ .f32 :=
  Host.divf (Host.reduceAdd (addf (Host.divf (Host.reduceAdd r (constant S_ .f32 0x00000000#32) reducesTo_S4x8192_S4_d1 h_S_) (broadcastInDim S4 ![] bcast_S_S4 (constant S_ .f32 0x46000000#32))) (Host.divf (Host.reduceAdd c (constant S_ .f32 0x00000000#32) reducesTo_S4x8192_S4_d1 h_S_) (broadcastInDim S4 ![] bcast_S_S4 (constant S_ .f32 0x46000000#32)))) (constant S_ .f32 0x00000000#32) reducesTo_S4_S_d0 h_S_) (constant S_ .f32 0x40800000#32)

def klRef (a6 a7 : FVec F S4x512 .f32) : FVec F S_ .f32 :=
  mulf (constant S_ .f32 0xBF000000#32) (Host.divf (Host.reduceAdd (subf (subf (addf (broadcastInDim S4x512 ![] bcast_S_S4x512 (constant S_ .f32 0x3F800000#32)) a7) (mulf a6 a6)) (Host.exp a7)) (constant S_ .f32 0x00000000#32) reducesTo_S4x512_S_d0_1 h_S_) (constant S_ .f32 0x45000000#32))

def ptsRef (a0 : FVec F S4x8192x3 .f32) (a8 : IVec S1024 32) : FVec F S4x1024x3 .f32 :=
  Host.gather gather_S4x8192x3_S1024x1_S4x1024x3_02_1_n_n_1_1_413 a0 (broadcastInDim S1024x1 ![0] bcast_S1024_S1024x1_0 (select (cmpi .slt a8 (broadcastInDim S1024 ![] bcast_S_S1024 (constantI S_ 32 0#32))) (addi a8 (broadcastInDim S1024 ![] bcast_S_S1024 (constantI S_ 32 8192#32))) a8))

def rowMean (d : FVec F S4x1024 .f32) : FVec F S4x1 .f32 :=
  Host.divf (broadcastInDim S4x1 ![0] bcast_S4_S4x1_0 (Host.reduceAdd d (constant S_ .f32 0x00000000#32) reducesTo_S4x1024_S4_d1 h_S_)) (broadcastInDim S4x1 ![] bcast_S_S4x1 (constant S_ .f32 0x44800000#32))

def centred (d : FVec F S4x1024 .f32) : FVec F S4x1024 .f32 :=
  subf d (broadcastInDim S4x1024 ![0, 1] bcast_S4x1_S4x1024_0_1 (rowMean d))

def ddof : FVec F S_ .f32 :=
  subf (constant S_ .f32 0x44800000#32) (sitofp .f32 (constantI S_ 32 1#32))

def varRef (d : FVec F S4x1024 .f32) : FVec F S4 .f32 :=
  select (broadcastInDim S4 ![] bcast_S_S4 (cmpf .ogt (ddof (F := F)) (constant S_ .f32 0x00000000#32)))
    (Host.divf (Host.reduceAdd (mulf (centred d) (centred d)) (constant S_ .f32 0x00000000#32) reducesTo_S4x1024_S4_d1 h_S_) (broadcastInDim S4 ![] bcast_S_S4 ddof))
    (broadcastInDim S4 ![] bcast_S_S4 (id (constant S_ .f32 0x7FC00000#32)))

def stdRef (d : FVec F S4x1024 .f32) : FVec F S4 .f32 :=
  Host.sqrt (varRef d)

def mean4 (s : FVec F S4 .f32) : FVec F S_ .f32 :=
  Host.divf (Host.reduceAdd s (constant S_ .f32 0x00000000#32) reducesTo_S4_S_d0 h_S_) (constant S_ .f32 0x40800000#32)

def mse1 (a1 a4 : FVec F S4x8192x1 .f32) : FVec F S_ .f32 :=
  Host.divf (Host.reduceAdd (mulf (subf a1 a4) (subf a1 a4)) (constant S_ .f32 0x00000000#32) reducesTo_S4x8192x1_S_d0_1_2 h_S_) (constant S_ .f32 0x47000000#32)

def mse4 (a2 a5 : FVec F S4x8192x4 .f32) : FVec F S_ .f32 :=
  Host.divf (Host.reduceAdd (mulf (subf a2 a5) (subf a2 a5)) (constant S_ .f32 0x00000000#32) reducesTo_S4x8192x4_S_d0_1_2 h_S_) (constant S_ .f32 0x48000000#32)

def totalRef (ch kl sd m1 m4 : FVec F S_ .f32) : FVec F S_ .f32 :=
  addf (addf (addf (addf ch (mulf (constant S_ .f32 0x3A83126F#32) kl)) (mulf (constant S_ .f32 0x3DCCCCCD#32) sd)) (mulf (constant S_ .f32 0x3D4CCCCD#32) m1)) (mulf (constant S_ .f32 0x3DCCCCCD#32) m4)

end Stages

def outRef (a0 : FVec Ideal S4x8192x3 .f32) (a1 : FVec Ideal S4x8192x1 .f32) (a2 : FVec Ideal S4x8192x4 .f32)
    (a3 : FVec Ideal S4x8192x3 .f32) (a4 : FVec Ideal S4x8192x1 .f32) (a5 : FVec Ideal S4x8192x4 .f32)
    (a6 a7 : FVec Ideal S4x512 .f32) (a8 : IVec S1024 32) : FVec Ideal S_ .f32 :=
  totalRef (chamferOf (rowMinRef a0 a3) (colMinRef a0 a3)) (klRef a6 a7) (mean4 (stdRef (densRef (ptsRef a0 a8))))
    (mse1 a1 a4) (mse4 a2 a5)

section Values

variable (V W : Valuation τ sig (Elt Ideal))

set_option maxRecDepth 8192 in
set_option maxHeartbeats 4000000 in
-- What the first window leaves: the Chamfer term, the Kullback–Leibler term, the sampled points and their squared norms.
theorem val0 : after (ops0 (F := Ideal)) V (Proc.devRef .tc main_v23)
      = chamferOf (F := Ideal) (rowMinRef (V (Proc.devRef .tc main_arg0)) (V (Proc.devRef .tc main_arg3)))
          (colMinRef (V (Proc.devRef .tc main_arg0)) (V (Proc.devRef .tc main_arg3)))
    ∧ after (ops0 (F := Ideal)) V (Proc.devRef .tc main_v32) = klRef (F := Ideal) (V (Proc.devRef .tc main_arg6)) (V (Proc.devRef .tc main_arg7))
    ∧ after (ops0 (F := Ideal)) V (Proc.devRef .tc main_v39) = ptsRef (F := Ideal) (V (Proc.devRef .tc main_arg0)) (V (Proc.devRef .tc main_arg8))
    ∧ after (ops0 (F := Ideal)) V (Proc.devRef .tc main_v41) = sqSum1 (ptsRef (F := Ideal) (V (Proc.devRef .tc main_arg0)) (V (Proc.devRef .tc main_arg8))) := by
  refine ⟨?_, ?_, ?_, ?_⟩ <;> (after_results_simp; rfl)

-- The second window's first 29 operations are among the window's, so they write only what it writes.
theorem keepA (r : Ref sig .tc) (h : r ∉ ops1_W) :
    after ((ops1 (F := Ideal)).take 29) W (Proc.devRef .tc r) = W (Proc.devRef .tc r) :=
  after_of_writes_sub _ W (List.forall_iff_forall_mem.mpr fun op ho =>
    List.forall_iff_forall_mem.mp ops1_writes op (List.mem_of_mem_take ho)) h

set_option maxRecDepth 8192 in
set_option maxHeartbeats 4000000 in
-- They end at the row minima of the sampled points' penalised matrix and at the integer one.
theorem val1a (hn : W (Proc.devRef .tc main_v41) = sqSum1 (W (Proc.devRef .tc main_v39))) :
    after ((ops1 (F := Ideal)).take 29) W (Proc.devRef .tc main_v64) = densRef (W (Proc.devRef .tc main_v39))
    ∧ after ((ops1 (F := Ideal)).take 29) W (Proc.devRef .tc main_c_21) = constantI S_ 32 1#32 := by
  simp only [List.take_succ_cons, List.take_zero]
  constructor
  · after_results_simp
    rw [hn]
    rfl
  · after_results_simp

set_option maxRecDepth 8192 in
set_option maxHeartbeats 4000000 in
-- The other 51: the standard deviation of those minima, the means, the errors and the weighted sum.
theorem val1b (hc : W (Proc.devRef .tc main_c_21) = constantI S_ 32 1#32) :
    after ((ops1 (F := Ideal)).drop 29) W (Proc.devRef .tc main_v83)
    = totalRef (F := Ideal) (W (Proc.devRef .tc main_v23)) (W (Proc.devRef .tc main_v32))
        (mean4 (F := Ideal) (stdRef (F := Ideal) (W (Proc.devRef .tc main_v64))))
        (mse1 (F := Ideal) (W (Proc.devRef .tc main_arg1)) (W (Proc.devRef .tc main_arg4)))
        (mse4 (F := Ideal) (W (Proc.devRef .tc main_arg2)) (W (Proc.devRef .tc main_arg5))) := by
  simp only [List.drop_succ_cons, List.drop_zero]
  after_results_simp
  simp only [TRef.ofBuf, TRef.toBuf, cast_eq]
  rw [hc]
  rfl

theorem out_eq : after (ops (F := Ideal)) V (Proc.devRef .tc main_v83)
    = outRef (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  obtain ⟨h23, h32, h39, h41⟩ := val0 V
  have ha := val1a (after ops0 V) (by rw [h41, h39])
  rw [show (ops (F := Ideal)) = ops0 ++ ops1 from rfl, StableHlo.after_append, ← List.take_append_drop 29 ops1, StableHlo.after_append,
    val1b _ ha.2, ha.1, keepA _ main_v23 (by decide), keepA _ main_v32 (by decide), keepA _ main_arg1 (by decide),
    keepA _ main_arg4 (by decide), keepA _ main_arg2 (by decide), keepA _ main_arg5 (by decide), h23, h32, h39,
    after_of_writes_sub ops0 V ops0_writes (r := main_arg1) (by decide), after_of_writes_sub ops0 V ops0_writes (r := main_arg4) (by decide),
    after_of_writes_sub ops0 V ops0_writes (r := main_arg2) (by decide), after_of_writes_sub ops0 V ops0_writes (r := main_arg5) (by decide)]
  rfl

end Values

end Cert.ReferenceIdeal.Hand

end
-- ==== Proof.RefOut.lean ====
import proofs.«427145_j9268539424872_3_alg».proof.Proof.RefValue

noncomputable section

namespace Cert.ReferenceIdeal.Hand

open Cert.ReferenceIdeal Cert.ReferenceIdeal.Gen Idealize.ShloMosaic Idealize.ShloMosaic.TcCoe Idealize.SL.Sem Idealize.ShloMosaic.StableHlo

theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v83)
        = outRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (out_eq (launchContents m c)), (h c).2⟩) (run m ρ)

end Cert.ReferenceIdeal.Hand

end
-- ==== Proof.KernelIdeal.HostValue.lean ====
import proofs.«427145_j9268539424872_3_alg».proof.Proof.Gen.KernelIdeal.Regions
import Idealize.ShloMosaic.Lib.StableHlo.Run

noncomputable section

namespace Cert.KernelIdeal.Hand

open Idealize.ShloMosaic Idealize.ShloMosaic.TcCoe
open Idealize.SL.Sem
open Facts₀ Facts

variable {F : FTy → Type} [FloatOps F]

def wrapIdx (ix : IVec S1024 32) : IVec S1024x1 32 :=
  broadcastInDim (s := S1024) S1024x1 ![0] bcast_S1024_S1024x1_0
    (select
      (cmpi .slt ix (broadcastInDim (s := S_) S1024 ![] bcast_S_S1024 (constantI S_ 32 0#32)))
      (addi ix (broadcastInDim (s := S_) S1024 ![] bcast_S_S1024 (constantI S_ 32 8192#32)))
      ix)

def gatherPts (x : Vec F S4x8192x3 .f32) (ix : IVec S1024 32) : Vec F S4x1024x3 .f32 :=
  Host.gather gather_S4x8192x3_S1024x1_S4x1024x3_02_1_n_n_1_1_413 x (wrapIdx ix)

def sampleT (x : Vec F S4x8192x3 .f32) (ix : IVec S1024 32) : Vec F S4x3x1024 .f32 :=
  transpose S4x3x1024 [0, 2, 1] (gatherPts x ix) transposes_S4x1024x3_S4x3x1024_0_2_1

def cloudT (x : Vec F S4x8192x3 .f32) : Vec F S4x3x8192 .f32 :=
  transpose S4x3x8192 [0, 2, 1] x transposes_S4x8192x3_S4x3x8192_0_2_1

def colMin (col : Vec F S2x4x8192 .f32) : Vec F S4x8192 .f32 :=
  minimumf
    (fun i => shapeCast S4x8192 (extractStridedSlice S1x4x8192 ![0, 0, 0] col slices_S2x4x8192_S1x4x8192_0_0_0) shapeCasts_S1x4x8192_S4x8192 i)
    (fun i => shapeCast S4x8192 (extractStridedSlice S1x4x8192 ![1, 0, 0] col slices_S2x4x8192_S1x4x8192_1_0_0) shapeCasts_S1x4x8192_S4x8192 i)

def cdMean (r cm : Vec F S4x8192 .f32) : Vec F S_ .f32 :=
  Host.divf
    (Host.reduceAdd
      (addf
        (Host.divf
          (Host.reduceAdd r (constant S_ .f32 0x00000000#32) reducesTo_S4x8192_S4_d1 h_S_)
          (broadcastInDim (s := S_) S4 ![] bcast_S_S4 (constant S_ .f32 0x46000000#32)))
        (Host.divf
          (Host.reduceAdd cm (constant S_ .f32 0x00000000#32) reducesTo_S4x8192_S4_d1 h_S_)
          (broadcastInDim (s := S_) S4 ![] bcast_S_S4 (constant S_ .f32 0x46000000#32))))
      (constant S_ .f32 0x00000000#32) reducesTo_S4_S_d0 h_S_)
    (constant S_ .f32 0x40800000#32)

def cdTerm (row : Vec F S4x8192 .f32) (col : Vec F S2x4x8192 .f32) : Vec F S_ .f32 :=
  cdMean row (colMin col)

def klTerm (mu logvar : Vec F S4x512 .f32) : Vec F S_ .f32 :=
  mulf (constant S_ .f32 0xBF000000#32)
    (Host.divf
      (Host.reduceAdd
        (subf
          (subf
            (addf (broadcastInDim (s := S_) S4x512 ![] bcast_S_S4x512 (constant S_ .f32 0x3F800000#32)) logvar)
            (mulf mu mu))
          (Host.exp logvar))
        (constant S_ .f32 0x00000000#32) reducesTo_S4x512_S_d0_1 h_S_)
      (constant S_ .f32 0x45000000#32))

def ctr (o : Vec F S4x1024 .f32) : Vec F S4x1024 .f32 :=
  subf o
    (broadcastInDim (s := S4x1) S4x1024 ![0, 1] bcast_S4x1_S4x1024_0_1
      (Host.divf
        (broadcastInDim (s := S4) S4x1 ![0] bcast_S4_S4x1_0
          (Host.reduceAdd o (constant S_ .f32 0x00000000#32) reducesTo_S4x1024_S4_d1 h_S_))
        (broadcastInDim (s := S_) S4x1 ![] bcast_S_S4x1 (constant S_ .f32 0x44800000#32))))

def varTerm (o : Vec F S4x1024 .f32) (ddof : IVec S_ 32) : Vec F S4 .f32 :=
  select
    (broadcastInDim (s := S_) S4 ![] bcast_S_S4
      (cmpf .ogt
        (subf (constant (F := F) S_ .f32 0x44800000#32) (sitofp .f32 ddof))
        (constant S_ .f32 0x00000000#32)))
    (Host.divf
      (Host.reduceAdd (mulf (ctr o) (ctr o)) (constant S_ .f32 0x00000000#32) reducesTo_S4x1024_S4_d1 h_S_)
      (broadcastInDim (s := S_) S4 ![] bcast_S_S4
        (subf (constant S_ .f32 0x44800000#32) (sitofp .f32 ddof))))
    (broadcastInDim (s := S_) S4 ![] bcast_S_S4 (id (constant S_ .f32 0x7FC00000#32)))

def stdTerm (o : Vec F S4x1024 .f32) (ddof : IVec S_ 32) : Vec F S4 .f32 :=
  Host.sqrt (varTerm o ddof)

def densTerm (o : Vec F S4x1024 .f32) : Vec F S_ .f32 :=
  Host.divf
    (Host.reduceAdd (stdTerm o (constantI S_ 32 1#32)) (constant S_ .f32 0x00000000#32) reducesTo_S4_S_d0 h_S_)
    (constant S_ .f32 0x40800000#32)

def sizTerm (a b : Vec F S4x8192x1 .f32) : Vec F S_ .f32 :=
  Host.divf
    (Host.reduceAdd (mulf (subf a b) (subf a b)) (constant S_ .f32 0x00000000#32)
      reducesTo_S4x8192x1_S_d0_1_2 h_S_)
    (constant S_ .f32 0x47000000#32)

def matTerm (a b : Vec F S4x8192x4 .f32) : Vec F S_ .f32 :=
  Host.divf
    (Host.reduceAdd (mulf (subf a b) (subf a b)) (constant S_ .f32 0x00000000#32)
      reducesTo_S4x8192x4_S_d0_1_2 h_S_)
    (constant S_ .f32 0x48000000#32)

def combine (cd kl dens siz mat : Vec F S_ .f32) : Vec F S_ .f32 :=
  addf
    (addf
      (addf
        (addf cd (mulf (constant S_ .f32 0x3A83126F#32) kl))
        (mulf (constant S_ .f32 0x3DCCCCCD#32) dens))
      (mulf (constant S_ .f32 0x3D4CCCCD#32) siz))
    (mulf (constant S_ .f32 0x3DCCCCCD#32) mat)

def total (a1 : Vec F S4x8192x1 .f32) (a2 : Vec F S4x8192x4 .f32) (a4 : Vec F S4x8192x1 .f32) (a5 : Vec F S4x8192x4 .f32)
    (a6 a7 : Vec F S4x512 .f32) (row : Vec F S4x8192 .f32) (col : Vec F S2x4x8192 .f32) (o : Vec F S4x1024 .f32) :
    Vec F S_ .f32 :=
  combine (cdTerm row col) (klTerm a6 a7) (densTerm o) (sizTerm a1 a4) (matTerm a2 a5)

variable (m : (ℓ : Loc nD τ sig) → Buf (Elt F) ℓ) (outs : Gen.Outs (F := F))

theorem V1_v0 (c : Dev nD) :
    Gen.V1 m c (Proc.devRef .tc main_v0) = cloudT (m ((c : Thread nD τ).loc main_arg0)) := by
  dsimp only [Gen.V1, Gen.V0, Gen.hostOps0]
  after_results
  all_goals rfl

theorem V1_v1 (c : Dev nD) :
    Gen.V1 m c (Proc.devRef .tc main_v1) = cloudT (m ((c : Thread nD τ).loc main_arg3)) := by
  dsimp only [Gen.V1, Gen.V0, Gen.hostOps0]
  after_results
  all_goals rfl

theorem V2_v2_0 (c : Dev nD) : Gen.V2 m outs c (Proc.devRef .tc main_v2_0) = outs 2 main_v2_0 c := by
  simp only [Gen.V2, Function.update_of_ne (StableHlo.devRef_ne_of_ne (by decide : main_v2_0 ≠ main_v2_1) : (Proc.devRef .tc main_v2_0 : DevRef τ sig) ≠ Proc.devRef .tc main_v2_1), Function.update_self]

theorem V2_v2_1 (c : Dev nD) : Gen.V2 m outs c (Proc.devRef .tc main_v2_1) = outs 2 main_v2_1 c := by
  simp only [Gen.V2, Function.update_self]

theorem V2_launch (c : Dev nD) (r : Ref sig .tc)
    (h : r ∉ ([main_v2_0, main_v2_1] : List (Ref sig .tc)) ∧ r ∉ Gen.hostOps0_W) :
    Gen.V2 m outs c (Proc.devRef .tc r) = m ((c : Thread nD τ).loc r) :=
  (Gen.V2_of m outs c r h.1).trans <| (Gen.V1_of m c r h.2).trans rfl

theorem V3_v33 (c : Dev nD) :
    Gen.V3 m outs c (Proc.devRef .tc main_v33)
      = sampleT (m ((c : Thread nD τ).loc main_arg0)) (m ((c : Thread nD τ).loc main_arg8)) := by
  dsimp only [Gen.V3, Gen.hostOps1]
  generalize hW : Gen.V2 m outs c = W
  after_results_simp
  subst hW
  rw [V2_launch m outs c main_arg0 (by decide), V2_launch m outs c main_arg8 (by decide)]
  rfl

theorem V3_v16 (c : Dev nD) :
    Gen.V3 m outs c (Proc.devRef .tc main_v16) = cdTerm (outs 2 main_v2_0 c) (outs 2 main_v2_1 c) := by
  dsimp only [Gen.V3, Gen.hostOps1]
  generalize hW : Gen.V2 m outs c = W
  after_results_simp
  subst hW
  rw [V2_v2_0 m outs c, V2_v2_1 m outs c]
  rfl

theorem V3_v25 (c : Dev nD) :
    Gen.V3 m outs c (Proc.devRef .tc main_v25)
      = klTerm (m ((c : Thread nD τ).loc main_arg6)) (m ((c : Thread nD τ).loc main_arg7)) := by
  dsimp only [Gen.V3, Gen.hostOps1]
  generalize hW : Gen.V2 m outs c = W
  after_results_simp
  subst hW
  rw [V2_launch m outs c main_arg6 (by decide), V2_launch m outs c main_arg7 (by decide)]
  rfl

theorem V4_v34 (c : Dev nD) : Gen.V4 m outs c (Proc.devRef .tc main_v34) = outs 4 main_v34 c := by
  simp only [Gen.V4, Function.update_self]

theorem V5_c_10 (c : Dev nD) : Gen.V5 m outs c (Proc.devRef .tc main_c_10) = constantI S_ 32 1#32 := by
  dsimp only [Gen.V5, Gen.hostOps2]
  generalize hW : Gen.V4 m outs c = W
  after_results
  all_goals rfl

theorem V6_of_V3 (c : Dev nD) (r : Ref sig .tc)
    (h : r ∉ Gen.hostOps2_1_W ∧ r ∉ Gen.hostOps2_W ∧ r ∉ ([main_v34] : List (Ref sig .tc))) :
    Gen.V6 m outs c (Proc.devRef .tc r) = Gen.V3 m outs c (Proc.devRef .tc r) :=
  (Gen.V6_of m outs c r h.1).trans <| (Gen.V5_of m outs c r h.2.1).trans (Gen.V4_of m outs c r h.2.2)

theorem V6_v35 (c : Dev nD) :
    Gen.V6 m outs c (Proc.devRef .tc main_v35) = stdTerm (outs 4 main_v34 c) (constantI S_ 32 1#32) := by
  dsimp only [Gen.V6, Gen.hostOps2_1]
  generalize hW : Gen.V5 m outs c = W
  after_results_simp
  subst hW
  rw [(Gen.V5_of m outs c main_v34 (by decide)).trans (V4_v34 m outs c), V5_c_10 m outs c]
  simp only [StableHlo.TRef.ofBuf, StableHlo.TRef.toBuf, cast_eq]
  rfl

theorem V7_v53 (c : Dev nD) :
    Gen.V7 m outs c (Proc.devRef .tc main_v53)
      = total (m ((c : Thread nD τ).loc main_arg1)) (m ((c : Thread nD τ).loc main_arg2))
          (m ((c : Thread nD τ).loc main_arg4)) (m ((c : Thread nD τ).loc main_arg5))
          (m ((c : Thread nD τ).loc main_arg6)) (m ((c : Thread nD τ).loc main_arg7))
          (outs 2 main_v2_0 c) (outs 2 main_v2_1 c) (outs 4 main_v34 c) := by
  dsimp only [Gen.V7, Gen.hostOps2_2]
  generalize hW : Gen.V6 m outs c = W
  after_results_simp
  subst hW
  rw [V6_v35 m outs c, V6_of_V3 m outs c main_v16 (by decide), V3_v16 m outs c,
    V6_of_V3 m outs c main_v25 (by decide), V3_v25 m outs c,
    (Gen.V7_of m outs c main_arg1 (by decide)).symm.trans (Gen.V7_main_arg1 m outs c),
    (Gen.V7_of m outs c main_arg2 (by decide)).symm.trans (Gen.V7_main_arg2 m outs c),
    (Gen.V7_of m outs c main_arg4 (by decide)).symm.trans (Gen.V7_main_arg4 m outs c),
    (Gen.V7_of m outs c main_arg5 (by decide)).symm.trans (Gen.V7_main_arg5 m outs c)]
  rfl

end Cert.KernelIdeal.Hand
end
-- ==== Proof.Spec.lean ====
import Idealize.ShloMosaic.PureOps.Ideal
import Idealize.ShloMosaic.PureOps.Ideal.Laws
import Idealize.ShloMosaic.Lib.ValueIdx
import Mathlib.Algebra.BigOperators.Fin
import Mathlib.Order.CompleteLattice.Basic
import Mathlib.Logic.Equiv.Fin.Basic
import Mathlib.Data.EReal.Operations
import Mathlib.Tactic.Ring
import Mathlib.Tactic.NormNum

noncomputable section

open scoped BigOperators

namespace Cert.Hand.Spec

open Idealize.ShloMosaic Idealize.ShloMosaic.ValueIdx

abbrev SP : Shape := ⟨3, ![4, 8192, 3]⟩

abbrev SX : Shape := ⟨3, ![4, 1024, 3]⟩

abbrev SR : Shape := ⟨2, ![4, 8192]⟩

abbrev SD : Shape := ⟨2, ![4, 1024]⟩

def sqd (p q : Fin 3 → EReal) : EReal :=
  ((0 + (p 0 - q 0) * (p 0 - q 0)) + (p 1 - q 1) * (p 1 - q 1)) + (p 2 - q 2) * (p 2 - q 2)

def pen : EReal := Ideal.ofBits .f32 0x49742400#32

def two : EReal := Ideal.ofBits .f32 0x40000000#32

def pt (P : FVec Ideal SP .f32) (b : Fin 4) (n : Fin 8192) : Fin 3 → EReal := fun c => P (ix3 b n c)

def ptX (X : FVec Ideal SX .f32) (b : Fin 4) (n : Fin 1024) : Fin 3 → EReal := fun c => X (ix3 b n c)

def rowMinAt (P Q : FVec Ideal SP .f32) (b : Fin 4) (n : Fin 8192) : EReal :=
  ⨅ m : Fin 8192, sqd (pt P b n) (pt Q b m)

def colMinAt (P Q : FVec Ideal SP .f32) (b : Fin 4) (m : Fin 8192) : EReal :=
  ⨅ n : Fin 8192, sqd (pt P b n) (pt Q b m)

def colMinHalfAt (h : Fin 2) (P Q : FVec Ideal SP .f32) (b : Fin 4) (m : Fin 8192) : EReal :=
  ⨅ n : Fin 4096, sqd (pt P b ⟨4096 * h.val + n.val, by have := h.isLt; have := n.isLt; omega⟩) (pt Q b m)

def densMinAt (X : FVec Ideal SX .f32) (b : Fin 4) (n : Fin 1024) : EReal :=
  ⨅ m : Fin 1024, if n = m then sqd (ptX X b n) (ptX X b m) + pen else sqd (ptX X b n) (ptX X b m)

def rowMin (P Q : FVec Ideal SP .f32) : FVec Ideal SR .f32 := fun i => rowMinAt P Q (i 0) (i 1)

def colMin (P Q : FVec Ideal SP .f32) : FVec Ideal SR .f32 := fun i => colMinAt P Q (i 0) (i 1)

def colMinHalf (h : Fin 2) (P Q : FVec Ideal SP .f32) : FVec Ideal SR .f32 := fun i => colMinHalfAt h P Q (i 0) (i 1)

def densMin (X : FVec Ideal SX .f32) : FVec Ideal SD .f32 := fun i => densMinAt X (i 0) (i 1)

theorem rowMin_ix2 (P Q : FVec Ideal SP .f32) (b : Fin 4) (n : Fin 8192) : rowMin P Q (ix2 b n) = rowMinAt P Q b n := rfl
theorem colMin_ix2 (P Q : FVec Ideal SP .f32) (b : Fin 4) (m : Fin 8192) : colMin P Q (ix2 b m) = colMinAt P Q b m := rfl
theorem densMin_ix2 (X : FVec Ideal SX .f32) (b : Fin 4) (n : Fin 1024) : densMin X (ix2 b n) = densMinAt X b n := rfl

theorem iInf_fin_two (f : Fin 2 → EReal) : ⨅ i, f i = min (f 0) (f 1) := by
  refine le_antisymm (le_min (iInf_le _ 0) (iInf_le _ 1)) (le_iInf fun i => ?_)
  match i with
  | ⟨0, _⟩ => exact min_le_left _ _
  | ⟨1, _⟩ => exact min_le_right _ _

theorem iInf_blocks (a b : ℕ) (f : Fin (a * b) → EReal) :
    ⨅ i, f i = ⨅ j : Fin a, ⨅ k : Fin b, f ⟨j.val * b + k.val, by
      have hj := j.isLt; have hk := k.isLt
      calc j.val * b + k.val < j.val * b + b := by omega
        _ = (j.val + 1) * b := (Nat.succ_mul _ _).symm
        _ ≤ a * b := Nat.mul_le_mul_right _ hj⟩ := by
  rw [← Equiv.iInf_comp (g := f) finProdFinEquiv, iInf_prod]
  refine iInf_congr fun j => iInf_congr fun k => congrArg f (Fin.ext ?_)
  show k.val + b * j.val = j.val * b + k.val
  rw [Nat.mul_comm, Nat.add_comm]

theorem fold_min_top_eq_biInf {ι : Type*} [DecidableEq ι] (s : Finset ι) (f : ι → EReal) :
    s.fold min ⊤ f = ⨅ k ∈ s, f k := by
  induction s using Finset.induction_on with
  | empty => simp
  | insert a s ha ih => rw [Finset.fold_insert ha, ih, Finset.iInf_insert]

theorem fold_min_top_eq_iInf {ι : Type*} [Fintype ι] [DecidableEq ι] (f : ι → EReal) :
    (Finset.univ : Finset ι).fold min ⊤ f = ⨅ k, f k := by
  rw [fold_min_top_eq_biInf]; simp

theorem inf_eq_top : Ideal.ofBits .f32 0x7F800000#32 = ⊤ := by simp [Ideal.ofBits, Ideal.ieee]

theorem colMinAt_eq_min_halves (P Q : FVec Ideal SP .f32) (b : Fin 4) (m : Fin 8192) :
    colMinAt P Q b m = min (colMinHalfAt 0 P Q b m) (colMinHalfAt 1 P Q b m) := by
  unfold colMinAt colMinHalfAt
  rw [show (⨅ n : Fin 8192, sqd (pt P b n) (pt Q b m)) = ⨅ n : Fin (2 * 4096), sqd (pt P b n) (pt Q b m) from rfl,
    iInf_blocks 2 4096 fun n => sqd (pt P b n) (pt Q b m), iInf_fin_two]
  refine congrArg₂ min (iInf_congr fun n => ?_) (iInf_congr fun n => ?_) <;>
    exact congrArg (fun x => sqd (pt P b x) (pt Q b m)) (Fin.ext (by simp))

theorem colMin_eq_min_halves (P Q : FVec Ideal SP .f32) (i : SR.Idx) :
    colMin P Q i = min (colMinHalf 0 P Q i) (colMinHalf 1 P Q i) :=
  colMinAt_eq_min_halves P Q (i 0) (i 1)

theorem two_eq : two = ((2 : ℝ) : EReal) := by
  unfold two
  simp [Ideal.ofBits, Ideal.ieee, -EReal.coe_mul]; norm_num

theorem sqd_eq_expand (p q : Fin 3 → EReal) (hp : ∀ k, p k ≠ ⊤ ∧ p k ≠ ⊥) (hq : ∀ k, q k ≠ ⊤ ∧ q k ≠ ⊥) :
    sqd p q = ((0 + ∑ k : Fin 3, p k * p k) + (0 + ∑ k : Fin 3, q k * q k)) - two * ∑ k : Fin 3, p k * q k := by
  obtain ⟨p', rfl⟩ : ∃ p' : Fin 3 → ℝ, p = fun k => ((p' k : ℝ) : EReal) :=
    ⟨fun k => (p k).toReal, funext fun k => (EReal.coe_toReal (hp k).1 (hp k).2).symm⟩
  obtain ⟨q', rfl⟩ : ∃ q' : Fin 3 → ℝ, q = fun k => ((q' k : ℝ) : EReal) :=
    ⟨fun k => (q k).toReal, funext fun k => (EReal.coe_toReal (hq k).1 (hq k).2).symm⟩
  unfold sqd
  rw [two_eq, Fin.sum_univ_three, Fin.sum_univ_three, Fin.sum_univ_three]
  simp only [← EReal.coe_mul, ← EReal.coe_add, ← EReal.coe_sub, ← EReal.coe_zero]
  exact congrArg _ (by ring)

theorem add_eye_mul (c : Prop) [Decidable c] (d e : EReal) :
    d + (if c then (1 : EReal) else 0) * e = if c then d + e else d := by
  by_cases h : c
  · rw [if_pos h, if_pos h, one_mul]
  · rw [if_neg h, if_neg h, zero_mul, add_zero]

end Cert.Hand.Spec

end
-- ==== Proof.KernelIdeal.R0Out.lean ====
import proofs.«427145_j9268539424872_3_alg».proof.Proof.Spec
import proofs.«427145_j9268539424872_3_alg».proof.Proof.KernelIdeal.R0Defs
import Idealize.ShloMosaic.Lib.ValueIdx

noncomputable section

namespace Cert.KernelIdeal.Hand

open Idealize.ShloMosaic Idealize.ShloMosaic.ValueIdx Cert.KernelIdeal Cert.Hand.Spec

-- Per batch and query, the infimum over all 8192 targets of the squared distance.
def rowOutT (Qt Kt : Vec Ideal S4x3x8192 .f32) : Vec Ideal S4x8192 .f32 :=
  fun y => ⨅ m : Fin 8192, sqd (fun k => Qt (ix3 (y 0) k (y 1))) (fun k => Kt (ix3 (y 0) k m))

-- Per half `h` of the queries, batch and target, the infimum over the half's 4096 queries of the squared distance.
def colOutT (Qt Kt : Vec Ideal S4x3x8192 .f32) : Vec Ideal S2x4x8192 .f32 :=
  fun y => ⨅ n : Fin 4096, sqd (fun k => Qt (ix3 (y 1) k ⟨4096 * (y 0).val + n.val, by have h0 : (y 0).val < 2 := (y 0).isLt; have := n.isLt; omega⟩)) (fun k => Kt (ix3 (y 1) k (y 2)))

end Cert.KernelIdeal.Hand

end
-- ==== Proof.KernelIdeal.R0Step.lean ====
import proofs.«427145_j9268539424872_3_alg».proof.Proof.Spec
import proofs.«427145_j9268539424872_3_alg».proof.Proof.KernelIdeal.R0Defs

noncomputable section

namespace Cert.KernelIdeal.Hand

open Idealize.ShloMosaic Idealize.ShloMosaic.ValueIdx Cert.KernelIdeal Cert.Hand.Spec

def dtile (x0 : Vec Ideal S4x3x512 .f32) (x1 : Vec Ideal S4x3x1024 .f32) (b : Fin 4) (r : Fin 512) (m : Fin 1024) : EReal :=
  sqd (fun k => x0 (ix3 b k r)) (fun k => x1 (ix3 b k m))

def rowStep (x0 : Vec Ideal S4x3x512 .f32) (x1 : Vec Ideal S4x3x1024 .f32) (p : Vec Ideal S4x1x512 .f32) : Vec Ideal S4x1x512 .f32 :=
  fun y => min (p y) (⨅ m : Fin 1024, dtile x0 x1 (y 0) (y 2) m)

def colStep (j : ℕ) (x0 : Vec Ideal S4x3x512 .f32) (x1 : Vec Ideal S4x3x1024 .f32) (p : Vec Ideal S4x1x8192 .f32) : Vec Ideal S4x1x8192 .f32 :=
  fun y => if h : 1024 * j ≤ (y 2).val ∧ (y 2).val < 1024 * j + 1024
    then min (p y) (⨅ r : Fin 512, dtile x0 x1 (y 0) r ⟨(y 2).val - 1024 * j, by omega⟩)
    else p y

def topRow : Vec Ideal S4x1x512 .f32 := fun _ => ⊤
def topCol : Vec Ideal S4x1x8192 .f32 := fun _ => ⊤

def rowOutBlk (s : Vec Ideal S4x1x512 .f32) : Vec Ideal S4x512 .f32 := fun y => s (ix3 (y 0) 0 (y 1))
def colOutBlk (s : Vec Ideal S4x1x8192 .f32) : Vec Ideal S1x4x8192 .f32 := fun y => s (ix3 (y 1) 0 (y 2))

end Cert.KernelIdeal.Hand

end
-- ==== Proof.KernelIdeal.R0Payloads.lean ====
import proofs.«427145_j9268539424872_3_alg».proof.Proof.Gen.KernelIdeal.Skeleton
import proofs.«427145_j9268539424872_3_alg».proof.Proof.Spec
import Idealize.ShloMosaic.Lib.ValueLayout

noncomputable section

namespace Cert.KernelIdeal.Hand

open Idealize.ShloMosaic Idealize.ShloMosaic.ValueIdx Cert.KernelIdeal Cert.Hand.Spec

variable {α : Type}

-- A column vector spread along the rows: entry (r, m) is the vector's r-th.
theorem bcol (v : (⟨1, ![512]⟩ : Shape).Idx → α) (h1 : S512.ShapeCasts S512x1) (h2 : S512x1.Broadcasts S512x1024)
    (r : Fin 512) (m : Fin 1024) :
    broadcastTo S512x1024 (shapeCast S512x1 v h1) h2 (ix2 r m) = v (ix1 r) :=
  (broadcastTo_apply _ h2 _ (ix2 r (0 : Fin 1)) fun a => by
    match a with
    | ⟨0, _⟩ => rfl
    | ⟨1, _⟩ => rfl).trans (shapeCast_apply v h1 _ _ (by
      rw [Shape.rowMajor_val_two, Shape.rowMajor_val_one]
      exact (Nat.mul_one _).symm))

-- Slicing row o out of a 3 × a array and flattening it gives that row's entries.
private theorem row3 {a : ℕ} (o : ℕ) (x : (⟨2, ![3, a]⟩ : Shape).Idx → α) (hs : (⟨2, ![3, a]⟩ : Shape).Slices ![o, 0] ⟨2, ![1, a]⟩)
    (hc : (⟨2, ![1, a]⟩ : Shape).ShapeCasts ⟨1, ![a]⟩) (k : Fin 3) (hk : k.val = o) (i : Fin a) :
    shapeCast ⟨1, ![a]⟩ (extractStridedSlice ⟨2, ![1, a]⟩ ![o, 0] x hs) hc (ix1 i) = x (ix2 k i) := by
  rw [shapeCast_1a_a_apply]
  exact slice2_axis0_apply o x hs (0 : Fin 1) i k hk

-- Two unit axes put in front of a vector, or dropped: the entries keep their places.
theorem cast_a_11a {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    rw [Shape.rowMajor_val_three, Shape.rowMajor_val_one]
    show i.val = (u.val * 1 + v.val) * a + i.val
    rw [Fin.val_eq_zero u, Fin.val_eq_zero v]; simp)

theorem cast_11a_a {a : ℕ} (x : (⟨3, ![1, 1, a]⟩ : Shape).Idx → α) (h : (⟨3, ![1, 1, a]⟩ : Shape).ShapeCasts ⟨1, ![a]⟩)
    (u v : Fin 1) (i : Fin a) : shapeCast ⟨1, ![a]⟩ x h (ix1 i) = x (ix3 u v i) :=
  (cast_a_11a _ h.symm u v i).symm.trans (congrFun (shapeCast_shapeCast x h _) _)

-- A minimum over one axis, from +∞, is the infimum over that axis's coordinates.
private theorem minred_apply {s t : Shape} {a : Fin s.rank} (d : FVec Ideal s .f32) (h : s.Reduces [a] t) (hφ : FKind.Formats .f32)
    (hacc : (0x7F800000#32 : BitVec 32) = FKind.minimumf.neutral .f32 hφ) (j : t.Idx) :
    multiReduction .minimumf [a] t d 0x7F800000#32 h hφ hacc j = ⨅ k, d (h.lift j k) := by
  refine (multiReduction_minimumf_eq_fold d _ h hφ hacc j).trans ((h.fold_filter_drop_single _ _ d j).trans ?_)
  show (Finset.univ : Finset (Fin (s.size a))).fold min (Ideal.ofBits .f32 0x7F800000#32) (d ∘ h.lift j) = _
  rw [inf_eq_top]
  exact fold_min_top_eq_iInf _

theorem scalar_zero : (Scalar.ofBits .f32 0x00000000#32 : Ideal .f32) = (0 : EReal) := Ideal.ofBits_zero_f32

theorem scalar_inf : (Scalar.ofBits .f32 0x7F800000#32 : Ideal .f32) = (⊤ : EReal) := inf_eq_top

-- Entry (r, m) of the tile is the squared distance of query r and target m.
private theorem tile (vq : Vec Ideal S1x3x512 .f32) (vk : Vec Ideal S1x3x1024 .f32) (r : Fin 512) (m : Fin 1024) :
    Gen.k0_pay27 vq vk (ix2 r m) = sqd (fun k => vq (ix3 (0 : Fin 1) k r)) (fun k => vk (ix3 (0 : Fin 1) k m)) := by
  unfold Gen.k0_pay27 sqd
  simp only [addf_apply, mulf_apply, subf_apply, broadcast_apply, bcol, broadcastTo_1b_ab_apply, shapeCast_a_1a_apply,
    row3 0 _ _ _ (0 : Fin 3) rfl, row3 1 _ _ _ (1 : Fin 3) rfl, row3 2 _ _ _ (2 : Fin 3) rfl,
    shapeCast_1ab_ab_apply, scalar_zero]

-- The four batches' payloads are one expression, cut into named parts in four ways: the last batch's stands for all.
theorem rowPay_3 (vq : Vec Ideal S1x3x512 .f32) (vk : Vec Ideal S1x3x1024 .f32) (old : Vec Ideal S1x1x512 .f32)
    (u v : Fin 1) (r : Fin 512) :
    Gen.k0_pay1 (Gen.k0_pay28 vq vk) old (ix3 u v r)
      = min (old (ix3 u v r)) (⨅ m : Fin 1024, sqd (fun k => vq (ix3 (0 : Fin 1) k r)) (fun k => vk (ix3 (0 : Fin 1) k m))) := by
  unfold Gen.k0_pay1 Gen.k0_pay28
  simp only [cast_a_11a, minimumf_apply, cast_11a_a _ _ u v]
  exact congrArg (min _) ((minred_apply _ _ _ _ _).trans (iInf_congr fun m => (congrArg _ (Shape.idx_ext₂ rfl rfl)).trans (tile vq vk r m)))

theorem colPay_3 (vq : Vec Ideal S1x3x512 .f32) (vk : Vec Ideal S1x3x1024 .f32) (old : Vec Ideal S1x1x1024 .f32)
    (u v : Fin 1) (m : Fin 1024) :
    Gen.k0_pay2 (Gen.k0_pay27 vq vk) old (ix3 u v m)
      = min (old (ix3 u v m)) (⨅ r : Fin 512, sqd (fun k => vq (ix3 (0 : Fin 1) k r)) (fun k => vk (ix3 (0 : Fin 1) k m))) := by
  unfold Gen.k0_pay2
  simp only [cast_a_11a, minimumf_apply, cast_11a_a _ _ u v]
  exact congrArg (min _) ((minred_apply _ _ _ _ _).trans (iInf_congr fun r => (congrArg _ (Shape.idx_ext₂ rfl rfl)).trans (tile vq vk r m)))

theorem rowPay_0 (vq : Vec Ideal S1x3x512 .f32) (vk : Vec Ideal S1x3x1024 .f32) (old : Vec Ideal S1x1x512 .f32)
    (u v : Fin 1) (r : Fin 512) :
    Gen.k0_pay13 (Gen.k0_pay9 vq vk) (Gen.k0_pay10 vq) (Gen.k0_pay11 vk) old (ix3 u v r)
      = min (old (ix3 u v r)) (⨅ m : Fin 1024, sqd (fun k => vq (ix3 (0 : Fin 1) k r)) (fun k => vk (ix3 (0 : Fin 1) k m))) :=
  rowPay_3 vq vk old u v r

theorem colPay_0 (vq : Vec Ideal S1x3x512 .f32) (vk : Vec Ideal S1x3x1024 .f32) (old : Vec Ideal S1x1x1024 .f32)
    (u v : Fin 1) (m : Fin 1024) :
    Gen.k0_pay14 (Gen.k0_pay9 vq vk) (Gen.k0_pay10 vq) (Gen.k0_pay11 vk) old (ix3 u v m)
      = min (old (ix3 u v m)) (⨅ r : Fin 512, sqd (fun k => vq (ix3 (0 : Fin 1) k r)) (fun k => vk (ix3 (0 : Fin 1) k m))) :=
  colPay_3 vq vk old u v m

theorem rowPay_1 (vq : Vec Ideal S1x3x512 .f32) (vk : Vec Ideal S1x3x1024 .f32) (old : Vec Ideal S1x1x512 .f32)
    (u v : Fin 1) (r : Fin 512) :
    Gen.k0_pay20 (Gen.k0_pay15 vq) (Gen.k0_pay16 vk) (Gen.k0_pay17 (F := Ideal)) (Gen.k0_pay18 vq vk) old (ix3 u v r)
      = min (old (ix3 u v r)) (⨅ m : Fin 1024, sqd (fun k => vq (ix3 (0 : Fin 1) k r)) (fun k => vk (ix3 (0 : Fin 1) k m))) :=
  rowPay_3 vq vk old u v r

theorem colPay_1 (vq : Vec Ideal S1x3x512 .f32) (vk : Vec Ideal S1x3x1024 .f32) (old : Vec Ideal S1x1x1024 .f32)
    (u v : Fin 1) (m : Fin 1024) :
    Gen.k0_pay21 (Gen.k0_pay15 vq) (Gen.k0_pay16 vk) (Gen.k0_pay17 (F := Ideal)) (Gen.k0_pay18 vq vk) old (ix3 u v m)
      = min (old (ix3 u v m)) (⨅ r : Fin 512, sqd (fun k => vq (ix3 (0 : Fin 1) k r)) (fun k => vk (ix3 (0 : Fin 1) k m))) :=
  colPay_3 vq vk old u v m

theorem rowPay_2 (vq : Vec Ideal S1x3x512 .f32) (vk : Vec Ideal S1x3x1024 .f32) (old : Vec Ideal S1x1x512 .f32)
    (u v : Fin 1) (r : Fin 512) :
    Gen.k0_pay24 (Gen.k0_pay22 vq) vk old (ix3 u v r)
      = min (old (ix3 u v r)) (⨅ m : Fin 1024, sqd (fun k => vq (ix3 (0 : Fin 1) k r)) (fun k => vk (ix3 (0 : Fin 1) k m))) :=
  rowPay_3 vq vk old u v r

theorem colPay_2 (vq : Vec Ideal S1x3x512 .f32) (vk : Vec Ideal S1x3x1024 .f32) (old : Vec Ideal S1x1x1024 .f32)
    (u v : Fin 1) (m : Fin 1024) :
    Gen.k0_pay26 (Gen.k0_pay25 (Gen.k0_pay22 vq) vk) old (ix3 u v m)
      = min (old (ix3 u v m)) (⨅ r : Fin 512, sqd (fun k => vq (ix3 (0 : Fin 1) k r)) (fun k => vk (ix3 (0 : Fin 1) k m))) :=
  colPay_3 vq vk old u v m

theorem pay3_apply (s : Vec Ideal S4x1x512 .f32) (b : Fin 4) (r : Fin 512) :
    Gen.k0_pay3 s (ix2 b r) = s (ix3 b (0 : Fin 1) r) := by
  unfold Gen.k0_pay3
  exact shapeCast_apply s _ (ix2 b r) (ix3 b (0 : Fin 1) r) (by
    rw [Shape.rowMajor_val_three, Shape.rowMajor_val_two]
    show (b.val * 1 + 0) * 512 + r.val = b.val * 512 + r.val
    omega)

theorem pay4_apply (s : Vec Ideal S4x1x8192 .f32) (u : Fin 1) (b : Fin 4) (m : Fin 8192) :
    Gen.k0_pay4 s (ix3 u b m) = s (ix3 b (0 : Fin 1) m) := by
  unfold Gen.k0_pay4
  simp only [shapeCast_ab_1ab_apply]
  exact shapeCast_apply s _ (ix2 b m) (ix3 b (0 : Fin 1) m) (by
    rw [Shape.rowMajor_val_three, Shape.rowMajor_val_two]
    show (b.val * 1 + 0) * 8192 + m.val = b.val * 8192 + m.val
    omega)

theorem pay5_eq : Gen.k0_pay5 (F := Ideal) = fun _ => (⊤ : EReal) := by
  unfold Gen.k0_pay5
  simp only [shapeCast_self, scalar_inf]; rfl

theorem pay6_eq : Gen.k0_pay6 (F := Ideal) = fun _ => (⊤ : EReal) := by
  unfold Gen.k0_pay6
  simp only [shapeCast_self, scalar_inf]; rfl

end Cert.KernelIdeal.Hand

end
-- ==== Proof.KernelIdeal.R0PiecesBase.lean ====
import proofs.«427145_j9268539424872_3_alg».proof.Proof.KernelIdeal.R0Frame
import proofs.«427145_j9268539424872_3_alg».proof.Proof.KernelIdeal.R0Step
import proofs.«427145_j9268539424872_3_alg».proof.Proof.KernelIdeal.R0Payloads
import Idealize.ShloMosaic.Lib.WritesUnit

noncomputable section

namespace Cert.KernelIdeal.Hand

open Idealize.ShloMosaic Idealize.ShloMosaic.ValueIdx
open Cert.KernelIdeal Cert.KernelIdeal.Gen Cert.Hand.Spec

theorem pos_row {n0 n1 n2 : ℕ} (b : Fin n0) (k : Fin n1) (r : Fin n2) (a : Fin 3) :
    ((ix3 b k r : (⟨3, ![n0, n1, n2]⟩ : Shape).Idx) a).val
      = (![b.val, 0, 0] : Fin 3 → ℕ) a + ((ix3 (0 : Fin 1) k r : (⟨3, ![1, n1, n2]⟩ : Shape).Idx) a).val := by
  match a with
  | ⟨0, _⟩ => rfl
  | ⟨1, _⟩ => exact (Nat.zero_add _).symm
  | ⟨2, _⟩ => exact (Nat.zero_add _).symm

private theorem fin4_none : ∀ b : Fin 4, b ≠ 3 → b ≠ 2 → b ≠ 1 → b ≠ 0 → False := by decide

section Struct

variable {sig' : RefSig} {κ : Kind} {sp : Space}

-- The newest store is row b, columns o … o + W - 1: column n = o + m of row c reads it when c = b, else what the rest left.
private theorem read_step {N W : ℕ} (v : View sig' κ sp ⟨3, ![4, 1, N]⟩ .f32) (f : v.ty.Contents (Elt Ideal)) (b : Fin 4) (o : ℕ)
    (off : Fin 3 → ℕ) (heq : off = ![b.val, 0, o])
    (inb : ∀ a, off a + (![1, 1, W] : Fin 3 → ℕ) a ≤ (⟨3, ![4, 1, N]⟩ : Shape).size a)
    (w : (Rect.unit (s := ⟨3, ![4, 1, N]⟩) off ![1, 1, W] inb).shape.Idx → Elt Ideal .f32)
    (L : List (View.Piece (Elt Ideal) ⟨3, ![4, 1, N]⟩ .f32)) (G : (⟨3, ![4, 1, N]⟩ : Shape).Idx → EReal)
    (c : Fin 4) (n : Fin N) (m : Fin W) (hnm : n.val = o + m.val)
    (h : w (ix3 0 0 m) = G (ix3 b 0 n))
    (hL : c ≠ b → v.read (Elt Ideal) (v.writes (Elt Ideal) f L) (ix3 c 0 n) = G (ix3 c 0 n)) :
    v.read (Elt Ideal) (v.writes (Elt Ideal) f (⟨Rect.unit off ![1, 1, W] inb, w⟩ :: L)) (ix3 c 0 n)
      = G (ix3 c 0 n) := by
  by_cases hb : c = b
  · subst hb
    exact (View.read_writes_cons_unit_of_mem v f inb w L _ (ix3 0 0 m) heq fun a => by
      match a with
      | ⟨0, _⟩ => rfl
      | ⟨1, _⟩ => rfl
      | ⟨2, _⟩ => exact hnm).trans h
  · exact (View.read_writes_cons_unit_of_not_mem v f inb w L _ heq 0
      (Nat.lt_or_gt_of_ne (Fin.val_ne_of_ne hb))).trans (hL hb)

end Struct

section Row

variable {sig' : RefSig} {κ : Kind} {sp : Space} (v : View sig' κ sp S4x1x512 .f32) (f : v.ty.Contents (Elt Ideal))

theorem read_row_miss (b' : ℕ)
    (inb : ∀ a, (![b', 0, 0] : Fin 3 → ℕ) a + (![1, 1, 512] : Fin 3 → ℕ) a ≤ S4x1x512.size a)
    (w : (Rect.unit (s := S4x1x512) ![b', 0, 0] ![1, 1, 512] inb).shape.Idx → Elt Ideal .f32)
    (L : List (View.Piece (Elt Ideal) S4x1x512 .f32)) (y : S4x1x512.Idx) (h : (y 0).val ≠ b') :
    v.read (Elt Ideal) (v.writes (Elt Ideal) f ((⟨Rect.unit ![b', 0, 0] ![1, 1, 512] inb, w⟩ : View.Piece (Elt Ideal) S4x1x512 .f32) :: L)) y
      = v.read (Elt Ideal) (v.writes (Elt Ideal) f L) y :=
  View.read_writes_cons_unit_of_not_mem v f inb w L y rfl 0 (Nat.lt_or_gt_of_ne h)

theorem read_rows4
    (L0 : List (View.Piece (Elt Ideal) S4x1x512 .f32)) (inb0 inb1 inb2 inb3)
    (w0 : (Rect.unit (s := S4x1x512) ![0, 0, 0] ![1, 1, 512] inb0).shape.Idx → Elt Ideal .f32)
    (w1 : (Rect.unit (s := S4x1x512) ![1, 0, 0] ![1, 1, 512] inb1).shape.Idx → Elt Ideal .f32)
    (w2 : (Rect.unit (s := S4x1x512) ![2, 0, 0] ![1, 1, 512] inb2).shape.Idx → Elt Ideal .f32)
    (w3 : (Rect.unit (s := S4x1x512) ![3, 0, 0] ![1, 1, 512] inb3).shape.Idx → Elt Ideal .f32)
    (G : S4x1x512.Idx → EReal)
    (h0 : ∀ r : Fin 512, w0 (ix3 (0 : Fin 1) (0 : Fin 1) r) = G (ix3 (0 : Fin 4) (0 : Fin 1) r))
    (h1 : ∀ r : Fin 512, w1 (ix3 (0 : Fin 1) (0 : Fin 1) r) = G (ix3 (1 : Fin 4) (0 : Fin 1) r))
    (h2 : ∀ r : Fin 512, w2 (ix3 (0 : Fin 1) (0 : Fin 1) r) = G (ix3 (2 : Fin 4) (0 : Fin 1) r))
    (h3 : ∀ r : Fin 512, w3 (ix3 (0 : Fin 1) (0 : Fin 1) r) = G (ix3 (3 : Fin 4) (0 : Fin 1) r))
    (y : S4x1x512.Idx) :
    v.read (Elt Ideal) (v.writes (Elt Ideal) f
      ((⟨Rect.unit ![3, 0, 0] ![1, 1, 512] inb3, w3⟩ : View.Piece (Elt Ideal) S4x1x512 .f32)
        :: (⟨Rect.unit ![2, 0, 0] ![1, 1, 512] inb2, w2⟩ : View.Piece (Elt Ideal) S4x1x512 .f32)
        :: (⟨Rect.unit ![1, 0, 0] ![1, 1, 512] inb1, w1⟩ : View.Piece (Elt Ideal) S4x1x512 .f32)
        :: (⟨Rect.unit ![0, 0, 0] ![1, 1, 512] inb0, w0⟩ : View.Piece (Elt Ideal) S4x1x512 .f32) :: L0)) y = G y := by
  obtain ⟨b, k, r, rfl⟩ : ∃ (b : Fin 4) (k : Fin 1) (r : Fin 512), y = ix3 b k r := ⟨y 0, y 1, y 2, eq_ix3 y⟩
  obtain rfl : k = 0 := Subsingleton.elim _ _
  have e := (Nat.zero_add r.val).symm
  exact read_step v f 3 0 _ rfl inb3 w3 _ G b r r e (h3 r) fun n3 =>
    read_step v f 2 0 _ rfl inb2 w2 _ G b r r e (h2 r) fun n2 =>
    read_step v f 1 0 _ rfl inb1 w1 _ G b r r e (h1 r) fun n1 =>
    read_step v f 0 0 _ rfl inb0 w0 L0 G b r r e (h0 r) fun n0 => (fin4_none b n3 n2 n1 n0).elim

end Row

section Col

variable {sig' : RefSig} {κ : Kind} {sp : Space} (v : View sig' κ sp S4x1x8192 .f32) (f : v.ty.Contents (Elt Ideal))

theorem read_col_miss0 (b' j : ℕ)
    (off : Fin 3 → ℕ) (heq : off = ![b', 0, 1024 * j])
    (inb : ∀ a, off a + (![1, 1, 1024] : Fin 3 → ℕ) a ≤ S4x1x8192.size a)
    (w : (Rect.unit (s := S4x1x8192) off ![1, 1, 1024] inb).shape.Idx → Elt Ideal .f32)
    (L : List (View.Piece (Elt Ideal) S4x1x8192 .f32)) (y : S4x1x8192.Idx) (h : (y 0).val ≠ b') :
    v.read (Elt Ideal) (v.writes (Elt Ideal) f ((⟨Rect.unit off ![1, 1, 1024] inb, w⟩ : View.Piece (Elt Ideal) S4x1x8192 .f32) :: L)) y
      = v.read (Elt Ideal) (v.writes (Elt Ideal) f L) y :=
  View.read_writes_cons_unit_of_not_mem v f inb w L y heq 0 (Nat.lt_or_gt_of_ne h)

theorem read_cols4
    (L0 : List (View.Piece (Elt Ideal) S4x1x8192 .f32)) (j : ℕ)
    (off0 off1 off2 off3 : Fin 3 → ℕ) (e0 : off0 = ![0, 0, 1024 * j]) (e1 : off1 = ![1, 0, 1024 * j])
    (e2 : off2 = ![2, 0, 1024 * j]) (e3 : off3 = ![3, 0, 1024 * j]) (inb0 inb1 inb2 inb3)
    (w0 : (Rect.unit (s := S4x1x8192) off0 ![1, 1, 1024] inb0).shape.Idx → Elt Ideal .f32)
    (w1 : (Rect.unit (s := S4x1x8192) off1 ![1, 1, 1024] inb1).shape.Idx → Elt Ideal .f32)
    (w2 : (Rect.unit (s := S4x1x8192) off2 ![1, 1, 1024] inb2).shape.Idx → Elt Ideal .f32)
    (w3 : (Rect.unit (s := S4x1x8192) off3 ![1, 1, 1024] inb3).shape.Idx → Elt Ideal .f32)
    (G : S4x1x8192.Idx → EReal)
    (h0 : ∀ (m : Fin 1024) (hlt : 1024 * j + m.val < 8192), w0 (ix3 (0 : Fin 1) (0 : Fin 1) m) = G (ix3 (0 : Fin 4) (0 : Fin 1) (⟨1024 * j + m.val, hlt⟩ : Fin 8192)))
    (h1 : ∀ (m : Fin 1024) (hlt : 1024 * j + m.val < 8192), w1 (ix3 (0 : Fin 1) (0 : Fin 1) m) = G (ix3 (1 : Fin 4) (0 : Fin 1) (⟨1024 * j + m.val, hlt⟩ : Fin 8192)))
    (h2 : ∀ (m : Fin 1024) (hlt : 1024 * j + m.val < 8192), w2 (ix3 (0 : Fin 1) (0 : Fin 1) m) = G (ix3 (2 : Fin 4) (0 : Fin 1) (⟨1024 * j + m.val, hlt⟩ : Fin 8192)))
    (h3 : ∀ (m : Fin 1024) (hlt : 1024 * j + m.val < 8192), w3 (ix3 (0 : Fin 1) (0 : Fin 1) m) = G (ix3 (3 : Fin 4) (0 : Fin 1) (⟨1024 * j + m.val, hlt⟩ : Fin 8192)))
    (hout : ∀ y : S4x1x8192.Idx, ¬(1024 * j ≤ (y 2).val ∧ (y 2).val < 1024 * j + 1024) →
      v.read (Elt Ideal) (v.writes (Elt Ideal) f L0) y = G y)
    (y : S4x1x8192.Idx) :
    v.read (Elt Ideal) (v.writes (Elt Ideal) f
      ((⟨Rect.unit off3 ![1, 1, 1024] inb3, w3⟩ : View.Piece (Elt Ideal) S4x1x8192 .f32)
        :: (⟨Rect.unit off2 ![1, 1, 1024] inb2, w2⟩ : View.Piece (Elt Ideal) S4x1x8192 .f32)
        :: (⟨Rect.unit off1 ![1, 1, 1024] inb1, w1⟩ : View.Piece (Elt Ideal) S4x1x8192 .f32)
        :: (⟨Rect.unit off0 ![1, 1, 1024] inb0, w0⟩ : View.Piece (Elt Ideal) S4x1x8192 .f32) :: L0)) y = G y := by
  by_cases hr : 1024 * j ≤ (y 2).val ∧ (y 2).val < 1024 * j + 1024
  · obtain ⟨b, k, n, rfl⟩ : ∃ (b : Fin 4) (k : Fin 1) (n : Fin 8192), y = ix3 b k n := ⟨y 0, y 1, y 2, eq_ix3 y⟩
    obtain rfl : k = 0 := Subsingleton.elim _ _
    have hr' : 1024 * j ≤ n.val ∧ n.val < 1024 * j + 1024 := hr
    obtain ⟨m, hm⟩ : ∃ m : Fin 1024, n.val = 1024 * j + m.val := ⟨⟨n.val - 1024 * j, by omega⟩, by
      show n.val = 1024 * j + (n.val - 1024 * j); omega⟩
    have hlt : 1024 * j + m.val < 8192 := hm ▸ n.isLt
    obtain rfl : n = ⟨1024 * j + m.val, hlt⟩ := Fin.ext hm
    exact read_step v f 3 _ off3 e3 inb3 w3 _ G b _ m rfl (h3 m hlt) fun n3 =>
      read_step v f 2 _ off2 e2 inb2 w2 _ G b _ m rfl (h2 m hlt) fun n2 =>
      read_step v f 1 _ off1 e1 inb1 w1 _ G b _ m rfl (h1 m hlt) fun n1 =>
      read_step v f 0 _ off0 e0 inb0 w0 L0 G b _ m rfl (h0 m hlt) fun n0 => (fin4_none b n3 n2 n1 n0).elim
  · have hr' : (y 2).val < 1024 * j ∨ 1024 * j + 1024 ≤ (y 2).val := by omega
    rw [View.read_writes_cons_unit_of_not_mem v f inb3 w3 _ y e3 2 hr', View.read_writes_cons_unit_of_not_mem v f inb2 w2 _ y e2 2 hr',
      View.read_writes_cons_unit_of_not_mem v f inb1 w1 _ y e1 2 hr', View.read_writes_cons_unit_of_not_mem v f inb0 w0 _ y e0 2 hr']
    exact hout y hr

end Col

theorem ld_unit3 {n0 n1 n2 : ℕ} (X : (⟨3, ![n0, n1, n2]⟩ : Shape).Idx → EReal) (off size : Fin 3 → ℕ)
    (inb : ∀ a, off a + size a ≤ (⟨3, ![n0, n1, n2]⟩ : Shape).size a)
    (x : (Rect.unit (s := (⟨3, ![n0, n1, n2]⟩ : Shape)) off size inb).shape.Idx) (y : (⟨3, ![n0, n1, n2]⟩ : Shape).Idx)
    (h : ∀ a, (y a).val = off a + (x a).val) :
    View.ld (Val := Elt Ideal) (e' := .f32) X (Rect.unit (s := (⟨3, ![n0, n1, n2]⟩ : Shape)) off size inb) x = X y :=
  congrArg X (funext fun a => Fin.ext (by
    show off a + 1 * (x a).val = (y a).val
    rw [Nat.one_mul, h a]))

theorem readAt_unread3 {n0 n1 n2 : ℕ} (M : Memref sig .tc .vmem (⟨3, ![n0, n1, n2]⟩ : Shape) .f32) (h : M.IsWhole)
    (X : (⟨3, ![n0, n1, n2]⟩ : Shape).Idx → EReal) (off size : Fin 3 → ℕ)
    (inb : ∀ a, off a + size a ≤ (⟨3, ![n0, n1, n2]⟩ : Shape).size a)
    (x : (Rect.unit (s := (⟨3, ![n0, n1, n2]⟩ : Shape)) off size inb).shape.Idx) (y : (⟨3, ![n0, n1, n2]⟩ : Shape).Idx)
    (hy : ∀ a, (y a).val = off a + (x a).val) :
    View.readAt (Elt Ideal) M.view (Rect.unit (s := (⟨3, ![n0, n1, n2]⟩ : Shape)) off size inb).toLoadRect (h.unread X) x = X y := by
  rw [View.readAt_eq_ld, h.read_unread]
  exact ld_unit3 X off size inb x y hy

theorem rowPiece_eq (x0 : Vec Ideal S4x3x512 .f32) (x1 : Vec Ideal S4x3x1024 .f32) (b : Fin 4)
    (vq : Vec Ideal S1x3x512 .f32) (vk : Vec Ideal S1x3x1024 .f32) (old : Vec Ideal S1x1x512 .f32)
    (base : Vec Ideal S4x1x512 .f32)
    (hq : ∀ (k : Fin 3) (r : Fin 512), vq (ix3 (0 : Fin 1) k r) = x0 (ix3 b k r))
    (hk : ∀ (k : Fin 3) (m : Fin 1024), vk (ix3 (0 : Fin 1) k m) = x1 (ix3 b k m))
    (ho : ∀ r : Fin 512, old (ix3 (0 : Fin 1) (0 : Fin 1) r) = base (ix3 b (0 : Fin 1) r)) (r : Fin 512) :
    min (old (ix3 (0 : Fin 1) (0 : Fin 1) r))
        (⨅ m : Fin 1024, sqd (fun k => vq (ix3 (0 : Fin 1) k r)) (fun k => vk (ix3 (0 : Fin 1) k m)))
      = rowStep x0 x1 base (ix3 b (0 : Fin 1) r) := by
  unfold rowStep dtile
  rw [ho r]
  exact congrArg (min _) (iInf_congr fun m => congrArg₂ sqd (funext fun k => hq k r) (funext fun k => hk k m))

theorem colPiece_eq (x0 : Vec Ideal S4x3x512 .f32) (x1 : Vec Ideal S4x3x1024 .f32) (b : Fin 4) (j : ℕ)
    (vq : Vec Ideal S1x3x512 .f32) (vk : Vec Ideal S1x3x1024 .f32) (old : Vec Ideal S1x1x1024 .f32)
    (base : Vec Ideal S4x1x8192 .f32)
    (hq : ∀ (k : Fin 3) (r : Fin 512), vq (ix3 (0 : Fin 1) k r) = x0 (ix3 b k r))
    (hk : ∀ (k : Fin 3) (m : Fin 1024), vk (ix3 (0 : Fin 1) k m) = x1 (ix3 b k m))
    (m : Fin 1024) (hlt : 1024 * j + m.val < 8192)
    (ho : old (ix3 (0 : Fin 1) (0 : Fin 1) m) = base (ix3 b (0 : Fin 1) (⟨1024 * j + m.val, hlt⟩ : Fin 8192))) :
    min (old (ix3 (0 : Fin 1) (0 : Fin 1) m))
        (⨅ r : Fin 512, sqd (fun k => vq (ix3 (0 : Fin 1) k r)) (fun k => vk (ix3 (0 : Fin 1) k m)))
      = colStep j x0 x1 base (ix3 b (0 : Fin 1) (⟨1024 * j + m.val, hlt⟩ : Fin 8192)) := by
  unfold colStep dtile
  rw [dif_pos (show 1024 * j ≤ 1024 * j + m.val ∧ 1024 * j + m.val < 1024 * j + 1024 from
    ⟨Nat.le_add_right _ _, Nat.add_lt_add_left m.isLt _⟩), ho]
  exact congrArg (min _) (iInf_congr fun r => congrArg₂ sqd (funext fun k => hq k r) (funext fun k =>
    (hk k m).trans (congrArg x1 (congrArg (ix3 b k) (Fin.ext (Nat.add_sub_cancel_left (n := 1024 * j) (m := m.val)).symm)))))

theorem colStep_out (j : ℕ) (x0 : Vec Ideal S4x3x512 .f32) (x1 : Vec Ideal S4x3x1024 .f32) (base : Vec Ideal S4x1x8192 .f32)
    (y : S4x1x8192.Idx) (h : ¬(1024 * j ≤ (y 2).val ∧ (y 2).val < 1024 * j + 1024)) : colStep j x0 x1 base y = base y := by
  unfold colStep; rw [dif_neg h]

theorem coord2_eq : ∀ t : Fin cfg0.N, ((grid0.coords t) 2).val = t.val % 8 :=
  (by decide +kernel : ∀ t : Fin grid0.N, ((grid0.coords t) 2).val = t.val % 8)

theorem off1_at (t : Fin cfg0.N) : k0_off1 (grid0.coords t) = ![0, 0, 1024 * (t.val % 8)] := by rw [k0_off1_eq, coord2_eq]
theorem off2_at (t : Fin cfg0.N) : k0_off2 (grid0.coords t) = ![1, 0, 1024 * (t.val % 8)] := by rw [k0_off2_eq, coord2_eq]
theorem off3_at (t : Fin cfg0.N) : k0_off3 (grid0.coords t) = ![2, 0, 1024 * (t.val % 8)] := by rw [k0_off3_eq, coord2_eq]
theorem off4_at (t : Fin cfg0.N) : k0_off4 (grid0.coords t) = ![3, 0, 1024 * (t.val % 8)] := by rw [k0_off4_eq, coord2_eq]

theorem pos_col_at (b : Fin 4) (j : ℕ) (off : Fin 3 → ℕ) (he : off = ![b.val, 0, 1024 * j]) (m : Fin 1024)
    (hlt : 1024 * j + m.val < 8192) (a : Fin 3) :
    ((ix3 b (0 : Fin 1) (⟨1024 * j + m.val, hlt⟩ : Fin 8192) : S4x1x8192.Idx) a).val
      = off a + ((ix3 (0 : Fin 1) (0 : Fin 1) m : (⟨3, ![1, 1, 1024]⟩ : Shape).Idx) a).val := by
  subst he
  match a with
  | ⟨0, _⟩ => rfl
  | ⟨1, _⟩ => rfl
  | ⟨2, _⟩ => rfl

end Cert.KernelIdeal.Hand
end
-- ==== Proof.KernelIdeal.R0Pieces.lean ====
import proofs.«427145_j9268539424872_3_alg».proof.Proof.KernelIdeal.R0PiecesBase

noncomputable section

namespace Cert.KernelIdeal.Hand

open Idealize.ShloMosaic Idealize.ShloMosaic.TcCoe Idealize.ShloMosaic.ValueIdx Cert.KernelIdeal Cert.KernelIdeal.Gen Cert.Hand.Spec

section
variable {V : (c : Dev nD) → (b : Ref sig .tc) → Buf (Elt Ideal) ((c : Thread nD τ).loc b)}

/-- Batch `b`'s row store at a query: the old value against the row minimum of the batch's tile is `rowStep` there. -/
private theorem rowArm {c : Dev nD} {t : Fin cfg0.N} {p0 : Vec Ideal S4x1x512 .f32} (b : Fin 4) {iq ik io} {r : Fin 512} :
    min (View.readAt (Elt Ideal) VS0_0 (Rect.unit (s := S4x1x512) ![b.val, 0, 0] ![1, 1, 512] io).toLoadRect
        ((Memref.isWhole_whole _ : scM0_0.IsWhole).unread p0) (ix3 (0 : Fin 1) (0 : Fin 1) r))
      (⨅ m : Fin 1024, sqd
        (fun k => View.readAt (Elt Ideal) (ms0_0 t).view (Rect.unit (s := S4x3x512) ![b.val, 0, 0] ![1, 3, 512] iq).toLoadRect
          ((hs0_0 t).unread (iblk0 V c 0 t)) (ix3 (0 : Fin 1) k r))
        fun k => View.readAt (Elt Ideal) (ms0_1 t).view (Rect.unit (s := S4x3x1024) ![b.val, 0, 0] ![1, 3, 1024] ik).toLoadRect
          ((hs0_1 t).unread (iblk0 V c 1 t)) (ix3 (0 : Fin 1) k m))
      = rowStep (iblk0 V c 0 t) (iblk0 V c 1 t) p0 (ix3 b 0 r) :=
  rowPiece_eq _ _ b _ _ _ p0 (fun k r => readAt_unread3 _ (hs0_0 t) _ _ _ _ _ _ (pos_row b k r))
    (fun k m => readAt_unread3 _ (hs0_1 t) _ _ _ _ _ _ (pos_row b k m))
    (fun r => readAt_unread3 scM0_0 (Memref.isWhole_whole _) _ _ _ _ _ _ (pos_row b 0 r)) r

/-- Batch `b`'s column-slice store at a target of the slice: the old value against the column minimum is `colStep` there. -/
private theorem colArm {c : Dev nD} {t : Fin cfg0.N} {p1 : Vec Ideal S4x1x8192 .f32} (b : Fin 4) {off}
    (he : off = ![b.val, 0, 1024 * (t.val % 8)]) {iq ik io} {m : Fin 1024} {hlt : 1024 * (t.val % 8) + m.val < 8192} :
    min (View.readAt (Elt Ideal) VS0_1 (Rect.unit (s := S4x1x8192) off ![1, 1, 1024] io).toLoadRect
        ((Memref.isWhole_whole _ : scM0_1.IsWhole).unread p1) (ix3 (0 : Fin 1) (0 : Fin 1) m))
      (⨅ r : Fin 512, sqd
        (fun k => View.readAt (Elt Ideal) (ms0_0 t).view (Rect.unit (s := S4x3x512) ![b.val, 0, 0] ![1, 3, 512] iq).toLoadRect
          ((hs0_0 t).unread (iblk0 V c 0 t)) (ix3 (0 : Fin 1) k r))
        fun k => View.readAt (Elt Ideal) (ms0_1 t).view (Rect.unit (s := S4x3x1024) ![b.val, 0, 0] ![1, 3, 1024] ik).toLoadRect
          ((hs0_1 t).unread (iblk0 V c 1 t)) (ix3 (0 : Fin 1) k m))
      = colStep (t.val % 8) (iblk0 V c 0 t) (iblk0 V c 1 t) p1 (ix3 b 0 ⟨1024 * (t.val % 8) + m.val, hlt⟩) :=
  colPiece_eq _ _ b _ _ _ _ p1 (fun k r => readAt_unread3 _ (hs0_0 t) _ _ _ _ _ _ (pos_row b k r))
    (fun k m => readAt_unread3 _ (hs0_1 t) _ _ _ _ _ _ (pos_row b k m)) m hlt
    (readAt_unread3 scM0_1 (Memref.isWhole_whole _) _ _ _ _ _ _ (pos_col_at b _ _ he m hlt))

variable (V)

theorem tupC_s0 (c : Dev nD) (t : Fin cfg0.N) (h0 : ¬t.val % 8 = 0) (h2 : ¬t.val % 8 = 7) (p0 : Vec Ideal S4x1x512 .f32) (p1 : Vec Ideal S4x1x8192 .f32) :
    (tupC V c t h0 h2 p0 p1).2.2.1 = rowStep (iblk0 V c 0 t) (iblk0 V c 1 t) p0 := by
  funext y
  unfold tupC cbS0 run0_C kernelRun0_C
  dsimp only
  refine read_rows4 VS0_0 _ [] _ _ _ _ _ _ _ _ _ ?_ ?_ ?_ ?_ y <;> intro r
  exacts [(rowPay_0 _ _ _ 0 0 r).trans (rowArm 0), (rowPay_1 _ _ _ 0 0 r).trans (rowArm 1),
    (rowPay_2 _ _ _ 0 0 r).trans (rowArm 2), (rowPay_3 _ _ _ 0 0 r).trans (rowArm 3)]

theorem tupC_s1 (c : Dev nD) (t : Fin cfg0.N) (h0 : ¬t.val % 8 = 0) (h2 : ¬t.val % 8 = 7) (p0 : Vec Ideal S4x1x512 .f32) (p1 : Vec Ideal S4x1x8192 .f32) :
    (tupC V c t h0 h2 p0 p1).2.2.2 = colStep (t.val % 8) (iblk0 V c 0 t) (iblk0 V c 1 t) p1 := by
  funext y
  unfold tupC cbS1 run0_C kernelRun0_C
  dsimp only
  refine read_cols4 VS0_1 _ [] _ _ _ _ _ (off1_at t) (off2_at t) (off3_at t) (off4_at t) _ _ _ _ _ _ _ _ _ ?_ ?_ ?_ ?_ ?_ y
  · exact fun m _ => (colPay_0 _ _ _ 0 0 m).trans (colArm 0 (off1_at t))
  · exact fun m _ => (colPay_1 _ _ _ 0 0 m).trans (colArm 1 (off2_at t))
  · exact fun m _ => (colPay_2 _ _ _ 0 0 m).trans (colArm 2 (off3_at t))
  · exact fun m _ => (colPay_3 _ _ _ 0 0 m).trans (colArm 3 (off4_at t))
  · exact fun y hy => (congrFun ((Memref.isWhole_whole _ : scM0_1.IsWhole).read_unread p1) y).trans (colStep_out _ _ _ _ y hy).symm

theorem tupD_s0 (c : Dev nD) (t : Fin cfg0.N) (h2 : t.val % 8 = 7) (h3 : ¬t.val % 64 = 63) (p0 : Vec Ideal S4x1x512 .f32) (p1 : Vec Ideal S4x1x8192 .f32) :
    (tupD V c t h2 h3 p0 p1).2.2.1 = rowStep (iblk0 V c 0 t) (iblk0 V c 1 t) p0 := by
  funext y
  unfold tupD cbS0 run0_D kernelRun0_D
  dsimp only
  refine read_rows4 VS0_0 _ [] _ _ _ _ _ _ _ _ _ ?_ ?_ ?_ ?_ y <;> intro r
  exacts [(rowPay_0 _ _ _ 0 0 r).trans (rowArm 0), (rowPay_1 _ _ _ 0 0 r).trans (rowArm 1),
    (rowPay_2 _ _ _ 0 0 r).trans (rowArm 2), (rowPay_3 _ _ _ 0 0 r).trans (rowArm 3)]

theorem tupD_s1 (c : Dev nD) (t : Fin cfg0.N) (h2 : t.val % 8 = 7) (h3 : ¬t.val % 64 = 63) (p0 : Vec Ideal S4x1x512 .f32) (p1 : Vec Ideal S4x1x8192 .f32) :
    (tupD V c t h2 h3 p0 p1).2.2.2 = colStep (t.val % 8) (iblk0 V c 0 t) (iblk0 V c 1 t) p1 := by
  funext y
  unfold tupD cbS1 run0_D kernelRun0_D
  dsimp only
  refine read_cols4 VS0_1 _ [] _ _ _ _ _ (off1_at t) (off2_at t) (off3_at t) (off4_at t) _ _ _ _ _ _ _ _ _ ?_ ?_ ?_ ?_ ?_ y
  · exact fun m _ => (colPay_0 _ _ _ 0 0 m).trans (colArm 0 (off1_at t))
  · exact fun m _ => (colPay_1 _ _ _ 0 0 m).trans (colArm 1 (off2_at t))
  · exact fun m _ => (colPay_2 _ _ _ 0 0 m).trans (colArm 2 (off3_at t))
  · exact fun m _ => (colPay_3 _ _ _ 0 0 m).trans (colArm 3 (off4_at t))
  · exact fun y hy => (congrFun ((Memref.isWhole_whole _ : scM0_1.IsWhole).read_unread p1) y).trans (colStep_out _ _ _ _ y hy).symm

theorem tupE_s0 (c : Dev nD) (t : Fin cfg0.N) (h3 : t.val % 64 = 63) (p0 : Vec Ideal S4x1x512 .f32) (p1 : Vec Ideal S4x1x8192 .f32) :
    (tupE V c t h3 p0 p1).2.2.1 = rowStep (iblk0 V c 0 t) (iblk0 V c 1 t) p0 := by
  funext y
  unfold tupE cbS0 run0_E kernelRun0_E
  dsimp only
  refine read_rows4 VS0_0 _ [] _ _ _ _ _ _ _ _ _ ?_ ?_ ?_ ?_ y <;> intro r
  exacts [(rowPay_0 _ _ _ 0 0 r).trans (rowArm 0), (rowPay_1 _ _ _ 0 0 r).trans (rowArm 1),
    (rowPay_2 _ _ _ 0 0 r).trans (rowArm 2), (rowPay_3 _ _ _ 0 0 r).trans (rowArm 3)]

theorem tupE_s1 (c : Dev nD) (t : Fin cfg0.N) (h3 : t.val % 64 = 63) (p0 : Vec Ideal S4x1x512 .f32) (p1 : Vec Ideal S4x1x8192 .f32) :
    (tupE V c t h3 p0 p1).2.2.2 = colStep (t.val % 8) (iblk0 V c 0 t) (iblk0 V c 1 t) p1 := by
  funext y
  unfold tupE cbS1 run0_E kernelRun0_E
  dsimp only
  refine read_cols4 VS0_1 _ [] _ _ _ _ _ (off1_at t) (off2_at t) (off3_at t) (off4_at t) _ _ _ _ _ _ _ _ _ ?_ ?_ ?_ ?_ ?_ y
  · exact fun m _ => (colPay_0 _ _ _ 0 0 m).trans (colArm 0 (off1_at t))
  · exact fun m _ => (colPay_1 _ _ _ 0 0 m).trans (colArm 1 (off2_at t))
  · exact fun m _ => (colPay_2 _ _ _ 0 0 m).trans (colArm 2 (off3_at t))
  · exact fun m _ => (colPay_3 _ _ _ 0 0 m).trans (colArm 3 (off4_at t))
  · exact fun y hy => (congrFun ((Memref.isWhole_whole _ : scM0_1.IsWhole).read_unread p1) y).trans (colStep_out _ _ _ _ y hy).symm

end
end Cert.KernelIdeal.Hand
end
-- ==== Proof.KernelIdeal.R0PiecesOut.lean ====
import proofs.«427145_j9268539424872_3_alg».proof.Proof.KernelIdeal.R0Pieces

noncomputable section

namespace Cert.KernelIdeal.Hand

open Idealize.ShloMosaic Idealize.ShloMosaic.TcCoe Idealize.ShloMosaic.ValueIdx Cert.KernelIdeal Cert.KernelIdeal.Gen Cert.Hand.Spec

/-- One store of the whole row accumulator, its unit axis dropped, reads as `rowOutBlk` of what the stores `L` left. -/
private theorem out2_of {L : List (View.Piece (Elt Ideal) S4x1x512 .f32)} {i2 i3} :
    rb2 [⟨Rect.unit ![0, 0] S4x512.size i2, k0_pay3 (VS0_0.readCov L (Rect.unit ![0, 0, 0] S4x1x512.size i3).toLoadRect)⟩]
      = rowOutBlk (rbS0 L) := by
  funext y
  obtain ⟨b, r, rfl⟩ : ∃ (b : Fin 4) (r : Fin 512), y = ix2 b r := ⟨y 0, y 1, eq_ix2 y⟩
  exact (congrFun ((View.read_writes_junk_eq_canon VO0_2 _).trans (View.canon_unit_zero (by decide) i2 _)) _).trans
    ((pay3_apply _ b r).trans (congrFun (View.ld_unit_zero (by decide) i3 _) _))

section
variable {V : (c : Dev nD) → (b : Ref sig .tc) → Buf (Elt Ideal) ((c : Thread nD τ).loc b)}

/-- Batch `b`'s row store at a query: the old value against the row minimum of the batch's tile is `rowStep` there. -/
private theorem rowArmOut {c : Dev nD} {t : Fin cfg0.N} {p0 : Vec Ideal S4x1x512 .f32} (b : Fin 4) {iq ik io} {r : Fin 512} :
    min (View.readAt (Elt Ideal) VS0_0 (Rect.unit (s := S4x1x512) ![b.val, 0, 0] ![1, 1, 512] io).toLoadRect
        ((Memref.isWhole_whole _ : scM0_0.IsWhole).unread p0) (ix3 (0 : Fin 1) (0 : Fin 1) r))
      (⨅ m : Fin 1024, sqd
        (fun k => View.readAt (Elt Ideal) (ms0_0 t).view (Rect.unit (s := S4x3x512) ![b.val, 0, 0] ![1, 3, 512] iq).toLoadRect
          ((hs0_0 t).unread (iblk0 V c 0 t)) (ix3 (0 : Fin 1) k r))
        fun k => View.readAt (Elt Ideal) (ms0_1 t).view (Rect.unit (s := S4x3x1024) ![b.val, 0, 0] ![1, 3, 1024] ik).toLoadRect
          ((hs0_1 t).unread (iblk0 V c 1 t)) (ix3 (0 : Fin 1) k m))
      = rowStep (iblk0 V c 0 t) (iblk0 V c 1 t) p0 (ix3 b 0 r) :=
  rowPiece_eq _ _ b _ _ _ p0 (fun k r => readAt_unread3 _ (hs0_0 t) _ _ _ _ _ _ (pos_row b k r))
    (fun k m => readAt_unread3 _ (hs0_1 t) _ _ _ _ _ _ (pos_row b k m))
    (fun r => readAt_unread3 scM0_0 (Memref.isWhole_whole _) _ _ _ _ _ _ (pos_row b 0 r)) r

variable (V)

theorem tupD_o2 (c : Dev nD) (t : Fin cfg0.N) (h2 : t.val % 8 = 7) (h3 : ¬t.val % 64 = 63) (p0 : Vec Ideal S4x1x512 .f32) (p1 : Vec Ideal S4x1x8192 .f32) :
    (tupD V c t h2 h3 p0 p1).1 = rowOutBlk (rowStep (iblk0 V c 0 t) (iblk0 V c 1 t) p0) := by
  unfold tupD run0_D kernelRun0_D
  dsimp only
  refine out2_of.trans (congrArg rowOutBlk (funext fun y => ?_))
  refine read_rows4 VS0_0 _ [] _ _ _ _ _ _ _ _ _ ?_ ?_ ?_ ?_ y <;> intro r
  exacts [(rowPay_0 _ _ _ 0 0 r).trans (rowArmOut 0), (rowPay_1 _ _ _ 0 0 r).trans (rowArmOut 1),
    (rowPay_2 _ _ _ 0 0 r).trans (rowArmOut 2), (rowPay_3 _ _ _ 0 0 r).trans (rowArmOut 3)]

theorem tupE_o2 (c : Dev nD) (t : Fin cfg0.N) (h3 : t.val % 64 = 63) (p0 : Vec Ideal S4x1x512 .f32) (p1 : Vec Ideal S4x1x8192 .f32) :
    (tupE V c t h3 p0 p1).1 = rowOutBlk (rowStep (iblk0 V c 0 t) (iblk0 V c 1 t) p0) := by
  unfold tupE run0_E kernelRun0_E
  dsimp only
  refine out2_of.trans (congrArg rowOutBlk (funext fun y => ?_))
  refine read_rows4 VS0_0 _ [] _ _ _ _ _ _ _ _ _ ?_ ?_ ?_ ?_ y <;> intro r
  exacts [(rowPay_0 _ _ _ 0 0 r).trans (rowArmOut 0), (rowPay_1 _ _ _ 0 0 r).trans (rowArmOut 1),
    (rowPay_2 _ _ _ 0 0 r).trans (rowArmOut 2), (rowPay_3 _ _ _ 0 0 r).trans (rowArmOut 3)]

theorem tupE_o3 (c : Dev nD) (t : Fin cfg0.N) (h3 : t.val % 64 = 63) (p0 : Vec Ideal S4x1x512 .f32) (p1 : Vec Ideal S4x1x8192 .f32) :
    (tupE V c t h3 p0 p1).2.1 = colOutBlk (colStep (t.val % 8) (iblk0 V c 0 t) (iblk0 V c 1 t) p1) := by
  rw [← tupE_s1 V c t h3 p0 p1]
  funext y
  obtain ⟨u, b, n, rfl⟩ : ∃ (u : Fin 1) (b : Fin 4) (n : Fin 8192), y = ix3 u b n := ⟨y 0, y 1, y 2, eq_ix3 y⟩
  unfold tupE rb3 run0_E kernelRun0_E
  dsimp only
  exact (congrFun ((View.read_writes_junk_eq_canon VO0_3 _).trans (View.canon_unit_zero (by decide) _ _)) _).trans
    ((pay4_apply _ u b n).trans (congrFun (View.ld_unit_zero (by decide) _ _) _))

end
end Cert.KernelIdeal.Hand
end
-- ==== Proof.KernelIdeal.R0PiecesAB.lean ====
import proofs.«427145_j9268539424872_3_alg».proof.Proof.KernelIdeal.R0PiecesBase

noncomputable section

namespace Cert.KernelIdeal.Hand

open Idealize.ShloMosaic Idealize.ShloMosaic.TcCoe Idealize.ShloMosaic.ValueIdx Cert.KernelIdeal Cert.KernelIdeal.Gen Cert.Hand.Spec

/-- A store of `+∞` over the whole row accumulator reads `+∞` at every index. -/
theorem read_reset_row (inb) (y : S4x1x512.Idx) :
    rbS0 (F := Ideal) [⟨Rect.unit ![0, 0, 0] S4x1x512.size inb, k0_pay5 (F := Ideal)⟩] y = ⊤ :=
  (congrFun ((View.read_writes_junk_eq_canon VS0_0 _).trans (View.canon_unit_zero (by decide) inb _)) y).trans (congrFun pay5_eq y)

/-- The same for the column accumulator. -/
theorem read_reset_col (inb) (y : S4x1x8192.Idx) :
    rbS1 (F := Ideal) [⟨Rect.unit ![0, 0, 0] S4x1x8192.size inb, k0_pay6 (F := Ideal)⟩] y = ⊤ :=
  (congrFun ((View.read_writes_junk_eq_canon VS0_1 _).trans (View.canon_unit_zero (by decide) inb _)) y).trans (congrFun pay6_eq y)

/-- Along row `b`, a store into another row changes nothing: what read `+∞` still does. -/
private theorem top_cons {b : Fin 4} {r : Fin 512} {b' : ℕ} {inb w L} (h : b.val ≠ b') (hL : rbS0 (F := Ideal) L (ix3 b 0 r) = ⊤) :
    rbS0 (⟨Rect.unit ![b', 0, 0] ![1, 1, 512] inb, w⟩ :: L) (ix3 b 0 r) = ⊤ :=
  (read_row_miss VS0_0 _ b' inb w L _ h).trans hL

/-- The same in the column accumulator. -/
private theorem topc_cons {b : Fin 4} {n : Fin 8192} {b' j : ℕ} {off} (he : off = ![b', 0, 1024 * j]) {inb w L} (h : b.val ≠ b')
    (hL : rbS1 (F := Ideal) L (ix3 b 0 n) = ⊤) : rbS1 (⟨Rect.unit off ![1, 1, 1024] inb, w⟩ :: L) (ix3 b 0 n) = ⊤ :=
  (read_col_miss0 VS0_1 _ b' j off he inb w L _ h).trans hL

section
variable {V : (c : Dev nD) → (b : Ref sig .tc) → Buf (Elt Ideal) ((c : Thread nD τ).loc b)}

/-- Batch `b`'s row store when the stores before it read `+∞` along row `b`: the old value is `+∞`, so the store is `rowStep` from `topRow`. -/
private theorem rowArmTop {c : Dev nD} {t : Fin cfg0.N} (b : Fin 4) {L} (hL : ∀ r : Fin 512, rbS0 L (ix3 b 0 r) = (⊤ : EReal))
    {iq ik io} {r : Fin 512} :
    min (VS0_0.readCov L (Rect.unit (s := S4x1x512) ![b.val, 0, 0] ![1, 1, 512] io).toLoadRect (ix3 (0 : Fin 1) (0 : Fin 1) r))
      (⨅ m : Fin 1024, sqd
        (fun k => View.readAt (Elt Ideal) (ms0_0 t).view (Rect.unit (s := S4x3x512) ![b.val, 0, 0] ![1, 3, 512] iq).toLoadRect
          ((hs0_0 t).unread (iblk0 V c 0 t)) (ix3 (0 : Fin 1) k r))
        fun k => View.readAt (Elt Ideal) (ms0_1 t).view (Rect.unit (s := S4x3x1024) ![b.val, 0, 0] ![1, 3, 1024] ik).toLoadRect
          ((hs0_1 t).unread (iblk0 V c 1 t)) (ix3 (0 : Fin 1) k m))
      = rowStep (iblk0 V c 0 t) (iblk0 V c 1 t) topRow (ix3 b 0 r) :=
  rowPiece_eq _ _ b _ _ _ topRow (fun k r => readAt_unread3 _ (hs0_0 t) _ _ _ _ _ _ (pos_row b k r))
    (fun k m => readAt_unread3 _ (hs0_1 t) _ _ _ _ _ _ (pos_row b k m))
    (fun r => (ld_unit3 _ _ _ io _ _ (pos_row b 0 r)).trans (hL r)) r

/-- Batch `b`'s column-slice store over contents that read `base` along row `b`: `colStep` from `base` on the slice. -/
private theorem colArmAt {c : Dev nD} {t : Fin cfg0.N} (base : Vec Ideal S4x1x8192 .f32) (b : Fin 4) {off}
    (he : off = ![b.val, 0, 1024 * (t.val % 8)]) {f : VS0_1.ty.Contents (Elt Ideal)}
    (hf : ∀ n, VS0_1.read (Elt Ideal) f (ix3 b 0 n) = base (ix3 b 0 n)) {iq ik io} {m : Fin 1024} {hlt : 1024 * (t.val % 8) + m.val < 8192} :
    min (View.readAt (Elt Ideal) VS0_1 (Rect.unit (s := S4x1x8192) off ![1, 1, 1024] io).toLoadRect f (ix3 (0 : Fin 1) (0 : Fin 1) m))
      (⨅ r : Fin 512, sqd
        (fun k => View.readAt (Elt Ideal) (ms0_0 t).view (Rect.unit (s := S4x3x512) ![b.val, 0, 0] ![1, 3, 512] iq).toLoadRect
          ((hs0_0 t).unread (iblk0 V c 0 t)) (ix3 (0 : Fin 1) k r))
        fun k => View.readAt (Elt Ideal) (ms0_1 t).view (Rect.unit (s := S4x3x1024) ![b.val, 0, 0] ![1, 3, 1024] ik).toLoadRect
          ((hs0_1 t).unread (iblk0 V c 1 t)) (ix3 (0 : Fin 1) k m))
      = colStep (t.val % 8) (iblk0 V c 0 t) (iblk0 V c 1 t) base (ix3 b 0 ⟨1024 * (t.val % 8) + m.val, hlt⟩) :=
  colPiece_eq _ _ b _ _ _ _ base (fun k r => readAt_unread3 _ (hs0_0 t) _ _ _ _ _ _ (pos_row b k r))
    (fun k m => readAt_unread3 _ (hs0_1 t) _ _ _ _ _ _ (pos_row b k m)) m hlt
    ((ld_unit3 _ _ _ io _ _ (pos_col_at b _ off he m hlt)).trans (hf _))

variable (V)

theorem tupA_s0 (c : Dev nD) (t : Fin cfg0.N) (h1 : t.val % 64 = 0) :
    (tupA V c t h1).2.2.1 = rowStep (iblk0 V c 0 t) (iblk0 V c 1 t) topRow := by
  funext y
  unfold tupA rbS0 run0_A kernelRun0_A
  dsimp only
  refine read_rows4 VS0_0 _ _ _ _ _ _ _ _ _ _ _ ?_ ?_ ?_ ?_ y <;> intro r
  exacts [(rowPay_0 _ _ _ 0 0 r).trans (rowArmTop 0 fun _ => read_reset_row _ _),
    (rowPay_1 _ _ _ 0 0 r).trans (rowArmTop 1 fun _ => top_cons (by decide) (read_reset_row _ _)),
    (rowPay_2 _ _ _ 0 0 r).trans (rowArmTop 2 fun _ => top_cons (by decide) (top_cons (by decide) (read_reset_row _ _))),
    (rowPay_3 _ _ _ 0 0 r).trans (rowArmTop 3 fun _ => top_cons (by decide) (top_cons (by decide) (top_cons (by decide) (read_reset_row _ _))))]

theorem tupA_s1 (c : Dev nD) (t : Fin cfg0.N) (h1 : t.val % 64 = 0) :
    (tupA V c t h1).2.2.2 = colStep (t.val % 8) (iblk0 V c 0 t) (iblk0 V c 1 t) topCol := by
  funext y
  unfold tupA rbS1 run0_A kernelRun0_A
  dsimp only
  refine read_cols4 VS0_1 _ _ _ _ _ _ _ (off1_at t) (off2_at t) (off3_at t) (off4_at t) _ _ _ _ _ _ _ _ _ ?_ ?_ ?_ ?_ ?_ y
  · exact fun m _ => (colPay_0 _ _ _ 0 0 m).trans (colArmAt topCol 0 (off1_at t) fun _ => read_reset_col _ _)
  · exact fun m _ => (colPay_1 _ _ _ 0 0 m).trans (colArmAt topCol 1 (off2_at t) fun _ => topc_cons (off1_at t) (by decide) (read_reset_col _ _))
  · exact fun m _ => (colPay_2 _ _ _ 0 0 m).trans (colArmAt topCol 2 (off3_at t) fun _ =>
      topc_cons (off2_at t) (by decide) (topc_cons (off1_at t) (by decide) (read_reset_col _ _)))
  · exact fun m _ => (colPay_3 _ _ _ 0 0 m).trans (colArmAt topCol 3 (off4_at t) fun _ =>
      topc_cons (off3_at t) (by decide) (topc_cons (off2_at t) (by decide) (topc_cons (off1_at t) (by decide) (read_reset_col _ _))))
  · exact fun y hy => (read_reset_col _ y).trans (colStep_out _ _ _ topCol y hy).symm

theorem tupB_s0 (c : Dev nD) (t : Fin cfg0.N) (h1 : ¬t.val % 64 = 0) (h0 : t.val % 8 = 0) (p1 : Vec Ideal S4x1x8192 .f32) :
    (tupB V c t h1 h0 p1).2.2.1 = rowStep (iblk0 V c 0 t) (iblk0 V c 1 t) topRow := by
  funext y
  unfold tupB rbS0 run0_B kernelRun0_B
  dsimp only
  refine read_rows4 VS0_0 _ _ _ _ _ _ _ _ _ _ _ ?_ ?_ ?_ ?_ y <;> intro r
  exacts [(rowPay_0 _ _ _ 0 0 r).trans (rowArmTop 0 fun _ => read_reset_row _ _),
    (rowPay_1 _ _ _ 0 0 r).trans (rowArmTop 1 fun _ => top_cons (by decide) (read_reset_row _ _)),
    (rowPay_2 _ _ _ 0 0 r).trans (rowArmTop 2 fun _ => top_cons (by decide) (top_cons (by decide) (read_reset_row _ _))),
    (rowPay_3 _ _ _ 0 0 r).trans (rowArmTop 3 fun _ => top_cons (by decide) (top_cons (by decide) (top_cons (by decide) (read_reset_row _ _))))]

theorem tupB_s1 (c : Dev nD) (t : Fin cfg0.N) (h1 : ¬t.val % 64 = 0) (h0 : t.val % 8 = 0) (p1 : Vec Ideal S4x1x8192 .f32) :
    (tupB V c t h1 h0 p1).2.2.2 = colStep (t.val % 8) (iblk0 V c 0 t) (iblk0 V c 1 t) p1 := by
  have hp := congrFun ((Memref.isWhole_whole _ : scM0_1.IsWhole).read_unread p1)
  funext y
  unfold tupB cbS1 run0_B kernelRun0_B
  dsimp only
  refine read_cols4 VS0_1 _ [] _ _ _ _ _ (off1_at t) (off2_at t) (off3_at t) (off4_at t) _ _ _ _ _ _ _ _ _ ?_ ?_ ?_ ?_ ?_ y
  · exact fun m _ => (colPay_0 _ _ _ 0 0 m).trans (colArmAt p1 0 (off1_at t) fun _ => hp _)
  · exact fun m _ => (colPay_1 _ _ _ 0 0 m).trans (colArmAt p1 1 (off2_at t) fun _ => hp _)
  · exact fun m _ => (colPay_2 _ _ _ 0 0 m).trans (colArmAt p1 2 (off3_at t) fun _ => hp _)
  · exact fun m _ => (colPay_3 _ _ _ 0 0 m).trans (colArmAt p1 3 (off4_at t) fun _ => hp _)
  · exact fun y hy => (hp y).trans (colStep_out _ _ _ _ y hy).symm

end
end Cert.KernelIdeal.Hand
end
-- ==== Proof.KernelIdeal.R0Value.lean ====
import proofs.«427145_j9268539424872_3_alg».proof.Proof.KernelIdeal.R0Frame
import proofs.«427145_j9268539424872_3_alg».proof.Proof.KernelIdeal.R0Step
import proofs.«427145_j9268539424872_3_alg».proof.Proof.KernelIdeal.R0Out
import proofs.«427145_j9268539424872_3_alg».proof.Proof.KernelIdeal.R0Pieces
import proofs.«427145_j9268539424872_3_alg».proof.Proof.KernelIdeal.R0PiecesOut
import proofs.«427145_j9268539424872_3_alg».proof.Proof.KernelIdeal.R0PiecesAB

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Hand.Spec

-- The infimum of the first `N` entries of a sequence.
def pinf (g : ℕ → EReal) (N : ℕ) : EReal := ⨅ k : Fin N, g k.val

theorem pinf_zero (g : ℕ → EReal) : pinf g 0 = ⊤ := iInf_of_empty _

theorem pinf_add (g : ℕ → EReal) (n p : ℕ) : pinf g (n + p) = min (pinf g n) (pinf (fun k => g (n + k)) p) := by
  unfold pinf
  rw [← finSumFinEquiv.iInf_comp, iInf_sum]
  rfl

-- Point `n` of batch `b`; zero for `n` past the last point.
def ptN (A : Vec Ideal S4x3x8192 .f32) (b : Fin 4) (n : ℕ) : Fin 3 → EReal :=
  fun k => if h : n < 8192 then A (ix3 b k ⟨n, h⟩) else 0

section
variable (V : (c : Dev nD) → (b : Ref sig .tc) → Buf (Elt Ideal) ((c : Thread nD τ).loc b)) (c : Dev nD)

-- The squared distance of query `n` and target `m` of batch `b`.
def dV (b : Fin 4) (n m : ℕ) : EReal := sqd (ptN (V c main_v0) b n) (ptN (V c main_v1) b m)

theorem idx_facts0 : ∀ t : Fin cfg0.N, win0_0.index t (0 : Fin 3) = 0 ∧ win0_0.index t (1 : Fin 3) = 0 ∧ win0_0.index t (2 : Fin 3) = t.val / 8
    ∧ win0_1.index t (0 : Fin 3) = 0 ∧ win0_1.index t (1 : Fin 3) = 0 ∧ win0_1.index t (2 : Fin 3) = t.val % 8 :=
  (by decide +kernel : ∀ t : Fin grid0.N, _)

theorem dtile_iblk0 (t : Fin cfg0.N) (b : Fin 4) (r : Fin 512) (m : Fin 1024) :
    dtile (iblk0 V c 0 t) (iblk0 V c 1 t) b r m = dV V c b (512 * (t.val / 8) + r.val) (1024 * (t.val % 8) + m.val) := by
  have hN : t.val < 128 := t.isLt
  obtain ⟨e0, e1, e2, e3, e4, e5⟩ := idx_facts0 t
  refine congrArg₂ sqd (funext fun k => ?_) (funext fun k => ?_) <;> unfold ptN iblk0 <;> rw [dif_pos (by omega), View.read_apply]
  · refine congrArg (V c main_v0) (funext fun a => Fin.ext ?_)
    match a with
    | ⟨0, _⟩ => show win0_0.index t (0 : Fin 3) * 4 + 1 * b.val = b.val; omega
    | ⟨1, _⟩ => show win0_0.index t (1 : Fin 3) * 3 + 1 * k.val = k.val; omega
    | ⟨2, _⟩ => show win0_0.index t (2 : Fin 3) * 512 + 1 * r.val = 512 * (t.val / 8) + r.val; omega
  · refine congrArg (V c main_v1) (funext fun a => Fin.ext ?_)
    match a with
    | ⟨0, _⟩ => show win0_1.index t (0 : Fin 3) * 4 + 1 * b.val = b.val; omega
    | ⟨1, _⟩ => show win0_1.index t (1 : Fin 3) * 3 + 1 * k.val = k.val; omega
    | ⟨2, _⟩ => show win0_1.index t (2 : Fin 3) * 1024 + 1 * m.val = 1024 * (t.val % 8) + m.val; omega

-- Per query of row block `i`, the infimum over the first `N` targets.
def rowC (i N : ℕ) (y : S4x1x512.Idx) : EReal := pinf (dV V c (y 0) (512 * i + (y 2).val)) N

-- Per target, the infimum over the queries of half `h` whose row blocks the first `s` points of the half pair with the target's block.
def colC (h s : ℕ) (y : S4x1x8192.Idx) : EReal :=
  pinf (fun q => dV V c (y 0) (4096 * h + q) (y 2).val) (512 * ((s + 7 - (y 2).val / 1024) / 8))

theorem rowStep_closed (n : ℕ) (hn : n < cfg0.N) :
    rowStep (iblk0 V c 0 ⟨n, hn⟩) (iblk0 V c 1 ⟨n, hn⟩) (rowC V c (n / 8) (1024 * (n % 8))) = rowC V c (n / 8) (1024 * (n % 8 + 1)) := by
  funext y
  unfold rowStep rowC
  rw [Nat.mul_add_one, pinf_add]
  exact congrArg (min _) (iInf_congr fun m => dtile_iblk0 V c ⟨n, hn⟩ (y 0) (y 2) m)

theorem colStep_closed (n : ℕ) (hn : n < cfg0.N) :
    colStep (n % 8) (iblk0 V c 0 ⟨n, hn⟩) (iblk0 V c 1 ⟨n, hn⟩) (colC V c (n / 64) (n % 64)) = colC V c (n / 64) (n % 64 + 1) := by
  funext y
  have hy : (y 2).val < 8192 := (y 2).isLt
  unfold colStep colC
  split
  · rename_i h
    rw [show 512 * ((n % 64 + 1 + 7 - (y 2).val / 1024) / 8) = 512 * (n / 8 % 8) + 512 by omega,
      show 512 * ((n % 64 + 7 - (y 2).val / 1024) / 8) = 512 * (n / 8 % 8) by omega, pinf_add]
    refine congrArg (min _) (iInf_congr fun r => (dtile_iblk0 V c ⟨n, hn⟩ (y 0) r _).trans ?_)
    exact congrArg₂ (dV V c (y 0)) (by show 512 * (n / 8) + r.val = _; omega) (Nat.add_sub_cancel' h.1)
  · rename_i h
    exact congrArg (pinf _) (by omega)

-- The five cases of a point give one recurrence; an accumulator restarts from `⊤` where its index is 0 modulo its period.
theorem acc_step (n : ℕ) (hn : n < cfg0.N) :
    (outsAt0 V c n hn).2.2.1 = rowStep (iblk0 V c 0 ⟨n, hn⟩) (iblk0 V c 1 ⟨n, hn⟩)
        (if n % 8 = 0 then topRow else (outsAt0 V c (n - 1) (Nat.lt_of_le_of_lt (Nat.sub_le _ _) hn)).2.2.1)
    ∧ (outsAt0 V c n hn).2.2.2 = colStep (n % 8) (iblk0 V c 0 ⟨n, hn⟩) (iblk0 V c 1 ⟨n, hn⟩)
        (if n % 64 = 0 then topCol else (outsAt0 V c (n - 1) (Nat.lt_of_le_of_lt (Nat.sub_le _ _) hn)).2.2.2)
    ∧ (n % 8 = 7 → (outsAt0 V c n hn).1 = rowOutBlk (outsAt0 V c n hn).2.2.1)
    ∧ (n % 64 = 63 → (outsAt0 V c n hn).2.1 = colOutBlk (outsAt0 V c n hn).2.2.2) := by
  by_cases h1 : n % 64 = 0
  · rw [outsAt0_A V c ⟨n, hn⟩ h1, tupA_s0, tupA_s1, if_pos h1, if_pos (by omega : n % 8 = 0)]
    exact ⟨rfl, rfl, fun h => by omega, fun h => by omega⟩
  by_cases h0 : n % 8 = 0
  · rw [outsAt0_B V c ⟨n, hn⟩ h1 h0, tupB_s0, tupB_s1, if_pos h0, if_neg h1]
    exact ⟨rfl, rfl, fun h => by omega, fun h => by omega⟩
  rw [if_neg h0, if_neg h1]
  by_cases h3 : n % 64 = 63
  · rw [outsAt0_E V c ⟨n, hn⟩ h3, tupE_s0, tupE_s1, tupE_o2, tupE_o3]
    exact ⟨rfl, rfl, fun _ => rfl, fun _ => rfl⟩
  by_cases h2 : n % 8 = 7
  · rw [outsAt0_D V c ⟨n, hn⟩ h2 h3, tupD_s0, tupD_s1, tupD_o2]
    exact ⟨rfl, rfl, fun _ => rfl, fun h => absurd h h3⟩
  · rw [outsAt0_C V c ⟨n, hn⟩ h0 h2, tupC_s0, tupC_s1]
    exact ⟨rfl, rfl, fun h => absurd h h2, fun h => absurd h h3⟩

theorem acc_eq : ∀ (n : ℕ) (hn : n < cfg0.N), (outsAt0 V c n hn).2.2.1 = rowC V c (n / 8) (1024 * (n % 8 + 1))
    ∧ (outsAt0 V c n hn).2.2.2 = colC V c (n / 64) (n % 64 + 1) := by
  intro n
  induction n using Nat.strong_induction_on with
  | _ n ih =>
    intro hn
    rw [(acc_step V c n hn).1, (acc_step V c n hn).2.1]
    refine ⟨(congrArg _ ?_).trans (rowStep_closed V c n hn), (congrArg _ ?_).trans (colStep_closed V c n hn)⟩
    · by_cases h0 : n % 8 = 0
      · rw [if_pos h0, h0]; exact funext fun y => (pinf_zero _).symm
      · rw [if_neg h0, (ih (n - 1) (by omega) _).1, show (n - 1) / 8 = n / 8 by omega, show (n - 1) % 8 + 1 = n % 8 by omega]
    · by_cases h1 : n % 64 = 0
      · rw [if_pos h1, h1]
        funext y
        have hy : (y 2).val < 8192 := (y 2).isLt
        unfold colC
        rw [show 512 * ((0 + 7 - (y 2).val / 1024) / 8) = 0 by omega]
        exact (pinf_zero _).symm
      · rw [if_neg h1, (ih (n - 1) (by omega) _).2, show (n - 1) / 64 = n / 64 by omega, show (n - 1) % 64 + 1 = n % 64 by omega]

theorem out_row_at (t : Fin cfg0.N) (h2 : t.val % 8 = 7) :
    (outsAt0 (F := Ideal) V c t.val t.isLt).1 = fun y : S4x512.Idx => rowOutT (V c main_v0) (V c main_v1)
      (ix2 (y 0) ⟨512 * (t.val / 8) + (y 1).val, by
        have hN : t.val < 128 := lt_of_lt_of_eq t.isLt (show cfg0.N = 128 from N_0)
        have hy : (y 1).val < 512 := (y 1).isLt
        omega⟩) := by
  have hN : t.val < 128 := t.isLt
  rw [(acc_step V c t.val t.isLt).2.2.1 h2, (acc_eq V c t.val t.isLt).1, h2]
  funext y
  have hy : (y 1).val < 512 := (y 1).isLt
  show pinf (dV V c (y 0) (512 * (t.val / 8) + (y 1).val)) _ = _
  exact iInf_congr fun m => congrArg₂ sqd (funext fun k => dif_pos (by omega)) (funext fun k => dif_pos m.isLt)

theorem out_col_at (t : Fin cfg0.N) (h3 : t.val % 64 = 63) :
    (outsAt0 (F := Ideal) V c t.val t.isLt).2.1 = fun y : S1x4x8192.Idx => colOutT (V c main_v0) (V c main_v1)
      (ix3 ⟨t.val / 64, by
        have hN : t.val < 128 := lt_of_lt_of_eq t.isLt (show cfg0.N = 128 from N_0)
        omega⟩ (y 1) (y 2)) := by
  have hN : t.val < 128 := t.isLt
  rw [(acc_step V c t.val t.isLt).2.2.2 h3, (acc_eq V c t.val t.isLt).2, h3]
  funext y
  have hy : (y 2).val < 8192 := (y 2).isLt
  unfold colOutBlk colC
  show pinf _ (512 * ((63 + 1 + 7 - (y 2).val / 1024) / 8)) = _
  rw [show 512 * ((63 + 1 + 7 - (y 2).val / 1024) / 8) = 4096 by omega]
  exact iInf_congr fun q => congrArg₂ sqd (funext fun k => dif_pos (by omega)) (funext fun k => dif_pos hy)

end

end Cert.KernelIdeal.Hand

end
-- ==== Proof.KernelIdeal.R0Array.lean ====
import proofs.«427145_j9268539424872_3_alg».proof.Proof.KernelIdeal.R0Frame
import proofs.«427145_j9268539424872_3_alg».proof.Proof.KernelIdeal.R0Out
import proofs.«427145_j9268539424872_3_alg».proof.Proof.KernelIdeal.R0Value
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Hand.Spec

section

variable (V : (c : Dev nD) → (b : Ref sig .tc) → Buf (Elt Ideal) ((c : Thread nD τ).loc b))

theorem out_idx : ∀ t : Fin cfg0.N, win0_2.index t (0 : Fin 2) = 0 ∧ win0_2.index t (1 : Fin 2) = t.val / 8
    ∧ win0_3.index t (0 : Fin 3) = t.val / 64 ∧ win0_3.index t (1 : Fin 3) = 0 ∧ win0_3.index t (2 : Fin 3) = 0 :=
  (by decide +kernel : ∀ t : Fin grid0.N, _)

-- Covering witness: column `n` lies in the block of point `8·(n / 512) + 7`.
theorem arrAt0_row (c : Dev nD) : (dat0 (F := Ideal) V c).arrAt 2 cfg0.N = rowOutT (V c main_v0) (V c main_v1) :=
  (dat0 (F := Ideal) V c).arrAt_eq_of_cover 2 _ (fun t hf => by
    obtain ⟨e0, e1, -⟩ := out_idx t
    refine (out_row_at V c t ((flush0_2 t).mp hf)).trans (funext fun j => congrArg (rowOutT _ _) (funext fun a => Fin.ext ?_))
    match a with
    | ⟨0, _⟩ => show (j 0).val = win0_2.index t (0 : Fin 2) * 4 + 1 * (j 0).val; omega
    | ⟨1, _⟩ => show 512 * (t.val / 8) + (j 1).val = win0_2.index t (1 : Fin 2) * 512 + 1 * (j 1).val; omega) fun i => by
    have hi1 : (i 1).val < 8192 := (i 1).isLt
    let t : Fin cfg0.N := ⟨8 * ((i 1).val / 512) + 7, by show _ < 128; omega⟩
    have ht : t.val = 8 * ((i 1).val / 512) + 7 := rfl
    obtain ⟨e0, e1, -⟩ := out_idx t
    refine ⟨t, (flush0_2 t).mpr (by omega), ?_⟩
    rw [(?_ : i = ((cfg0.win 2).blk t).view.emb (ix2 (i 0) ⟨(i 1).val % 512, by omega⟩))]
    · exact View.emb_mem_set _ _
    funext a; apply Fin.ext
    match a with
    | ⟨0, _⟩ => show (i 0).val = win0_2.index t (0 : Fin 2) * 4 + 1 * (i 0).val; omega
    | ⟨1, _⟩ => show (i 1).val = win0_2.index t (1 : Fin 2) * 512 + 1 * ((i 1).val % 512); omega

-- Covering witness: half `h` is the block of point `64·h + 63`.
theorem arrAt0_col (c : Dev nD) : (dat0 (F := Ideal) V c).arrAt 3 cfg0.N = colOutT (V c main_v0) (V c main_v1) :=
  (dat0 (F := Ideal) V c).arrAt_eq_of_cover 3 _ (fun t hf => by
    obtain ⟨-, -, e2, e3, e4⟩ := out_idx t
    refine (out_col_at V c t ((flush0_3 t).mp hf)).trans (funext fun j => congrArg (colOutT _ _) (funext fun a => Fin.ext ?_))
    have hj0 : (j 0).val < 1 := (j 0).isLt
    match a with
    | ⟨0, _⟩ => show t.val / 64 = win0_3.index t (0 : Fin 3) * 1 + 1 * (j 0).val; omega
    | ⟨1, _⟩ => show (j 1).val = win0_3.index t (1 : Fin 3) * 4 + 1 * (j 1).val; omega
    | ⟨2, _⟩ => show (j 2).val = win0_3.index t (2 : Fin 3) * 8192 + 1 * (j 2).val; omega) fun i => by
    have hi0 : (i 0).val < 2 := (i 0).isLt
    let t : Fin cfg0.N := ⟨64 * (i 0).val + 63, by show _ < 128; omega⟩
    have ht : t.val = 64 * (i 0).val + 63 := rfl
    obtain ⟨-, -, e2, e3, e4⟩ := out_idx t
    refine ⟨t, (flush0_3 t).mpr (by omega), ?_⟩
    rw [(?_ : i = ((cfg0.win 3).blk t).view.emb (ix3 0 (i 1) (i 2)))]
    · exact View.emb_mem_set _ _
    funext a; apply Fin.ext
    match a with
    | ⟨0, _⟩ => show (i 0).val = win0_3.index t (0 : Fin 3) * 1 + 1 * 0; omega
    | ⟨1, _⟩ => show (i 1).val = win0_3.index t (1 : Fin 3) * 4 + 1 * (i 1).val; omega
    | ⟨2, _⟩ => show (i 2).val = win0_3.index t (2 : Fin 3) * 8192 + 1 * (i 2).val; omega

end

theorem rowOutT_transpose (P Q : FVec Ideal Cert.Hand.Spec.SP .f32) (Pt Qt : Vec Ideal S4x3x8192 .f32)
    (hP : ∀ b k n, Pt (ix3 b k n) = P (ix3 b n k)) (hQ : ∀ b k n, Qt (ix3 b k n) = Q (ix3 b n k)) :
    rowOutT Pt Qt = Cert.Hand.Spec.rowMin P Q :=
  funext fun y => iInf_congr fun m => congrArg₂ sqd (funext fun k => hP _ _ _) (funext fun k => hQ _ _ _)

theorem colOutT_transpose (P Q : FVec Ideal Cert.Hand.Spec.SP .f32) (Pt Qt : Vec Ideal S4x3x8192 .f32)
    (hP : ∀ b k n, Pt (ix3 b k n) = P (ix3 b n k)) (hQ : ∀ b k n, Qt (ix3 b k n) = Q (ix3 b n k))
    (h : Fin 2) (b : Fin 4) (m : Fin 8192) :
    colOutT Pt Qt (ix3 h b m) = Cert.Hand.Spec.colMinHalf h P Q (ix2 b m) :=
  iInf_congr fun n => congrArg₂ sqd (funext fun k => hP _ _ _) (funext fun k => hQ _ _ _)

end Cert.KernelIdeal.Hand

end
-- ==== Proof.KernelIdeal.R1Pay.lean ====
import proofs.«427145_j9268539424872_3_alg».proof.Proof.Gen.KernelIdeal.Skeleton
import proofs.«427145_j9268539424872_3_alg».proof.Proof.Spec
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Cert.KernelIdeal.Gen

variable {F : FTy → Type} [FloatOps F]

def densCol (k : ℕ) (hs : S3x512.Slices ![k, 0] S1x512) (a : FVec F S3x512 .f32) : FVec F S512x512 .f32 :=
  broadcastTo S512x512 (shapeCast S512x1 (shapeCast S512 (extractStridedSlice S1x512 ![k, 0] a hs) shapeCasts_S1x512_S512) shapeCasts_S512_S512x1) broadcasts_S512x1_S512x512

def densRow (k : ℕ) (hs : S3x512.Slices ![k, 0] S1x512) (b : FVec F S3x512 .f32) : FVec F S512x512 .f32 :=
  broadcastTo S512x512 (shapeCast S1x512 (shapeCast S512 (extractStridedSlice S1x512 ![k, 0] b hs) shapeCasts_S1x512_S512) shapeCasts_S512_S1x512) broadcasts_S1x512_S512x512

def densSq (k : ℕ) (hs : S3x512.Slices ![k, 0] S1x512) (a b : FVec F S3x512 .f32) : FVec F S512x512 .f32 :=
  mulf (subf (densCol k hs a) (densRow k hs b)) (subf (densCol k hs a) (densRow k hs b))

def densDist (a b : FVec F S3x512 .f32) : FVec F S512x512 .f32 :=
  addf (addf (addf (broadcast S512x512 (Scalar.ofBits .f32 0x00000000#32)) (densSq 0 slices_S3x512_o0_0_S1x512 a b)) (densSq 1 slices_S3x512_o1_0_S1x512 a b)) (densSq 2 slices_S3x512_o2_0_S1x512 a b)

-- Per query point `n`: `prev n ⊓ ⨅ col, dist n col`, the distance raised by the penalty where the mask is set.
def densRowPay (msk : IVec S512x512 1) (a b : FVec F S3x512 .f32) (prev : Vec F S1x1x512 .f32) : FVec F S1x1x512 .f32 :=
  shapeCast S1x1x512 (minimumf (shapeCast S512 prev shapeCasts_S1x1x512_S512)
    (multiReduction .minimumf [1] S512 (select msk (addf (densDist a b) (broadcast S512x512 (Scalar.ofBits .f32 0x49742400#32))) (densDist a b)) 0x7F800000#32 reduces_S512x512_S512 (.inl rfl) rfl)) shapeCasts_S512_S1x1x512

def densLoad (v : Vec F S1x3x512 .f32) : FVec F S3x512 .f32 := shapeCast S3x512 v shapeCasts_S1x3x512_S3x512

set_option maxRecDepth 65536 in
theorem pay_row0 (msk : IVec S512x512 1) (v13 v16 : Vec F S1x3x512 .f32) (prev : Vec F S1x1x512 .f32) :
    k1_pay10 msk (k1_pay7 v13 v16) (k1_pay8 v13) (k1_pay9 v16) prev = densRowPay msk (densLoad v13) (densLoad v16) prev := rfl

set_option maxRecDepth 65536 in
theorem pay_row1 (msk : IVec S512x512 1) (v65 v68 : Vec F S1x3x512 .f32) (prev : Vec F S1x1x512 .f32) :
    k1_pay15 msk (k1_pay12 v68) (k1_pay13 v65 v68) (k1_pay14 v65) prev = densRowPay msk (densLoad v65) (densLoad v68) prev := rfl

set_option maxRecDepth 65536 in
theorem pay_row2 (msk : IVec S512x512 1) (v117 v120 : Vec F S1x3x512 .f32) (prev : Vec F S1x1x512 .f32) :
    k1_pay21 msk (k1_pay16 v117) (k1_pay17 v120) (k1_pay18 v117 v120) (k1_pay19 v120) (k1_pay20 v117) prev = densRowPay msk (densLoad v117) (densLoad v120) prev := rfl

set_option maxRecDepth 65536 in
theorem pay_row3 (msk : IVec S512x512 1) (v169 v172 : Vec F S1x3x512 .f32) (prev : Vec F S1x1x512 .f32) :
    k1_pay1 msk (k1_pay22 v169) (k1_pay23 v172) (k1_pay24 v169 v172) (k1_pay25 v169) prev = densRowPay msk (densLoad v169) (densLoad v172) prev := rfl

open Cert.Hand.Spec

theorem densLoad_apply (v : Vec Ideal S1x3x512 .f32) (k : Fin 3) (n : Fin 512) :
    densLoad (F := Ideal) v (ix2 k n) = v (ix3 (0 : Fin 1) k n) :=
  shapeCast_1ab_ab_apply v shapeCasts_S1x3x512_S3x512 k n

theorem densCol_apply (k : ℕ) (hk : k < 3) (hs : S3x512.Slices ![k, 0] S1x512) (a : FVec Ideal S3x512 .f32) (n col : Fin 512) :
    densCol (F := Ideal) k hs a (ix2 n col) = a (ix2 (⟨k, hk⟩ : Fin 3) n) :=
  (broadcastTo_apply _ broadcasts_S512x1_S512x512 (ix2 n col) (ix2 n (0 : Fin 1)) fun ax => match ax with | ⟨0, _⟩ => rfl | ⟨1, _⟩ => rfl).trans <|
    (shapeCast_apply _ shapeCasts_S512_S512x1 (ix2 n (0 : Fin 1)) (ix1 n) (by
      rw [Shape.rowMajor_val_one, Shape.rowMajor_val_two]
      exact (Nat.mul_one n.val).symm)).trans <|
    (shapeCast_1a_a_apply _ shapeCasts_S1x512_S512 n).trans (slice2_axis0_apply k a hs 0 n ⟨k, hk⟩ rfl)

theorem densRow_apply (k : ℕ) (hk : k < 3) (hs : S3x512.Slices ![k, 0] S1x512) (b : FVec Ideal S3x512 .f32) (n col : Fin 512) :
    densRow (F := Ideal) k hs b (ix2 n col) = b (ix2 (⟨k, hk⟩ : Fin 3) col) :=
  (broadcastTo_1b_ab_apply _ broadcasts_S1x512_S512x512 n col).trans <|
    (shapeCast_a_1a_apply _ shapeCasts_S512_S1x512 0 col).trans <|
    (shapeCast_1a_a_apply _ shapeCasts_S1x512_S512 col).trans (slice2_axis0_apply k b hs 0 col ⟨k, hk⟩ rfl)

theorem densDist_apply (a b : FVec Ideal S3x512 .f32) (n col : Fin 512) :
    densDist (F := Ideal) a b (ix2 n col) = sqd (fun k => a (ix2 k n)) (fun k => b (ix2 k col)) := by
  unfold densDist densSq
  simp only [addf_apply, mulf_apply, subf_apply, broadcast_apply]
  rw [densCol_apply 0 (by decide), densCol_apply 1 (by decide), densCol_apply 2 (by decide),
    densRow_apply 0 (by decide), densRow_apply 1 (by decide), densRow_apply 2 (by decide)]
  show ((Ideal.ofBits .f32 0x00000000#32 + _) + _) + _ = _
  rw [Ideal.ofBits_zero_f32]
  rfl

-- The minimum along the key axis: the indices reduced onto `n` are the pairs `(n, col)`.
theorem densMinRow_apply (src : FVec Ideal S512x512 .f32) (n : Fin 512) :
    multiReduction (F := Ideal) .minimumf [1] S512 src 0x7F800000#32 reduces_S512x512_S512 (.inl rfl) rfl (ix1 n)
      = ⨅ col : Fin 512, src (ix2 n col) := by
  refine (multiReduction_minimumf_eq_fold (F := Ideal) src 0x7F800000#32 reduces_S512x512_S512 (.inl rfl) rfl (ix1 n)).trans ?_
  show (Finset.univ.filter fun i => reduces_S512x512_S512.drop i = ix1 n).fold min (Ideal.ofBits .f32 0x7F800000#32) src = _
  rw [inf_eq_top, fold_min_top_eq_biInf]
  refine le_antisymm (le_iInf fun col => iInf₂_le (ix2 n col) ?_) (le_iInf₂ fun i hi => ?_)
  · rw [Finset.mem_filter]
    refine ⟨Finset.mem_univ _, funext fun ax => ?_⟩
    match ax with
    | ⟨0, _⟩ => exact Fin.ext (reduces_S512x512_S512.drop_apply_val_of_eq (ix2 n col) 0 0)
  · rw [Finset.mem_filter] at hi
    have h0 : (i 0).val = n.val := by
      rw [← reduces_S512x512_S512.drop_apply_val_of_eq i 0 0]
      exact congrArg (fun j => (j 0).val) hi.2
    refine iInf_le_of_le (i 1) (le_of_eq (congrArg src (funext fun ax => ?_)))
    match ax with
    | ⟨0, _⟩ => exact Fin.ext h0.symm
    | ⟨1, _⟩ => rfl

theorem densRowPay_apply (msk : IVec S512x512 1) (a b : FVec Ideal S3x512 .f32) (prev : Vec Ideal S1x1x512 .f32) (n : Fin 512) :
    densRowPay (F := Ideal) msk a b prev (ix3 (0 : Fin 1) (0 : Fin 1) n)
      = min (prev (ix3 (0 : Fin 1) (0 : Fin 1) n))
          (⨅ col : Fin 512, if msk (ix2 n col) = 1#1
            then sqd (fun k => a (ix2 k n)) (fun k => b (ix2 k col)) + pen
            else sqd (fun k => a (ix2 k n)) (fun k => b (ix2 k col))) := by
  have e : (S1x1x512.rowMajor (ix3 (0 : Fin 1) (0 : Fin 1) n)).val = (S512.rowMajor (ix1 n)).val := by
    rw [Shape.rowMajor_val_one, Shape.rowMajor_val_three]
    show (0 * 1 + 0) * 512 + n.val = n.val
    omega
  unfold densRowPay
  refine (shapeCast_apply _ shapeCasts_S512_S1x1x512 _ (ix1 n) e.symm).trans ?_
  rw [minimumf_apply, densMinRow_apply]
  refine congrArg₂ min (shapeCast_apply _ shapeCasts_S1x1x512_S512 _ _ e) (iInf_congr fun col => ?_)
  rw [select_apply, addf_apply, broadcast_apply, densDist_apply]
  rfl

end Cert.KernelIdeal.Hand

end
-- ==== Proof.KernelIdeal.R1Step.lean ====
import proofs.«427145_j9268539424872_3_alg».proof.Proof.Spec
import proofs.«427145_j9268539424872_3_alg».proof.Proof.KernelIdeal.R1Defs
import Idealize.ShloMosaic.Lib.ValueIdx

noncomputable section

namespace Cert.KernelIdeal.Hand

open Idealize.ShloMosaic Idealize.ShloMosaic.ValueIdx Cert.KernelIdeal Cert.KernelIdeal.Gen Cert.Hand.Spec

def densTile (i j : ℕ) (x0 x1 : Vec Ideal S4x3x512 .f32) (b : Fin 4) (r col : Fin 512) : EReal :=
  if 512 * i + r.val = 512 * j + col.val
  then sqd (fun k => x0 (ix3 b k r)) (fun k => x1 (ix3 b k col)) + pen
  else sqd (fun k => x0 (ix3 b k r)) (fun k => x1 (ix3 b k col))

def densStep (i j : ℕ) (x0 x1 : Vec Ideal S4x3x512 .f32) (p : Vec Ideal S4x1x512 .f32) : Vec Ideal S4x1x512 .f32 :=
  fun y => min (p y) (⨅ col : Fin 512, densTile i j x0 x1 (y 0) (y 2) col)

def topScr : Vec Ideal S4x1x512 .f32 := fun _ => ⊤

def densOutBlk (s : Vec Ideal S4x1x512 .f32) : Vec Ideal S4x512 .f32 := fun y => s (ix3 (y 0) 0 (y 1))

def densOutT (Xt : Vec Ideal S4x3x1024 .f32) : Vec Ideal S4x1024 .f32 :=
  fun y => ⨅ m : Fin 1024, if (y 1).val = m.val
    then sqd (fun k => Xt (ix3 (y 0) k (y 1))) (fun k => Xt (ix3 (y 0) k m)) + pen
    else sqd (fun k => Xt (ix3 (y 0) k (y 1))) (fun k => Xt (ix3 (y 0) k m))

def densColOf (t : Fin cfg1.N) (r : Fin 512) : Fin 1024 :=
  ⟨512 * (t.val / 2) + r.val, by have := t.isLt; have hN : cfg1.N = 4 := N_1; have := r.isLt; omega⟩

end Cert.KernelIdeal.Hand

end
-- ==== Proof.KernelIdeal.R1Rows.lean ====
import proofs.«427145_j9268539424872_3_alg».proof.Proof.KernelIdeal.R1Pay
import proofs.«427145_j9268539424872_3_alg».proof.Proof.KernelIdeal.R1Step
import Idealize.ShloMosaic.Lib.Pipeline.FrameBody
import Idealize.ShloMosaic.Lib.WordArith

set_option maxRecDepth 16384

noncomputable section

namespace Cert.KernelIdeal.Hand

open Idealize.ShloMosaic Idealize.ShloMosaic.TcCoe Idealize.ShloMosaic.ValueIdx
open Idealize.SL.Sem
open Cert.KernelIdeal.Gen

open Cert.Hand.Spec

theorem hz3 : (![0, 0, 0] : Fin 3 → Nat) = fun _ => 0 := funext fun a => by fin_cases a <;> rfl
theorem hz2 : (![0, 0] : Fin 2 → Nat) = fun _ => 0 := funext fun a => by fin_cases a <;> rfl

theorem scrRow_emb (k : ℕ) (hk : k < 4) (inb : ∀ a, (![k, 0, 0] : Fin 3 → ℕ) a + S1x1x512.size a ≤ S4x1x512.size a) (n : Fin 512) :
    (Rect.unit (s := S4x1x512) ![k, 0, 0] S1x1x512.size inb).emb (ix3 (0 : Fin 1) (0 : Fin 1) n) = ix3 (⟨k, hk⟩ : Fin 4) (0 : Fin 1) n := by
  funext a
  apply Fin.ext
  match a with
  | ⟨0, _⟩ => show k + 1 * 0 = k; omega
  | ⟨1, _⟩ => show 0 + 1 * 0 = 0; omega
  | ⟨2, _⟩ => show 0 + 1 * n.val = n.val; omega

theorem scrRow_not_mem (k : ℕ) (inb : ∀ a, (![k, 0, 0] : Fin 3 → ℕ) a + S1x1x512.size a ≤ S4x1x512.size a) (y : S4x1x512.Idx)
    (h : (y 0).val ≠ k) : y ∉ (Rect.unit (s := S4x1x512) ![k, 0, 0] S1x1x512.size inb).set := by
  rw [Rect.mem_set_unit]
  intro hm
  have h0 : k ≤ (y 0).val ∧ (y 0).val < k + 1 := hm 0
  omega

theorem canon_row_hit (k : ℕ) (hk : k < 4) (inb : ∀ a, (![k, 0, 0] : Fin 3 → ℕ) a + S1x1x512.size a ≤ S4x1x512.size a)
    (w : (Rect.unit (s := S4x1x512) ![k, 0, 0] S1x1x512.size inb).shape.Idx → Elt Ideal .f32) (L : List (View.Piece (Elt Ideal) S4x1x512 .f32)) (n : Fin 512) :
    View.canon ((⟨Rect.unit (s := S4x1x512) ![k, 0, 0] S1x1x512.size inb, w⟩ : View.Piece (Elt Ideal) S4x1x512 .f32) :: L) (ix3 (⟨k, hk⟩ : Fin 4) (0 : Fin 1) n)
      = w (ix3 (0 : Fin 1) (0 : Fin 1) n) :=
  (congrArg _ (scrRow_emb k hk inb n).symm).trans (View.canon_cons_emb _ w L _)

theorem canon_row_miss (k : ℕ) (inb : ∀ a, (![k, 0, 0] : Fin 3 → ℕ) a + S1x1x512.size a ≤ S4x1x512.size a)
    (w : (Rect.unit (s := S4x1x512) ![k, 0, 0] S1x1x512.size inb).shape.Idx → Elt Ideal .f32) (L : List (View.Piece (Elt Ideal) S4x1x512 .f32))
    (y : S4x1x512.Idx) (h : (y 0).val ≠ k) :
    View.canon ((⟨Rect.unit (s := S4x1x512) ![k, 0, 0] S1x1x512.size inb, w⟩ : View.Piece (Elt Ideal) S4x1x512 .f32) :: L) y = View.canon L y :=
  View.canon_cons_of_not_mem _ L (scrRow_not_mem k inb y h)

theorem canon_rows (G : Vec Ideal S4x1x512 .f32)
    (inb3 : ∀ a, (![3, 0, 0] : Fin 3 → ℕ) a + S1x1x512.size a ≤ S4x1x512.size a) (inb2 : ∀ a, (![2, 0, 0] : Fin 3 → ℕ) a + S1x1x512.size a ≤ S4x1x512.size a)
    (inb1 : ∀ a, (![1, 0, 0] : Fin 3 → ℕ) a + S1x1x512.size a ≤ S4x1x512.size a) (inb0 : ∀ a, (![0, 0, 0] : Fin 3 → ℕ) a + S1x1x512.size a ≤ S4x1x512.size a)
    (w3 : (Rect.unit (s := S4x1x512) ![3, 0, 0] S1x1x512.size inb3).shape.Idx → Elt Ideal .f32)
    (w2 : (Rect.unit (s := S4x1x512) ![2, 0, 0] S1x1x512.size inb2).shape.Idx → Elt Ideal .f32)
    (w1 : (Rect.unit (s := S4x1x512) ![1, 0, 0] S1x1x512.size inb1).shape.Idx → Elt Ideal .f32)
    (w0 : (Rect.unit (s := S4x1x512) ![0, 0, 0] S1x1x512.size inb0).shape.Idx → Elt Ideal .f32)
    (M : List (View.Piece (Elt Ideal) S4x1x512 .f32))
    (h3 : ∀ n : Fin 512, w3 (ix3 (0 : Fin 1) (0 : Fin 1) n) = G (ix3 (3 : Fin 4) (0 : Fin 1) n))
    (h2 : ∀ n : Fin 512, w2 (ix3 (0 : Fin 1) (0 : Fin 1) n) = G (ix3 (2 : Fin 4) (0 : Fin 1) n))
    (h1 : ∀ n : Fin 512, w1 (ix3 (0 : Fin 1) (0 : Fin 1) n) = G (ix3 (1 : Fin 4) (0 : Fin 1) n))
    (h0 : ∀ n : Fin 512, w0 (ix3 (0 : Fin 1) (0 : Fin 1) n) = G (ix3 (0 : Fin 4) (0 : Fin 1) n)) :
    View.canon ((⟨Rect.unit (s := S4x1x512) ![3, 0, 0] S1x1x512.size inb3, w3⟩ : View.Piece (Elt Ideal) S4x1x512 .f32)
      :: ⟨Rect.unit (s := S4x1x512) ![2, 0, 0] S1x1x512.size inb2, w2⟩ :: ⟨Rect.unit (s := S4x1x512) ![1, 0, 0] S1x1x512.size inb1, w1⟩
      :: ⟨Rect.unit (s := S4x1x512) ![0, 0, 0] S1x1x512.size inb0, w0⟩ :: M) = G := by
  funext y
  obtain ⟨b, u, n, rfl⟩ : ∃ (b : Fin 4) (u : Fin 1) (n : Fin 512), y = ix3 b u n := ⟨y 0, y 1, y 2, eq_ix3 y⟩
  obtain rfl : u = 0 := Subsingleton.elim _ _
  match b with
  | ⟨0, _⟩ =>
    refine (canon_row_miss 3 inb3 w3 _ _ (by show (0 : ℕ) ≠ 3; omega)).trans ?_
    refine (canon_row_miss 2 inb2 w2 _ _ (by show (0 : ℕ) ≠ 2; omega)).trans ?_
    refine (canon_row_miss 1 inb1 w1 _ _ (by show (0 : ℕ) ≠ 1; omega)).trans ?_
    exact (canon_row_hit 0 (by omega) inb0 w0 M n).trans (h0 n)
  | ⟨1, _⟩ =>
    refine (canon_row_miss 3 inb3 w3 _ _ (by show (1 : ℕ) ≠ 3; omega)).trans ?_
    refine (canon_row_miss 2 inb2 w2 _ _ (by show (1 : ℕ) ≠ 2; omega)).trans ?_
    exact (canon_row_hit 1 (by omega) inb1 w1 _ n).trans (h1 n)
  | ⟨2, _⟩ =>
    refine (canon_row_miss 3 inb3 w3 _ _ (by show (2 : ℕ) ≠ 3; omega)).trans ?_
    exact (canon_row_hit 2 (by omega) inb2 w2 _ n).trans (h2 n)
  | ⟨3, _⟩ => exact (canon_row_hit 3 (by omega) inb3 w3 _ n).trans (h3 n)

theorem canon_append_of_not_mem (rows M : List (View.Piece (Elt Ideal) S4x1x512 .f32)) (y : S4x1x512.Idx)
    (h : ∀ p ∈ rows, y ∉ p.1.set) : View.canon (rows ++ M) y = View.canon M y := by
  induction rows with
  | nil => rfl
  | cons p L ih =>
    rw [List.cons_append, View.canon_cons_of_not_mem _ _ (h p List.mem_cons_self)]
    exact ih fun q hq => h q (List.mem_cons_of_mem _ hq)

theorem densReset_apply (y : S4x1x512.Idx) : k1_pay3 (F := Ideal) y = ⊤ := by
  unfold k1_pay3
  rw [shapeCast_self]
  exact inf_eq_top

theorem readCov_reset {sig' : RefSig} {κ : Kind} {sp : Space} (v : View sig' κ sp S4x1x512 .f32)
    (rows : List (View.Piece (Elt Ideal) S4x1x512 .f32)) (k : ℕ) (hk : k < 4)
    (inbk : ∀ a, (![k, 0, 0] : Fin 3 → ℕ) a + S1x1x512.size a ≤ S4x1x512.size a)
    (inbW : ∀ a, (![0, 0, 0] : Fin 3 → ℕ) a + S4x1x512.size a ≤ S4x1x512.size a)
    (hrows : ∀ p ∈ rows, ∀ n : Fin 512, ix3 (⟨k, hk⟩ : Fin 4) (0 : Fin 1) n ∉ p.1.set) (n : Fin 512) :
    v.readCov (rows ++ [(⟨Rect.unit (s := S4x1x512) ![0, 0, 0] S4x1x512.size inbW, k1_pay3 (F := Ideal)⟩ : View.Piece (Elt Ideal) S4x1x512 .f32)])
      (Rect.unit (s := S4x1x512) ![k, 0, 0] S1x1x512.size inbk).toLoadRect (ix3 (0 : Fin 1) (0 : Fin 1) n) = ⊤ := by
  have hcov : ∀ j : (Rect.unit (s := S4x1x512) ![k, 0, 0] S1x1x512.size inbk).toLoadRect.shape.Idx,
      ∃ p ∈ rows ++ [(⟨Rect.unit (s := S4x1x512) ![0, 0, 0] S4x1x512.size inbW, k1_pay3 (F := Ideal)⟩ : View.Piece (Elt Ideal) S4x1x512 .f32)],
        (Rect.unit (s := S4x1x512) ![k, 0, 0] S1x1x512.size inbk).toLoadRect.idx j ∈ p.1.set :=
    fun j => ⟨_, List.mem_append_right _ (List.mem_singleton_self _), View.mem_set_unit_zero hz3 inbW _⟩
  refine (congrFun (View.readCov_eq_canon v _ _ hcov) (ix3 (0 : Fin 1) (0 : Fin 1) n)).trans ?_
  refine (congrArg _ (scrRow_emb k hk inbk n)).trans ?_
  refine (canon_append_of_not_mem rows _ _ fun p hp => hrows p hp n).trans ?_
  rw [View.canon_unit_zero hz3]
  exact densReset_apply _

theorem inRow_ld (m : Memref sig .tc .vmem S4x3x512 .f32) (hm : m.IsWhole) (x : Vec Ideal S4x3x512 .f32) (k : ℕ) (hk : k < 4)
    (inb : ∀ a, (![k, 0, 0] : Fin 3 → ℕ) a + S1x3x512.size a ≤ S4x3x512.size a) (c : Fin 3) (n : Fin 512) :
    View.readAt (Elt Ideal) m.view (Rect.unit (s := S4x3x512) ![k, 0, 0] S1x3x512.size inb).toLoadRect (hm.unread x) (ix3 (0 : Fin 1) c n)
      = x (ix3 (⟨k, hk⟩ : Fin 4) c n) := by
  rw [View.readAt_eq_ld, hm.read_unread]
  refine congrArg x (funext fun a => Fin.ext ?_)
  match a with
  | ⟨0, _⟩ => show k + 1 * 0 = k; omega
  | ⟨1, _⟩ => show 0 + 1 * c.val = c.val; omega
  | ⟨2, _⟩ => show 0 + 1 * n.val = n.val; omega

theorem scrRow_ld (m : Memref sig .tc .vmem S4x1x512 .f32) (hm : m.IsWhole) (xs : Vec Ideal S4x1x512 .f32) (k : ℕ) (hk : k < 4)
    (inb : ∀ a, (![k, 0, 0] : Fin 3 → ℕ) a + S1x1x512.size a ≤ S4x1x512.size a) (n : Fin 512) :
    View.readAt (Elt Ideal) m.view (Rect.unit (s := S4x1x512) ![k, 0, 0] S1x1x512.size inb).toLoadRect (hm.unread xs) (ix3 (0 : Fin 1) (0 : Fin 1) n)
      = xs (ix3 (⟨k, hk⟩ : Fin 4) (0 : Fin 1) n) := by
  rw [View.readAt_eq_ld, hm.read_unread]
  exact congrArg xs (scrRow_emb k hk inb n)

-- `512 * i + n` and `512 * j + col` stay below `2 ^ 32`: the two words are equal exactly when the two numbers are.
theorem densMask_apply (i : grid1.Coords) (n col : Fin 512) :
    k1_pay4 i (ix2 n col) = 1#1 ↔ 512 * (i 0).val + n.val = 512 * (i 1).val + col.val := by
  have h0 : (i 0).val < 2 := (i 0).isLt
  have h1 : (i 1).val < 2 := (i 1).isLt
  have hn := n.isLt
  have hc := col.isLt
  unfold k1_pay4
  dsimp only
  show IntOp.cmpi .eq (IntOp.addi (Scalar.muli (BitVec.ofNat 32 (i 0).val) 512#32) (iota .tc S512x512 32 [0] iota_S512x512_d0_w32 (ix2 n col)))
      (IntOp.addi (Scalar.muli (BitVec.ofNat 32 (i 1).val) 512#32) (iota .tc S512x512 32 [1] iota_S512x512_d1_w32 (ix2 n col))) = 1#1 ↔ _
  rw [iota_single_apply, iota_single_apply]
  show BitVec.ofBool (BitVec.ofNat 32 (i 0).val * 512#32 + BitVec.ofNat 32 n.val == BitVec.ofNat 32 (i 1).val * 512#32 + BitVec.ofNat 32 col.val) = 1#1 ↔ _
  rw [WordArith.ofBool_eq_one_iff, beq_iff_eq, ← BitVec.toNat_inj]
  simp only [BitVec.toNat_add, BitVec.toNat_mul, BitVec.toNat_ofNat]
  omega

theorem row_step (i : grid1.Coords) (k : ℕ) (hk : k < 4) (x0 x1 : Vec Ideal S4x3x512 .f32) (xs : Vec Ideal S4x1x512 .f32)
    (L2 L3 : Vec Ideal S1x3x512 .f32) (pv : Vec Ideal S1x1x512 .f32)
    (h2 : ∀ (c : Fin 3) (n : Fin 512), L2 (ix3 (0 : Fin 1) c n) = x0 (ix3 (⟨k, hk⟩ : Fin 4) c n))
    (h3 : ∀ (c : Fin 3) (n : Fin 512), L3 (ix3 (0 : Fin 1) c n) = x1 (ix3 (⟨k, hk⟩ : Fin 4) c n))
    (hp : ∀ n : Fin 512, pv (ix3 (0 : Fin 1) (0 : Fin 1) n) = xs (ix3 (⟨k, hk⟩ : Fin 4) (0 : Fin 1) n)) (n : Fin 512) :
    densRowPay (F := Ideal) (k1_pay4 i) (densLoad L2) (densLoad L3) pv (ix3 (0 : Fin 1) (0 : Fin 1) n)
      = densStep (i 0).val (i 1).val x0 x1 xs (ix3 (⟨k, hk⟩ : Fin 4) (0 : Fin 1) n) := by
  rw [densRowPay_apply, hp]
  unfold densStep densTile
  simp only [densLoad_apply, h2, h3]
  exact congrArg₂ min rfl (iInf_congr fun col => if_congr (densMask_apply i n col) rfl rfl)

end Cert.KernelIdeal.Hand

end
-- ==== Proof.KernelIdeal.R1Arr.lean ====
import proofs.«427145_j9268539424872_3_alg».proof.Proof.KernelIdeal.R1Frame
import proofs.«427145_j9268539424872_3_alg».proof.Proof.KernelIdeal.R1Step
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Hand.Spec

section

variable (V : (c : Dev nD) → (b : Ref sig .tc) → Buf (Elt Ideal) ((c : Thread nD τ).loc b))

theorem dens_out_idx : ∀ t : Fin cfg1.N, win1_2.index t (0 : Fin 2) = 0 ∧ win1_2.index t (1 : Fin 2) = t.val / 2 :=
  (by decide +kernel : ∀ t : Fin grid1.N, _)

-- The blocks of the odd points tile the columns: column `n` lies in the block of point `2 * (n / 512) + 1`.
theorem arrAt1_of (c : Dev nD)
    (hodd : ∀ t : Fin cfg1.N, t.val % 2 = 1 → ∀ y : S4x512.Idx,
      (dat1 (F := Ideal) V c).after 2 t y = densOutT (V c main_v33) (ix2 (y 0) (densColOf t (y 1)))) :
    (dat1 (F := Ideal) V c).arrAt 2 cfg1.N = densOutT (V c main_v33) :=
  (dat1 (F := Ideal) V c).arrAt_eq_of_cover 2 (densOutT (V c main_v33)) (fun t hf => by
    obtain ⟨e0, e1⟩ := dens_out_idx t
    show (cfg1.win 2).cut (grid1.coords t) ((dat1 (F := Ideal) V c).after 2 t) = _
    funext j
    refine (hodd t ((flush1_2 t).mp hf) j).trans ?_
    show densOutT (V c main_v33) _ = densOutT (V c main_v33) (((cfg1.win 2).blk t).view.emb j)
    refine congrArg _ (funext fun a => Fin.ext ?_)
    match a with
    | ⟨0, _⟩ => show (j 0).val = win1_2.index t (0 : Fin 2) * 4 + 1 * (j 0).val; omega
    | ⟨1, _⟩ => show 512 * (t.val / 2) + (j 1).val = win1_2.index t (1 : Fin 2) * 512 + 1 * (j 1).val; omega) fun i => by
    have hi0 : (i 0).val < 4 := (i 0).isLt
    have hi1 : (i 1).val < 1024 := (i 1).isLt
    have hN : cfg1.N = 4 := N_1
    let t : Fin cfg1.N := ⟨2 * ((i 1).val / 512) + 1, by omega⟩
    have ht : t.val = 2 * ((i 1).val / 512) + 1 := rfl
    obtain ⟨e0, e1⟩ := dens_out_idx t
    refine ⟨t, (flush1_2 t).mpr (by omega), ?_⟩
    show i ∈ ((View.whole main_v34).slice (win1_2.rect t)).set
    rw [View.set_slice_whole, Rect.mem_set_unit]
    intro a
    match a with
    | ⟨0, _⟩ => show win1_2.index t (0 : Fin 2) * 4 ≤ (i 0).val ∧ (i 0).val < win1_2.index t (0 : Fin 2) * 4 + 4; omega
    | ⟨1, _⟩ => show win1_2.index t (1 : Fin 2) * 512 ≤ (i 1).val ∧ (i 1).val < win1_2.index t (1 : Fin 2) * 512 + 512; omega

end

theorem ite_val_eq {n : ℕ} (a b : Fin n) (u v : EReal) :
    (if a.val = b.val then u else v) = if a = b then u else v :=
  if_congr Fin.val_inj rfl rfl

-- `Xt` is `X` with its last two axes swapped, and `a.val = b.val ↔ a = b` in `Fin 1024`.
theorem densOutT_transpose (X : FVec Ideal Cert.Hand.Spec.SX .f32) (Xt : Vec Ideal S4x3x1024 .f32)
    (hXt : ∀ b k n, Xt (ix3 b k n) = X (ix3 b n k)) :
    densOutT Xt = Cert.Hand.Spec.densMin X := by
  funext y
  refine iInf_congr fun m => ?_
  dsimp only
  rw [show (fun k => Xt (ix3 (y 0) k (y 1))) = ptX X (y 0) (y 1) from funext fun k => hXt _ _ _,
    show (fun k => Xt (ix3 (y 0) k m)) = ptX X (y 0) m from funext fun k => hXt _ _ _]
  exact ite_val_eq (y 1) m _ _

end Cert.KernelIdeal.Hand

end
-- ==== Proof.KernelIdeal.R1Value.lean ====
import proofs.«427145_j9268539424872_3_alg».proof.Proof.KernelIdeal.R1Frame
import proofs.«427145_j9268539424872_3_alg».proof.Proof.KernelIdeal.R1Rows
import proofs.«427145_j9268539424872_3_alg».proof.Proof.KernelIdeal.R1Arr
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.ValueIdx
open Idealize.SL.Sem
open Cert.KernelIdeal.Gen
open Idealize.ShloMosaic.Tactic
open Cert.Hand.Spec

theorem readCov_reset0 {sig' : RefSig} {κ : Kind} {sp : Space} (v : View sig' κ sp S4x1x512 .f32) (k : ℕ) (hk : k < 4)
    (inbk : ∀ a, (![k, 0, 0] : Fin 3 → ℕ) a + S1x1x512.size a ≤ S4x1x512.size a)
    (inbW : ∀ a, (![0, 0, 0] : Fin 3 → ℕ) a + S4x1x512.size a ≤ S4x1x512.size a)
     (n : Fin 512) :
    v.readCov [(⟨Rect.unit (s := S4x1x512) ![0, 0, 0] S4x1x512.size inbW, k1_pay3 (F := Ideal)⟩ : View.Piece (Elt Ideal) S4x1x512 .f32)]
      (Rect.unit (s := S4x1x512) ![k, 0, 0] S1x1x512.size inbk).toLoadRect (ix3 (0 : Fin 1) (0 : Fin 1) n) = ⊤ :=
  readCov_reset v [] k hk inbk inbW (fun p hp n => absurd hp List.not_mem_nil) n

theorem readCov_reset1 {sig' : RefSig} {κ : Kind} {sp : Space} (v : View sig' κ sp S4x1x512 .f32) (k : ℕ) (hk : k < 4)
    (inbk : ∀ a, (![k, 0, 0] : Fin 3 → ℕ) a + S1x1x512.size a ≤ S4x1x512.size a)
    (inbW : ∀ a, (![0, 0, 0] : Fin 3 → ℕ) a + S4x1x512.size a ≤ S4x1x512.size a)
    (k0 : ℕ) (inb0 : ∀ a, (![k0, 0, 0] : Fin 3 → ℕ) a + S1x1x512.size a ≤ S4x1x512.size a) (w0 : (Rect.unit (s := S4x1x512) ![k0, 0, 0] S1x1x512.size inb0).shape.Idx → Elt Ideal .f32) (hne0 : k ≠ k0) (n : Fin 512) :
    v.readCov [(⟨Rect.unit (s := S4x1x512) ![k0, 0, 0] S1x1x512.size inb0, w0⟩ : View.Piece (Elt Ideal) S4x1x512 .f32), (⟨Rect.unit (s := S4x1x512) ![0, 0, 0] S4x1x512.size inbW, k1_pay3 (F := Ideal)⟩ : View.Piece (Elt Ideal) S4x1x512 .f32)]
      (Rect.unit (s := S4x1x512) ![k, 0, 0] S1x1x512.size inbk).toLoadRect (ix3 (0 : Fin 1) (0 : Fin 1) n) = ⊤ :=
  readCov_reset v [(⟨Rect.unit (s := S4x1x512) ![k0, 0, 0] S1x1x512.size inb0, w0⟩ : View.Piece (Elt Ideal) S4x1x512 .f32)] k hk inbk inbW (fun p hp n => by
      simp only [List.mem_cons, List.mem_nil_iff, or_false] at hp
      rcases hp with rfl
      · exact scrRow_not_mem k0 inb0 _ (fun h => hne0 h)) n

theorem readCov_reset2 {sig' : RefSig} {κ : Kind} {sp : Space} (v : View sig' κ sp S4x1x512 .f32) (k : ℕ) (hk : k < 4)
    (inbk : ∀ a, (![k, 0, 0] : Fin 3 → ℕ) a + S1x1x512.size a ≤ S4x1x512.size a)
    (inbW : ∀ a, (![0, 0, 0] : Fin 3 → ℕ) a + S4x1x512.size a ≤ S4x1x512.size a)
    (k1 : ℕ) (inb1 : ∀ a, (![k1, 0, 0] : Fin 3 → ℕ) a + S1x1x512.size a ≤ S4x1x512.size a) (w1 : (Rect.unit (s := S4x1x512) ![k1, 0, 0] S1x1x512.size inb1).shape.Idx → Elt Ideal .f32) (hne1 : k ≠ k1)
    (k0 : ℕ) (inb0 : ∀ a, (![k0, 0, 0] : Fin 3 → ℕ) a + S1x1x512.size a ≤ S4x1x512.size a) (w0 : (Rect.unit (s := S4x1x512) ![k0, 0, 0] S1x1x512.size inb0).shape.Idx → Elt Ideal .f32) (hne0 : k ≠ k0) (n : Fin 512) :
    v.readCov [(⟨Rect.unit (s := S4x1x512) ![k1, 0, 0] S1x1x512.size inb1, w1⟩ : View.Piece (Elt Ideal) S4x1x512 .f32), (⟨Rect.unit (s := S4x1x512) ![k0, 0, 0] S1x1x512.size inb0, w0⟩ : View.Piece (Elt Ideal) S4x1x512 .f32), (⟨Rect.unit (s := S4x1x512) ![0, 0, 0] S4x1x512.size inbW, k1_pay3 (F := Ideal)⟩ : View.Piece (Elt Ideal) S4x1x512 .f32)]
      (Rect.unit (s := S4x1x512) ![k, 0, 0] S1x1x512.size inbk).toLoadRect (ix3 (0 : Fin 1) (0 : Fin 1) n) = ⊤ :=
  readCov_reset v [(⟨Rect.unit (s := S4x1x512) ![k1, 0, 0] S1x1x512.size inb1, w1⟩ : View.Piece (Elt Ideal) S4x1x512 .f32), (⟨Rect.unit (s := S4x1x512) ![k0, 0, 0] S1x1x512.size inb0, w0⟩ : View.Piece (Elt Ideal) S4x1x512 .f32)] k hk inbk inbW (fun p hp n => by
      simp only [List.mem_cons, List.mem_nil_iff, or_false] at hp
      rcases hp with rfl | rfl
      · exact scrRow_not_mem k1 inb1 _ (fun h => hne1 h)
      · exact scrRow_not_mem k0 inb0 _ (fun h => hne0 h)) n

theorem readCov_reset3 {sig' : RefSig} {κ : Kind} {sp : Space} (v : View sig' κ sp S4x1x512 .f32) (k : ℕ) (hk : k < 4)
    (inbk : ∀ a, (![k, 0, 0] : Fin 3 → ℕ) a + S1x1x512.size a ≤ S4x1x512.size a)
    (inbW : ∀ a, (![0, 0, 0] : Fin 3 → ℕ) a + S4x1x512.size a ≤ S4x1x512.size a)
    (k2 : ℕ) (inb2 : ∀ a, (![k2, 0, 0] : Fin 3 → ℕ) a + S1x1x512.size a ≤ S4x1x512.size a) (w2 : (Rect.unit (s := S4x1x512) ![k2, 0, 0] S1x1x512.size inb2).shape.Idx → Elt Ideal .f32) (hne2 : k ≠ k2)
    (k1 : ℕ) (inb1 : ∀ a, (![k1, 0, 0] : Fin 3 → ℕ) a + S1x1x512.size a ≤ S4x1x512.size a) (w1 : (Rect.unit (s := S4x1x512) ![k1, 0, 0] S1x1x512.size inb1).shape.Idx → Elt Ideal .f32) (hne1 : k ≠ k1)
    (k0 : ℕ) (inb0 : ∀ a, (![k0, 0, 0] : Fin 3 → ℕ) a + S1x1x512.size a ≤ S4x1x512.size a) (w0 : (Rect.unit (s := S4x1x512) ![k0, 0, 0] S1x1x512.size inb0).shape.Idx → Elt Ideal .f32) (hne0 : k ≠ k0) (n : Fin 512) :
    v.readCov [(⟨Rect.unit (s := S4x1x512) ![k2, 0, 0] S1x1x512.size inb2, w2⟩ : View.Piece (Elt Ideal) S4x1x512 .f32), (⟨Rect.unit (s := S4x1x512) ![k1, 0, 0] S1x1x512.size inb1, w1⟩ : View.Piece (Elt Ideal) S4x1x512 .f32), (⟨Rect.unit (s := S4x1x512) ![k0, 0, 0] S1x1x512.size inb0, w0⟩ : View.Piece (Elt Ideal) S4x1x512 .f32), (⟨Rect.unit (s := S4x1x512) ![0, 0, 0] S4x1x512.size inbW, k1_pay3 (F := Ideal)⟩ : View.Piece (Elt Ideal) S4x1x512 .f32)]
      (Rect.unit (s := S4x1x512) ![k, 0, 0] S1x1x512.size inbk).toLoadRect (ix3 (0 : Fin 1) (0 : Fin 1) n) = ⊤ :=
  readCov_reset v [(⟨Rect.unit (s := S4x1x512) ![k2, 0, 0] S1x1x512.size inb2, w2⟩ : View.Piece (Elt Ideal) S4x1x512 .f32), (⟨Rect.unit (s := S4x1x512) ![k1, 0, 0] S1x1x512.size inb1, w1⟩ : View.Piece (Elt Ideal) S4x1x512 .f32), (⟨Rect.unit (s := S4x1x512) ![k0, 0, 0] S1x1x512.size inb0, w0⟩ : View.Piece (Elt Ideal) S4x1x512 .f32)] k hk inbk inbW (fun p hp n => by
      simp only [List.mem_cons, List.mem_nil_iff, or_false] at hp
      rcases hp with rfl | rfl | rfl
      · exact scrRow_not_mem k2 inb2 _ (fun h => hne2 h)
      · exact scrRow_not_mem k1 inb1 _ (fun h => hne1 h)
      · exact scrRow_not_mem k0 inb0 _ (fun h => hne0 h)) n

-- Induction step over the writes, newest first: off row `k` the older writes decide, on row `k` the newest one does.
theorem canon_cons_row (G : Vec Ideal S4x1x512 .f32) (k : ℕ) (hk : k < 4) (inb : ∀ a, (![k, 0, 0] : Fin 3 → ℕ) a + S1x1x512.size a ≤ S4x1x512.size a)
    (w : (Rect.unit (s := S4x1x512) ![k, 0, 0] S1x1x512.size inb).shape.Idx → Elt Ideal .f32) (L : List (View.Piece (Elt Ideal) S4x1x512 .f32)) (b : Fin 4) (n : Fin 512)
    (hL : b.val ≠ k → View.canon L (ix3 b (0 : Fin 1) n) = G (ix3 b (0 : Fin 1) n)) (hw : ∀ n : Fin 512, w (ix3 (0 : Fin 1) (0 : Fin 1) n) = G (ix3 (⟨k, hk⟩ : Fin 4) (0 : Fin 1) n)) :
    View.canon ((⟨Rect.unit (s := S4x1x512) ![k, 0, 0] S1x1x512.size inb, w⟩ : View.Piece (Elt Ideal) S4x1x512 .f32) :: L) (ix3 b (0 : Fin 1) n) = G (ix3 b (0 : Fin 1) n) := by
  by_cases h : b.val = k
  · subst h
    exact ((congrArg _ (scrRow_emb _ hk inb n).symm).trans (View.canon_cons_emb _ w L _)).trans (hw n)
  · exact (View.canon_cons_of_not_mem ⟨_, w⟩ L (scrRow_not_mem k inb (ix3 b 0 n) h)).trans (hL h)

variable (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x1x512 .f32) (harg5 : arg5.IsWhole)

set_option maxHeartbeats 1600000 in
-- The four rows written at an odd point are the rows of `densStep`; the output block is their copy.
theorem out_B_eq (hc0 : ¬cond1_0 i) (hc1 : cond1_1 i) (x0 x1 : Vec Ideal S4x3x512 .f32) (xs0 : Vec Ideal S4x1x512 .f32) :
    out1_B_2 (F := Ideal) c i arg2 harg2 arg3 harg3 arg4 harg4 arg5 harg5 hc0 hc1 x0 x1 xs0 = densOutBlk (densStep (i 0).val (i 1).val x0 x1 xs0) := by
  unfold out1_B_2
  rw [View.read_writes_eq_canon _ _ _ (fun _ => cover1_B_2 ..)]
  unfold kernelRun1_B
  dsimp only
  sl_unfold_words
  rw [View.canon_unit_zero hz2]
  funext y
  unfold k1_pay2
  refine (shapeCast_apply _ shapeCasts_S4x1x512_S4x512 y (ix3 (y 0) 0 (y 1)) ?_).trans ?_
  · rw [Shape.rowMajor_val_three, Shape.rowMajor_val_two]
    show ((y 0).val * 1 + 0) * 512 + (y 1).val = (y 0).val * 512 + (y 1).val
    omega
  refine (congrFun (View.readCov_eq_canon' arg5.view _ _) _).trans ((congrFun (View.ld_unit_zero hz3 _ (View.canon _)) _).trans ?_)
  iterate 4 refine canon_cons_row (densStep (i 0).val (i 1).val x0 x1 xs0) _ (by omega) _ _ _ _ _ (fun _ => ?_) fun n => ?_
  · have : (y 0).val < 4 := (y 0).isLt
    omega
  on_goal 1 => refine (congrFun (pay_row0 (k1_pay4 i) _ _ _) _).trans ?_
  on_goal 2 => refine (congrFun (pay_row1 (k1_pay4 i) _ _ _) _).trans ?_
  on_goal 3 => refine (congrFun (pay_row2 (k1_pay4 i) _ _ _) _).trans ?_
  on_goal 4 => refine (congrFun (pay_row3 (k1_pay4 i) _ _ _) _).trans ?_
  all_goals
    exact row_step i _ _ x0 x1 xs0 _ _ _ (fun cc n => inRow_ld arg2 harg2 x0 _ _ _ cc n) (fun cc n => inRow_ld arg3 harg3 x1 _ _ _ cc n)
      (fun n => scrRow_ld arg5 harg5 xs0 _ _ _ n) n

set_option maxHeartbeats 1600000 in
theorem sout_A_eq (hc0 : cond1_0 i) (hc1 : ¬cond1_1 i) (x0 x1 : Vec Ideal S4x3x512 .f32) :
    sout1_A_0 (F := Ideal) c i arg2 harg2 arg3 harg3 arg4 harg4 arg5 harg5 hc0 hc1 x0 x1 = densStep (i 0).val (i 1).val x0 x1 topScr := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  refine canon_rows _ _ _ _ _ _ _ _ _ _ (fun n => ?_) (fun n => ?_) (fun n => ?_) (fun n => ?_)
  · refine (congrFun (pay_row3 (k1_pay4 i) _ _ _) _).trans ?_
    exact row_step i 3 (by omega) x0 x1 topScr _ _ _ (fun cc n => inRow_ld arg2 harg2 x0 3 (by omega) _ cc n) (fun cc n => inRow_ld arg3 harg3 x1 3 (by omega) _ cc n)
      (fun n => readCov_reset3 arg5.view 3 (by omega) _ _ 2 _ _ (by omega) 1 _ _ (by omega) 0 _ _ (by omega) n) n
  · refine (congrFun (pay_row2 (k1_pay4 i) _ _ _) _).trans ?_
    exact row_step i 2 (by omega) x0 x1 topScr _ _ _ (fun cc n => inRow_ld arg2 harg2 x0 2 (by omega) _ cc n) (fun cc n => inRow_ld arg3 harg3 x1 2 (by omega) _ cc n)
      (fun n => readCov_reset2 arg5.view 2 (by omega) _ _ 1 _ _ (by omega) 0 _ _ (by omega) n) n
  · refine (congrFun (pay_row1 (k1_pay4 i) _ _ _) _).trans ?_
    exact row_step i 1 (by omega) x0 x1 topScr _ _ _ (fun cc n => inRow_ld arg2 harg2 x0 1 (by omega) _ cc n) (fun cc n => inRow_ld arg3 harg3 x1 1 (by omega) _ cc n)
      (fun n => readCov_reset1 arg5.view 1 (by omega) _ _ 0 _ _ (by omega) n) n
  · refine (congrFun (pay_row0 (k1_pay4 i) _ _ _) _).trans ?_
    exact row_step i 0 (by omega) x0 x1 topScr _ _ _ (fun cc n => inRow_ld arg2 harg2 x0 0 (by omega) _ cc n) (fun cc n => inRow_ld arg3 harg3 x1 0 (by omega) _ cc n)
      (fun n => readCov_reset0 arg5.view 0 (by omega) _ _  n) n

section Regions
variable (V : (c : Dev nD) → (b : Ref sig .tc) → Buf (Elt Ideal) ((c : Thread nD τ).loc b))

theorem dens_in_idx : ∀ t : Fin cfg1.N,
    (win1_0.index t (0 : Fin 3) = 0 ∧ win1_0.index t (1 : Fin 3) = 0 ∧ win1_0.index t (2 : Fin 3) = t.val / 2)
    ∧ (win1_1.index t (0 : Fin 3) = 0 ∧ win1_1.index t (1 : Fin 3) = 0 ∧ win1_1.index t (2 : Fin 3) = t.val % 2)
    ∧ ((grid1.coords t 0).val = t.val / 2 ∧ (grid1.coords t 1).val = t.val % 2) :=
  (by decide +kernel : ∀ t : Fin grid1.N, _)

-- Over the blocks of point `t`, query `r` is point `512 * (t / 2) + r` of the sub-sample and key `col` is point `512 * (t % 2) + col`.
theorem densTile_eq (c : Dev nD) (t : Fin cfg1.N) (b : Fin 4) (r col : Fin 512) (q m : Fin 1024)
    (hq : q.val = 512 * (t.val / 2) + r.val) (hm : m.val = 512 * (t.val % 2) + col.val) :
    densTile (grid1.coords t 0).val (grid1.coords t 1).val (iblk1 V c 0 t) (iblk1 V c 1 t) b r col
      = if q.val = m.val then sqd (fun k => V c main_v33 (ix3 b k q)) (fun k => V c main_v33 (ix3 b k m)) + pen
        else sqd (fun k => V c main_v33 (ix3 b k q)) (fun k => V c main_v33 (ix3 b k m)) := by
  obtain ⟨⟨a0, a1, a2⟩, ⟨b0, b1, b2⟩, c0, c1⟩ := dens_in_idx t
  have eq : ∀ k, iblk1 V c 0 t (ix3 b k r) = V c main_v33 (ix3 b k q) := fun k => by
    show V c main_v33 _ = _
    refine congrArg _ (funext fun a => Fin.ext ?_)
    match a with
    | ⟨0, _⟩ => show win1_0.index t 0 * 4 + 1 * b.val = b.val; omega
    | ⟨1, _⟩ => show win1_0.index t 1 * 3 + 1 * k.val = k.val; omega
    | ⟨2, _⟩ => show win1_0.index t 2 * 512 + 1 * r.val = q.val; omega
  have ek : ∀ k, iblk1 V c 1 t (ix3 b k col) = V c main_v33 (ix3 b k m) := fun k => by
    show V c main_v33 _ = _
    refine congrArg _ (funext fun a => Fin.ext ?_)
    match a with
    | ⟨0, _⟩ => show win1_1.index t 0 * 4 + 1 * b.val = b.val; omega
    | ⟨1, _⟩ => show win1_1.index t 1 * 3 + 1 * k.val = k.val; omega
    | ⟨2, _⟩ => show win1_1.index t 2 * 512 + 1 * col.val = m.val; omega
  unfold densTile
  simp only [eq, ek]
  exact if_congr (by omega) rfl rfl

-- The minimum over the even point's keys, then over the odd point's, is the minimum over all the points of the sub-sample.
theorem after1_2_odd (c : Dev nD) (t : Fin cfg1.N) (ht : t.val % 2 = 1) (y : S4x512.Idx) :
    (dat1 (F := Ideal) V c).after 2 t y = densOutT (V c main_v33) (ix2 (y 0) (densColOf t (y 1))) := by
  have hN : cfg1.N = 4 := N_1
  have h0 : ¬t.val % 2 = 0 := by omega
  have hp : t.val - 1 < cfg1.N := by omega
  rw [after1_2, outsAt1_B V c t h0]
  unfold outB1
  dsimp only
  rw [out_B_eq, outsAt1_A V c ⟨t.val - 1, hp⟩ (by show (t.val - 1) % 2 = 0; omega)]
  unfold outA1
  dsimp only
  rw [sout_A_eq]
  show min (min ⊤ (⨅ col, densTile _ _ _ _ _ _ col)) (⨅ col, densTile _ _ _ _ _ _ col) = (⨅ m : Fin (2 * 512), _ : EReal)
  rw [min_top_left, iInf_blocks 2 512, iInf_fin_two]
  refine congrArg₂ min (iInf_congr fun col => ?_) (iInf_congr fun col => ?_)
  · exact densTile_eq V c ⟨t.val - 1, hp⟩ _ _ _ _ _
      (by show 512 * (t.val / 2) + (y 1).val = 512 * ((t.val - 1) / 2) + (y 1).val; omega)
      (by show 0 * 512 + col.val = 512 * ((t.val - 1) % 2) + col.val; omega)
  · exact densTile_eq V c t _ _ _ _ _ rfl (by show 1 * 512 + col.val = 512 * (t.val % 2) + col.val; omega)

theorem arrAt1 (c : Dev nD) : (dat1 (F := Ideal) V c).arrAt 2 cfg1.N = densOutT (V c main_v33) :=
  arrAt1_of V c (after1_2_odd V c)

end Regions

end Cert.KernelIdeal.Hand

end
-- ==== Proof.KernelIdeal.BridgeK.lean ====
import proofs.«427145_j9268539424872_3_alg».proof.Proof.KernelIdeal.HostValue
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal
open Facts₀ Facts

theorem cloudT_apply (a : Vec Ideal S4x8192x3 .f32) (b : Fin 4) (k : Fin 3) (n : Fin 8192) :
    cloudT (F := Ideal) a (ix3 b k n) = a (ix3 b n k) :=
  transpose_ix3_021_apply a _ b k n

theorem sampleT_apply (a : Vec Ideal S4x8192x3 .f32) (ix : IVec S1024 32) (b : Fin 4) (k : Fin 3) (n : Fin 1024) :
    sampleT (F := Ideal) a ix (ix3 b k n) = gatherPts (F := Ideal) a ix (ix3 b n k) :=
  transpose_ix3_021_apply (gatherPts (F := Ideal) a ix) _ b k n

theorem colMin_apply (col : Vec Ideal S2x4x8192 .f32) (b : Fin 4) (m : Fin 8192) :
    colMin (F := Ideal) col (ix2 b m) = min (col (ix3 (0 : Fin 2) b m)) (col (ix3 (1 : Fin 2) b m)) := by
  unfold colMin
  rw [minimumf_apply, shapeCast_1ab_ab_apply, shapeCast_1ab_ab_apply]
  congr 1 <;> exact extractStridedSlice_apply _ col _ _ _ (fun a => match a with | ⟨0, _⟩ => rfl | ⟨1, _⟩ => by simp | ⟨2, _⟩ => by simp)

end Cert.KernelIdeal.Hand

end
-- ==== Proof.RefMath.lean ====
import proofs.«427145_j9268539424872_3_alg».proof.Proof.Spec
import proofs.«427145_j9268539424872_3_alg».proof.Proof.RefStages
import Idealize.ShloMosaic.Lib.IdealHost
import Idealize.ShloMosaic.Lib.Pipeline.Value

noncomputable section

open scoped BigOperators

namespace Cert.ReferenceIdeal.Hand

open Idealize.ShloMosaic Idealize.ShloMosaic.ValueIdx Cert.ReferenceIdeal Cert.ReferenceIdeal.Facts₀
open Cert.Hand

variable [Facts] {N : ℕ}

-- The index of a reduced array with the dropped last (middle) coordinate put back.
theorem lift_d2 {a b c : ℕ} (h : (⟨3, ![a, b, c]⟩ : Shape).Reduces [2] ⟨2, ![a, b]⟩) (x : Fin a) (y : Fin b) (z : Fin c) :
    h.lift (ix2 x y) z = ix3 x y z :=
  funext fun i => Fin.ext (by match i with | ⟨0, _⟩ => rfl | ⟨1, _⟩ => rfl | ⟨2, _⟩ => rfl)

theorem lift_d1 {a b c : ℕ} (h : (⟨3, ![a, b, c]⟩ : Shape).Reduces [1] ⟨2, ![a, c]⟩) (x : Fin a) (z : Fin c) (y : Fin b) :
    h.lift (ix2 x z) y = ix3 x y z :=
  funext fun i => Fin.ext (by match i with | ⟨0, _⟩ => rfl | ⟨1, _⟩ => rfl | ⟨2, _⟩ => rfl)

-- A minimum over one axis from +∞ is the infimum over that axis, at any shape.
theorem min_apply {s t : Shape} {a : Fin s.rank} (h' : s.ReducesTo [a] t) (h : s.Reduces [a] t) (D : FVec Ideal s .f32) (j : t.Idx) :
    Host.reduce (FloatOps.minimumf (F := Ideal) (φ := .f32)) D (constant (F := Ideal) S_ .f32 0x7F800000#32) h' h_S_ j
      = ⨅ m : Fin (s.size a), D (h.lift j m) := by
  rw [Host.reduce_eq_fold_single (FloatOps.minimumf (F := Ideal) (φ := .f32)) _ _ h' h h_S_, constant_apply, Spec.inf_eq_top]
  exact Spec.fold_min_top_eq_iInf _

-- The squared norm of each of the N points of a batch.
theorem sqSum_apply (h' : (⟨3, ![4, N, 3]⟩ : Shape).ReducesTo [2] ⟨2, ![4, N]⟩) (h : (⟨3, ![4, N, 3]⟩ : Shape).Reduces [2] ⟨2, ![4, N]⟩)
    (x : FVec Ideal ⟨3, ![4, N, 3]⟩ .f32) (b : Fin 4) (n : Fin N) :
    Host.reduceAdd (F := Ideal) (mulf (F := Ideal) x x) (constant (F := Ideal) S_ .f32 0x00000000#32) h' h_S_ (ix2 b n)
      = 0 + ∑ k : Fin 3, x (ix3 b n k) * x (ix3 b n k) := by
  rw [hostReduceAdd_apply, Ideal.hostReduceAdd_single h' h]
  exact congrArg₂ (· + ·) Ideal.ofBits_zero_f32 (Finset.sum_congr rfl fun k _ => congrArg (fun i => x i * x i) (lift_d2 h b n k))

-- The batched product of two clouds of N points over their three components.
def dotT (w : DotDims.WF (⟨3, ![4, N, 3]⟩ : Shape) ⟨3, ![4, N, 3]⟩ ⟨3, ![4, N, N]⟩ [2] [2] [1] [1] [0] [0]) :
    DotDims ⟨3, ![4, N, 3]⟩ ⟨3, ![4, N, 3]⟩ ⟨3, ![4, N, N]⟩ := ⟨[2], [2], [1], [1], [0], [0], w⟩

theorem dotT_apply (w : DotDims.WF (⟨3, ![4, N, 3]⟩ : Shape) ⟨3, ![4, N, 3]⟩ ⟨3, ![4, N, N]⟩ [2] [2] [1] [1] [0] [0]) (A B : FVec Ideal ⟨3, ![4, N, 3]⟩ .f32) (b : Fin 4) (n m : Fin N) :
    Host.dotGeneral (F := Ideal) (⟨[2], [2], [1], [1], [0], [0], w⟩ : DotDims ⟨3, ![4, N, 3]⟩ ⟨3, ![4, N, 3]⟩ ⟨3, ![4, N, N]⟩) none A B (ix3 b n m)
      = ∑ k : Fin 3, A (ix3 b n k) * B (ix3 b m k) := by
  show FloatOps.dotGeneral (dotT w) none _ A B (ix3 b n m) = _
  rw [Ideal.dotGeneral_apply, ← Equiv.sum_comp (contrEquiv1 (dotT w) 3 rfl rfl).symm]
  refine Finset.sum_congr rfl fun k _ => ?_
  have hk := contrEquiv1_symm_val (dotT w) 3 rfl rfl k
  have el : (dotT w).lhsIdx (ix3 b n m) ((contrEquiv1 (dotT w) 3 rfl rfl).symm k) = ix3 b n k := funext fun a => Fin.ext (by
    match a with
    | ⟨0, _⟩ => rfl
    | ⟨1, _⟩ => rfl
    | ⟨2, _⟩ => exact ((dotT w).lhsIdx_val_of_single rfl _ _).trans hk)
  have er : (dotT w).rhsIdx (ix3 b n m) ((contrEquiv1 (dotT w) 3 rfl rfl).symm k) = ix3 b m k := funext fun a => Fin.ext (by
    match a with
    | ⟨0, _⟩ => rfl
    | ⟨1, _⟩ => rfl
    | ⟨2, _⟩ => exact ((dotT w).rhsIdx_val_of_single rfl _ _).trans hk)
  rw [el, er]

-- A value per (b, n) carried along m, and a value per (b, m) carried along n.
theorem bc_col {α : Type} (hN : N ≠ 1) (h1 : (⟨2, ![4, N]⟩ : Shape).BroadcastsInDim ⟨3, ![4, N, 1]⟩ ![0, 1])
    (h2 : (⟨3, ![4, N, 1]⟩ : Shape).BroadcastsInDim ⟨3, ![4, N, N]⟩ ![0, 1, 2]) (v : (⟨2, ![4, N]⟩ : Shape).Idx → α)
    (b : Fin 4) (n m : Fin N) :
    broadcastInDim ⟨3, ![4, N, N]⟩ ![0, 1, 2] h2 (broadcastInDim ⟨3, ![4, N, 1]⟩ ![0, 1] h1 v) (ix3 b n m) = v (ix2 b n) := by
  refine (broadcastInDim_apply _ _ _ (ix3 b n m) (ix3 b n (0 : Fin 1)) fun a => ?_).trans
    (broadcastInDim_apply _ _ _ (ix3 b n (0 : Fin 1)) (ix2 b n) fun a => ?_)
  · match a with | ⟨0, _⟩ => rfl | ⟨1, _⟩ => exact (if_neg hN).symm | ⟨2, _⟩ => rfl
  · match a with | ⟨0, _⟩ => rfl | ⟨1, _⟩ => exact (if_neg hN).symm

theorem bc_row {α : Type} (hN : N ≠ 1) (h1 : (⟨2, ![4, N]⟩ : Shape).BroadcastsInDim ⟨3, ![4, 1, N]⟩ ![0, 2])
    (h2 : (⟨3, ![4, 1, N]⟩ : Shape).BroadcastsInDim ⟨3, ![4, N, N]⟩ ![0, 1, 2]) (v : (⟨2, ![4, N]⟩ : Shape).Idx → α)
    (b : Fin 4) (n m : Fin N) :
    broadcastInDim ⟨3, ![4, N, N]⟩ ![0, 1, 2] h2 (broadcastInDim ⟨3, ![4, 1, N]⟩ ![0, 2] h1 v) (ix3 b n m) = v (ix2 b m) := by
  refine (broadcastInDim_apply _ _ _ (ix3 b n m) (ix3 b (0 : Fin 1) m) fun a => ?_).trans
    (broadcastInDim_apply _ _ _ (ix3 b (0 : Fin 1) m) (ix2 b m) fun a => ?_)
  · match a with | ⟨0, _⟩ => rfl | ⟨1, _⟩ => rfl | ⟨2, _⟩ => exact (if_neg hN).symm
  · match a with | ⟨0, _⟩ => rfl | ⟨1, _⟩ => exact (if_neg hN).symm

theorem dMat_eq_sqd (a0 a3 : FVec Ideal S4x8192x3 .f32) (h0 : ∀ i, a0 i ≠ ⊤ ∧ a0 i ≠ ⊥) (h3 : ∀ i, a3 i ≠ ⊤ ∧ a3 i ≠ ⊥)
    (b : Fin 4) (n m : Fin 8192) : dMat a0 a3 (ix3 b n m) = Spec.sqd (Spec.pt a0 b n) (Spec.pt a3 b m) := by
  unfold dMat sqSum8 dot8 dot_S4x8192x3_S4x8192x3_S4x8192x8192_2_2_1_1_0_0
  rw [subf_apply, addf_apply, mulf_apply, bc_col (by decide), bc_row (by decide), sqSum_apply (N := 8192) _ (by decide),
    sqSum_apply (N := 8192) _ (by decide), dotT_apply, broadcastInDim_scalar_apply, constant_apply]
  exact (Spec.sqd_eq_expand (Spec.pt a0 b n) (Spec.pt a3 b m) (fun _ => h0 _) (fun _ => h3 _)).symm

theorem dMat1_eq_sqd (x : FVec Ideal S4x1024x3 .f32) (hx : ∀ i, x i ≠ ⊤ ∧ x i ≠ ⊥) (b : Fin 4) (n m : Fin 1024) :
    dMat1 x (ix3 b n m) = Spec.sqd (Spec.ptX x b n) (Spec.ptX x b m) := by
  unfold dMat1 sqSum1 dot1 dot_S4x1024x3_S4x1024x3_S4x1024x1024_2_2_1_1_0_0
  rw [subf_apply, addf_apply, mulf_apply, bc_col (by decide), bc_row (by decide), sqSum_apply (N := 1024) _ (by decide),
    sqSum_apply (N := 1024) _ (by decide), dotT_apply, broadcastInDim_scalar_apply, constant_apply]
  exact (Spec.sqd_eq_expand (Spec.ptX x b n) (Spec.ptX x b m) (fun _ => hx _) (fun _ => hx _)).symm

theorem eyeBit_apply (n m : Fin 1024) : eyeBit (ix2 n m) = if n = m then 1#1 else 0#1 := by
  unfold eyeBit
  show IntOp.cmpi .eq (IntOp.addi (BitVec.ofNat 32 n.val)
    (broadcastInDim S1024x1024 ![] bcast_S_S1024x1024 (constantI S_ 32 0#32) (ix2 n m))) (BitVec.ofNat 32 m.val) = _
  rw [broadcastInDim_scalar_apply]
  show BitVec.ofBool (BitVec.ofNat 32 n.val + 0#32 == BitVec.ofNat 32 m.val) = _
  rw [BitVec.add_zero]
  by_cases h : n = m
  · subst h; simp
  · have hne : ¬ BitVec.ofNat 32 n.val = BitVec.ofNat 32 m.val := fun e => h (Fin.ext (by
      have := congrArg BitVec.toNat e
      simp only [BitVec.toNat_ofNat] at this
      omega))
    have hb : (BitVec.ofNat 32 n.val == BitVec.ofNat 32 m.val) = false := beq_eq_false_iff_ne.mpr hne
    rw [if_neg h, hb]; rfl

theorem eyePen_apply (b : Fin 4) (n m : Fin 1024) :
    eyePen (ix3 b n m) = (if n = m then (1 : EReal) else 0) * Spec.pen := by
  unfold eyePen
  refine (broadcastInDim_apply _ _ _ (ix3 b n m) (ix3 (0 : Fin 1) n m) fun a => ?_).trans ?_
  · match a with | ⟨0, _⟩ => rfl | ⟨1, _⟩ => rfl | ⟨2, _⟩ => rfl
  rw [mulf_apply, broadcastInDim_scalar_apply, constant_apply]
  refine congrArg (· * Spec.pen) ?_
  refine (broadcastInDim_apply _ _ _ (ix3 (0 : Fin 1) n m) (ix2 n m) fun a => ?_).trans ?_
  · match a with | ⟨0, _⟩ => rfl | ⟨1, _⟩ => rfl
  show FloatOps.uitofp (F := Ideal) .f32 (eyeBit (ix2 n m)) = _
  rw [eyeBit_apply]
  by_cases h : n = m
  · rw [if_pos h, if_pos h]; show (((1#1 : BitVec 1).toNat : ℝ) : EReal) = 1; simp
  · rw [if_neg h, if_neg h]; show (((0#1 : BitVec 1).toNat : ℝ) : EReal) = 0; simp

theorem rowMinRef_eq (a0 a3 : FVec Ideal S4x8192x3 .f32) (h0 : ∀ i, a0 i ≠ ⊤ ∧ a0 i ≠ ⊥) (h3 : ∀ i, a3 i ≠ ⊤ ∧ a3 i ≠ ⊥) :
    rowMinRef a0 a3 = Spec.rowMin a0 a3 := by
  funext i
  obtain ⟨b, n, rfl⟩ : ∃ (b : Fin 4) (n : Fin 8192), i = ix2 b n := ⟨i 0, i 1, eq_ix2 i⟩
  rw [Spec.rowMin_ix2]
  exact (min_apply reducesTo_S4x8192x8192_S4x8192_d2 (by decide) _ _).trans
    (iInf_congr fun m => (congrArg (dMat a0 a3) (lift_d2 _ b n m)).trans (dMat_eq_sqd a0 a3 h0 h3 b n m))

theorem colMinRef_eq (a0 a3 : FVec Ideal S4x8192x3 .f32) (h0 : ∀ i, a0 i ≠ ⊤ ∧ a0 i ≠ ⊥) (h3 : ∀ i, a3 i ≠ ⊤ ∧ a3 i ≠ ⊥) :
    colMinRef a0 a3 = Spec.colMin a0 a3 := by
  funext i
  obtain ⟨b, m, rfl⟩ : ∃ (b : Fin 4) (m : Fin 8192), i = ix2 b m := ⟨i 0, i 1, eq_ix2 i⟩
  rw [Spec.colMin_ix2]
  exact (min_apply reducesTo_S4x8192x8192_S4x8192_d1 (by decide) _ _).trans
    (iInf_congr fun n => (congrArg (dMat a0 a3) (lift_d1 _ b m n)).trans (dMat_eq_sqd a0 a3 h0 h3 b n m))

theorem densRef_eq (x : FVec Ideal S4x1024x3 .f32) (hx : ∀ i, x i ≠ ⊤ ∧ x i ≠ ⊥) :
    densRef x = Spec.densMin x := by
  funext i
  obtain ⟨b, n, rfl⟩ : ∃ (b : Fin 4) (n : Fin 1024), i = ix2 b n := ⟨i 0, i 1, eq_ix2 i⟩
  rw [Spec.densMin_ix2]
  refine (min_apply reducesTo_S4x1024x1024_S4x1024_d2 (by decide) _ _).trans
    (iInf_congr fun (m : Fin 1024) => (congrArg (ddMat x) (lift_d2 _ b n m)).trans ?_)
  rw [ddMat, addf_apply, eyePen_apply, dMat1_eq_sqd x hx, Spec.add_eye_mul]

end Cert.ReferenceIdeal.Hand

end
-- ==== Proof.LibFinite.lean ====
import Idealize.ShloMosaic.PureOps.Ideal
import Idealize.ShloMosaic.PureOps.Ideal.Laws
import Idealize.ShloMosaic.Lib.ValueIdx

noncomputable section

namespace Cert.Fin

open Idealize.ShloMosaic

-- An extended real is finite when it is a real number; an array, when every entry is.
def IsFin (x : EReal) : Prop := ∃ r : ℝ, x = (r : EReal)

def AllFin {ι : Type*} (v : ι → EReal) : Prop := ∀ i, IsFin (v i)

theorem IsFin.ne_top {x : EReal} (h : IsFin x) : x ≠ ⊤ := by
  obtain ⟨r, rfl⟩ := h; exact EReal.coe_ne_top r

theorem IsFin.ne_bot {x : EReal} (h : IsFin x) : x ≠ ⊥ := by
  obtain ⟨r, rfl⟩ := h; exact EReal.coe_ne_bot r

theorem isFin_of_ne {x : EReal} (ht : x ≠ ⊤) (hb : x ≠ ⊥) : IsFin x := by
  induction x using EReal.rec with
  | bot => exact absurd rfl hb
  | top => exact absurd rfl ht
  | coe r => exact ⟨r, rfl⟩

theorem isFin_iff {x : EReal} : IsFin x ↔ x ≠ ⊤ ∧ x ≠ ⊥ :=
  ⟨fun h => ⟨h.ne_top, h.ne_bot⟩, fun h => isFin_of_ne h.1 h.2⟩

-- A gather only picks entries of its source.
theorem allFin_gather {s t si : Shape} {w : Nat} (d : GatherDims s si t) {x : s.Idx → EReal} (idx : IVec si w)
    (hx : AllFin x) : AllFin (Host.gather d x idx) :=
  fun _ => hx _

end Cert.Fin

end
-- ==== Proof.Bridge.lean ====
import proofs.«427145_j9268539424872_3_alg».proof.Proof.KernelIdeal.BridgeK
import proofs.«427145_j9268539424872_3_alg».proof.Proof.RefValue
import proofs.«427145_j9268539424872_3_alg».proof.Proof.RefMath
import proofs.«427145_j9268539424872_3_alg».proof.Proof.LibFinite

noncomputable section

namespace Cert.Hand.Bridge

open Idealize.ShloMosaic Idealize.ShloMosaic.ValueIdx Cert.Hand.Spec Cert.Fin Cert.ReferenceIdeal.Hand

-- The three minima agree when the clouds' entries are real; the rest of both totals is the same term.
theorem total_eq_outRef (a0 a3 : FVec Ideal SP .f32) (a1 a4 : FVec Ideal ⟨3, ![4, 8192, 1]⟩ .f32) (a2 a5 : FVec Ideal ⟨3, ![4, 8192, 4]⟩ .f32)
    (a6 a7 : FVec Ideal ⟨2, ![4, 512]⟩ .f32) (a8 : IVec ⟨1, ![1024]⟩ 32) (h0 : AllFin a0) (h3 : AllFin a3)
    (row : FVec Ideal SR .f32) (col : FVec Ideal ⟨3, ![2, 4, 8192]⟩ .f32) (o : FVec Ideal SD .f32)
    (hrow : row = rowMin a0 a3)
    (hcol : ∀ (h : Fin 2) (b : Fin 4) (m : Fin 8192), col (ix3 h b m) = colMinHalf h a0 a3 (ix2 b m))
    (ho : o = densMin (Cert.KernelIdeal.Hand.gatherPts (F := Ideal) a0 a8)) :
    Cert.KernelIdeal.Hand.total (F := Ideal) a1 a2 a4 a5 a6 a7 row col o
      = Cert.ReferenceIdeal.Hand.outRef a0 a1 a2 a3 a4 a5 a6 a7 a8 := by
  have hcm : Cert.KernelIdeal.Hand.colMin (F := Ideal) col = colMin a0 a3 := funext fun i => by
    obtain ⟨b, m, rfl⟩ : ∃ (b : Fin 4) (m : Fin 8192), i = ix2 b m := ⟨i 0, i 1, eq_ix2 i⟩
    rw [Cert.KernelIdeal.Hand.colMin_apply, hcol, hcol, colMin_eq_min_halves]
  have hf0 := fun i => isFin_iff.mp (h0 i)
  have hf3 := fun i => isFin_iff.mp (h3 i)
  unfold Cert.KernelIdeal.Hand.total Cert.KernelIdeal.Hand.cdTerm outRef
  rw [hcm, hrow, ho, rowMinRef_eq a0 a3 hf0 hf3, colMinRef_eq a0 a3 hf0 hf3,
    densRef_eq (ptsRef (F := Ideal) a0 a8) fun i => isFin_iff.mp (allFin_gather _ _ h0 i)]
  rfl

end Cert.Hand.Bridge

end
-- ==== Proof.PreFinite.lean ====
import proofs.«427145_j9268539424872_3_alg».proof.Pre_finite_inputs
import proofs.«427145_j9268539424872_3_alg».proof.Proof.Gen.Pre_finite_inputs
import proofs.«427145_j9268539424872_3_alg».proof.Proof.LibFinite
import Idealize.ShloMosaic.Lib.ReduceAll

noncomputable section

namespace Cert.Hand.PreFin

open Idealize.ShloMosaic
open Cert.Fin
open Cert.Pre_finite_inputs

theorem ofBits_inf : Ideal.ofBits .f32 0x7F800000#32 = (⊤ : EReal) := by
  simp [Ideal.ofBits, Ideal.ieee]

-- |x| = max x (-x) is below ⊤ exactly when x is neither infinity.
theorem isFin_of_abs_lt_top {x : EReal} (h : max x (-x) < ⊤) : IsFin x := by
  rw [max_lt_iff] at h
  refine isFin_of_ne (ne_of_lt h.1) ?_
  rintro rfl
  exact absurd h.2 (by simp)

theorem isFin_of_cmp_abs_inf {x : Ideal .f32}
    (h : FloatOps.cmpf .olt (FloatOps.hostAbsf x) (FloatOps.ofBits (F := Ideal) .f32 0x7F800000#32) = 1#1) :
    IsFin x := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact isFin_of_abs_lt_top hlt
  · simp [hlt] at h'

instance subsingleton_scalarIdx : Subsingleton (⟨0, ![]⟩ : Shape).Idx :=
  ⟨fun a b => funext fun d => d.elim0⟩

theorem finite_of_all_abs_lt {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ValueIdx.ix0 = 1#1) :
    AllFin x := by
  intro i
  exact isFin_of_cmp_abs_inf (Host.reduce_andi_all _ _ hr hu ValueIdx.ix0 e i)

-- A conjunction of words is the true word exactly when each conjunct is: one conjunct per float input.
theorem allFin_of_pre (a0 : FVec Ideal S4x8192x3 .f32) (a1 : FVec Ideal S4x8192x1 .f32)
    (a2 : FVec Ideal S4x8192x4 .f32) (a3 : FVec Ideal S4x8192x3 .f32) (a4 : FVec Ideal S4x8192x1 .f32)
    (a5 : FVec Ideal S4x8192x4 .f32) (a6 : FVec Ideal S4x512 .f32) (a7 : FVec Ideal S4x512 .f32)
    (a8 : IVec S1024 32) [Cert.Pre_finite_inputs.Facts]
    (h : Cert.Pre_finite_inputs.fn (F := Ideal) a0 a1 a2 a3 a4 a5 a6 a7 a8 = fun _ => 1#1) :
    AllFin a0 ∧ AllFin a1 ∧ AllFin a2 ∧ AllFin a3 ∧ AllFin a4 ∧ AllFin a5 ∧ AllFin a6 ∧ AllFin a7 := by
  have h0 := congrFun h ValueIdx.ix0
  dsimp only [fn, fn_part1, fn_part2, andi] at h0
  simp only [IntOp.andi_eq_one] at h0
  obtain ⟨⟨⟨⟨⟨⟨⟨e0, e1⟩, e2⟩, e3⟩, e4⟩, e5⟩, e6⟩, e7⟩ := h0
  exact ⟨finite_of_all_abs_lt a0 _ _ _ e0, finite_of_all_abs_lt a1 _ _ _ e1,
    finite_of_all_abs_lt a2 _ _ _ e2, finite_of_all_abs_lt a3 _ _ _ e3,
    finite_of_all_abs_lt a4 _ _ _ e4, finite_of_all_abs_lt a5 _ _ _ e5,
    finite_of_all_abs_lt a6 _ _ _ e6, finite_of_all_abs_lt a7 _ _ _ e7⟩

end Cert.Hand.PreFin

end
-- ==== Proof.KernelValue.lean ====
import proofs.«427145_j9268539424872_3_alg».proof.Proof.KernelIdeal.Launch
import proofs.«427145_j9268539424872_3_alg».proof.Proof.KernelIdeal.HostValue
import proofs.«427145_j9268539424872_3_alg».proof.Proof.KernelIdeal.R0Array
import proofs.«427145_j9268539424872_3_alg».proof.Proof.KernelIdeal.R1Value
import proofs.«427145_j9268539424872_3_alg».proof.Proof.Bridge
import proofs.«427145_j9268539424872_3_alg».proof.Proof.PreFinite

noncomputable section

namespace Cert.KernelIdeal.Hand

open Idealize.ShloMosaic Idealize.ShloMosaic.TcCoe Idealize.ShloMosaic.ValueIdx Idealize.SL.Sem
open Cert.KernelIdeal Cert.Hand.Spec Cert.Fin

def region0 : Region0 Ideal :=
  ⟨dat0, A_eq0, q_eq0, owed_eq0, rec_eq0, body_obligation0, hin0, hout0⟩
def region1 : Region1 Ideal :=
  ⟨dat1, A_eq1, q1_0, q1_1, owed1, fun _ _ => rfl, body_obligation1, hin1, hout1⟩

variable (m : (ℓ : Loc nD τ sig) → Buf (Elt Ideal) ℓ)

-- Each region's array is the specification's array of the untransposed clouds; the bridge does the rest.
theorem result_eq (c : Dev nD)
    (h0 : AllFin (m ((c : Thread nD τ).loc main_arg0))) (h3 : AllFin (m ((c : Thread nD τ).loc main_arg3))) :
    Gen.V7 m (outs region0 region1 m) c (Proc.devRef .tc main_v53)
      = Cert.ReferenceIdeal.Hand.outRef (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have hP := fun b k n => (congrFun (V1_v0 m c) _).trans (cloudT_apply _ b k n)
  have hQ := fun b k n => (congrFun (V1_v1 m c) _).trans (cloudT_apply _ b k n)
  rw [V7_v53 m (outs region0 region1 m) c]
  refine Cert.Hand.Bridge.total_eq_outRef _ _ _ _ _ _ _ _ _ h0 h3 _ _ _ ?_ (fun h b n => ?_) ?_
  · rw [outs_v2_0]
    exact (arrAt0_row (E1 m) c).trans (rowOutT_transpose _ _ _ _ hP hQ)
  · rw [outs_v2_1]
    exact (congrFun (arrAt0_col (E1 m) c) _).trans (colOutT_transpose _ _ _ _ hP hQ h b n)
  · rw [outs_v34]
    exact (arrAt1 (E3 region0 m) c).trans (densOutT_transpose _ _ fun b k n =>
      (congrFun (V3_v33 m (outs₂ region0 m) c) _).trans (sampleT_apply _ _ b k n))

end Cert.KernelIdeal.Hand

end
-- ==== Proof.lean ====
import proofs.«427145_j9268539424872_3_alg».proof.Defs
import proofs.«427145_j9268539424872_3_alg».proof.Proof.Gen.Kernel
import proofs.«427145_j9268539424872_3_alg».proof.Proof.Gen.KernelIdeal
import proofs.«427145_j9268539424872_3_alg».proof.Proof.Gen.ReferenceIdeal
import proofs.«427145_j9268539424872_3_alg».proof.Proof.Gen.Pre_finite_inputs
import proofs.«427145_j9268539424872_3_alg».proof.Proof.Kernel.R0Frame
import proofs.«427145_j9268539424872_3_alg».proof.Proof.Kernel.R1Frame
import proofs.«427145_j9268539424872_3_alg».proof.Proof.Kernel.Launch
import proofs.«427145_j9268539424872_3_alg».proof.Proof.KernelIdeal.R0Frame
import proofs.«427145_j9268539424872_3_alg».proof.Proof.KernelIdeal.R1Frame
import proofs.«427145_j9268539424872_3_alg».proof.Proof.KernelIdeal.Launch
import proofs.«427145_j9268539424872_3_alg».proof.Proof.RefRun
import proofs.«427145_j9268539424872_3_alg».proof.Proof.RefOut
import proofs.«427145_j9268539424872_3_alg».proof.Proof.KernelValue
import proofs.«427145_j9268539424872_3_alg».proof.Proof.Bridge

noncomputable section

namespace Cert.Proof

open Idealize.ShloMosaic Idealize.SL.Sem

def kRegion0 : Cert.Kernel.Hand.Region0 Bits :=
  ⟨Cert.Kernel.Hand.dat0, Cert.Kernel.Hand.A_eq0, Cert.Kernel.Hand.q_eq0, Cert.Kernel.Hand.owed_eq0, Cert.Kernel.Hand.rec_eq0,
    Cert.Kernel.Hand.body_obligation0, Cert.Kernel.Hand.hin0, Cert.Kernel.Hand.hout0⟩
def kRegion1 : Cert.Kernel.Hand.Region1 Bits :=
  ⟨Cert.Kernel.Hand.dat1, Cert.Kernel.Hand.A_eq1, Cert.Kernel.Hand.q1_0, Cert.Kernel.Hand.q1_1, Cert.Kernel.Hand.owed1, fun _ _ => rfl,
    Cert.Kernel.Hand.body_obligation1, Cert.Kernel.Hand.hin1, Cert.Kernel.Hand.hout1⟩

theorem frame_k : Cert.frame_Kernel := fun m ρ _ => Cert.Kernel.Hand.frame kRegion0 kRegion1 m ρ
theorem frame_ki : Cert.frame_KernelIdeal := fun m ρ _ => Cert.KernelIdeal.Hand.frame Cert.KernelIdeal.Hand.region0 Cert.KernelIdeal.Hand.region1 m ρ
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

-- Both results are the reference's function of the arguments: the kernel's by its regions' values, the reference's by its own run.
theorem algebraic : Cert.algebraic_KernelIdeal_ReferenceIdeal := by
  intro m ρ m' ρ' hpre hagree
  have hfin := fun c : Dev Cert.KernelIdeal.nD => Cert.Hand.PreFin.allFin_of_pre _ _ _ _ _ _ _ _ _ (hpre c)
  refine ⟨fun c => Cert.ReferenceIdeal.Hand.outRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine Cert.KernelIdeal.Hand.run_of Cert.KernelIdeal.Hand.region0 Cert.KernelIdeal.Hand.region1 m ρ (fun s h c => ?_)
    refine ⟨(h c _ (Cert.KernelIdeal.Hand.mem_uc Cert.KernelIdeal.main_v53 (by decide))).trans
        (Cert.KernelIdeal.Hand.result_eq m c (hfin c).1 (hfin c).2.2.2.1), ?_⟩
    exact ⟨(h c _ (Cert.KernelIdeal.Hand.mem_uc Cert.KernelIdeal.main_arg0 (by decide))).trans (Cert.KernelIdeal.Gen.V7_main_arg0 m _ c),
      (h c _ (Cert.KernelIdeal.Hand.mem_uc Cert.KernelIdeal.main_arg1 (by decide))).trans (Cert.KernelIdeal.Gen.V7_main_arg1 m _ c),
      (h c _ (Cert.KernelIdeal.Hand.mem_uc Cert.KernelIdeal.main_arg2 (by decide))).trans (Cert.KernelIdeal.Gen.V7_main_arg2 m _ c),
      (h c _ (Cert.KernelIdeal.Hand.mem_uc Cert.KernelIdeal.main_arg3 (by decide))).trans (Cert.KernelIdeal.Gen.V7_main_arg3 m _ c),
      (h c _ (Cert.KernelIdeal.Hand.mem_uc Cert.KernelIdeal.main_arg4 (by decide))).trans (Cert.KernelIdeal.Gen.V7_main_arg4 m _ c),
      (h c _ (Cert.KernelIdeal.Hand.mem_uc Cert.KernelIdeal.main_arg5 (by decide))).trans (Cert.KernelIdeal.Gen.V7_main_arg5 m _ c),
      (h c _ (Cert.KernelIdeal.Hand.mem_uc Cert.KernelIdeal.main_arg6 (by decide))).trans (Cert.KernelIdeal.Gen.V7_main_arg6 m _ c),
      (h c _ (Cert.KernelIdeal.Hand.mem_uc Cert.KernelIdeal.main_arg7 (by decide))).trans (Cert.KernelIdeal.Gen.V7_main_arg7 m _ c),
      (h c _ (Cert.KernelIdeal.Hand.mem_uc Cert.KernelIdeal.main_arg8 (by decide))).trans (Cert.KernelIdeal.Gen.V7_main_arg8 m _ c)⟩
  · refine (θ_run Cert.ReferenceIdeal.defs _ _).mono (fun r h c => ⟨(h c).1.trans ?_, (h c).2⟩)
      (Cert.ReferenceIdeal.Hand.run_out m' ρ')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
